-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024x1024 : Shape := ⟨2, ![1024, 1024]⟩
abbrev S4x256x32 : Shape := ⟨3, ![4, 256, 32]⟩
abbrev S4x1x64 : Shape := ⟨3, ![4, 1, 64]⟩
abbrev S128x1 : Shape := ⟨2, ![128, 1]⟩
abbrev S1x2 : Shape := ⟨2, ![1, 2]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x256x32 : S_.BroadcastsInDim S4x256x32 (![] : Fin 0 → Fin S4x256x32.rank)
  reducesTo_S4x256x32_S_d0_1_2 : S4x256x32.ReducesTo [0, 1, 2] S_
  bcast_S_S4x1x64 : S_.BroadcastsInDim S4x1x64 (![] : Fin 0 → Fin S4x1x64.rank)
  reducesTo_S4x1x64_S_d0_1_2 : S4x1x64.ReducesTo [0, 1, 2] S_
  bcast_S_S128x1 : S_.BroadcastsInDim S128x1 (![] : Fin 0 → Fin S128x1.rank)
  reducesTo_S128x1_S_d0_1 : S128x1.ReducesTo [0, 1] S_
  bcast_S_S1x2 : S_.BroadcastsInDim S1x2 (![] : Fin 0 → Fin S1x2.rank)
  reducesTo_S1x2_S_d0_1 : S1x2.ReducesTo [0, 1] S_

variable [Facts]

def fn_part2 {F : FTy → Type} [FloatOps F] (main_v28 : IVec S_ 1) (main_v33 : IVec S1024x1024 1) : IVec S_ 1 :=
  let main_c_12 : IVec S_ 1 := constantI S_ 1 1#1
  let main_v34 : IVec S_ 1 := (fun x v => Host.reduce IntOp.andi x v reducesTo_S1024x1024_S_d0_1 h_S_) main_v33 main_c_12
  let main_v35 : IVec S_ 1 := andi main_v28 main_v34
  main_v35

def fn_part1 {F : FTy → Type} [FloatOps F] (main_arg1 : FVec F S1024x1024 .f32) (main_arg4 : FVec F S128x1 .f32) (main_arg5 : FVec F S1x2 .f32) (main_v13 : IVec S_ 1) (main_v16 : IVec S4x1x64 1) : IVec S_ 1 :=
  let main_c_5 : IVec S_ 1 := constantI S_ 1 1#1
  let main_v17 : IVec S_ 1 := (fun x v => Host.reduce IntOp.andi x v reducesTo_S4x1x64_S_d0_1_2 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1x2 .f32 := Host.absf main_arg5
  let main_cst_8 : FVec F S_ .f32 := constant S_ .f32 0x7F800000#32
  let main_v25 : FVec F S1x2 .f32 := broadcastInDim S1x2 ![] bcast_S_S1x2 main_cst_8
  let main_v26 : IVec S1x2 1 := cmpf .olt main_v24 main_v25
  let main_c_9 : IVec S_ 1 := constantI S_ 1 1#1
  let main_v27 : IVec S_ 1 := (fun x v => Host.reduce IntOp.andi x v reducesTo_S1x2_S_d0_1 h_S_) main_v26 main_c_9
  let main_v28 : IVec S_ 1 := andi main_v23 main_v27
  let main_cst_10 : FVec F S_ .f32 := constant S_ .f32 0x00000000#32
  let main_v29 : FVec F S1024x1024 .f32 := broadcastInDim S1024x1024 ![] bcast_S_S1024x1024 main_cst_10
  let main_v30 : IVec S1024x1024 1 := cmpf .oeq main_arg1 main_v29
  let main_cst_11 : FVec F S_ .f32 := constant S_ .f32 0x3F800000#32
  let main_v31 : FVec F S1024x1024 .f32 := broadcastInDim S1024x1024 ![] bcast_S_S1024x1024 main_cst_11
  let main_v32 : IVec S1024x1024 1 := cmpf .oeq main_arg1 main_v31
  let main_v33 : IVec S1024x1024 1 := ori main_v30 main_v32
  fn_part2 (F := F) main_v28 main_v33

def fn {F : FTy → Type} [FloatOps F] (main_arg0 : FVec F S1024x256 .f32) (main_arg1 : FVec F S1024x1024 .f32) (main_arg2 : FVec F S4x256x32 .f32) (main_arg3 : FVec F S4x1x64 .f32) (main_arg4 : FVec F S128x1 .f32) (main_arg5 : FVec F S1x2 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x256x32 .f32 := Host.absf main_arg2
  let main_cst_2 : FVec F S_ .f32 := constant S_ .f32 0x7F800000#32
  let main_v10 : FVec F S4x256x32 .f32 := broadcastInDim S4x256x32 ![] bcast_S_S4x256x32 main_cst_2
  let main_v11 : IVec S4x256x32 1 := cmpf .olt main_v9 main_v10
  let main_c_3 : IVec S_ 1 := constantI S_ 1 1#1
  let main_v12 : IVec S_ 1 := (fun x v => Host.reduce IntOp.andi x v reducesTo_S4x256x32_S_d0_1_2 h_S_) main_v11 main_c_3
  let main_v13 : IVec S_ 1 := andi main_v8 main_v12
  let main_v14 : FVec F S4x1x64 .f32 := Host.absf main_arg3
  let main_cst_4 : FVec F S_ .f32 := constant S_ .f32 0x7F800000#32
  let main_v15 : FVec F S4x1x64 .f32 := broadcastInDim S4x1x64 ![] bcast_S_S4x1x64 main_cst_4
  let main_v16 : IVec S4x1x64 1 := cmpf .olt main_v14 main_v15
  fn_part1 (F := F) main_arg1 main_arg4 main_arg5 main_v13 main_v16
-- ==== Kernel.lean ====
abbrev S1024x256 : Shape := ⟨2, ![1024, 256]⟩
abbrev S1024x1024 : Shape := ⟨2, ![1024, 1024]⟩
abbrev S4x256x32 : Shape := ⟨3, ![4, 256, 32]⟩
abbrev S4x1x64 : Shape := ⟨3, ![4, 1, 64]⟩
abbrev S128x1 : Shape := ⟨2, ![128, 1]⟩
abbrev S1x2 : Shape := ⟨2, ![1, 2]⟩
abbrev S4x1x32 : Shape := ⟨3, ![4, 1, 32]⟩
abbrev S4x32 : Shape := ⟨2, ![4, 32]⟩
abbrev S32x4 : Shape := ⟨2, ![32, 4]⟩
abbrev S1024x1 : Shape := ⟨2, ![1024, 1]⟩
abbrev S1024x512 : Shape := ⟨2, ![1024, 512]⟩
abbrev S1024x4 : Shape := ⟨2, ![1024, 4]⟩
abbrev S4x1024 : Shape := ⟨2, ![4, 1024]⟩
abbrev S1024x128 : Shape := ⟨2, ![1024, 128]⟩
abbrev S1x1024 : Shape := ⟨2, ![1, 1024]⟩
abbrev S1x256x32 : Shape := ⟨3, ![1, 256, 32]⟩
abbrev S256x32 : Shape := ⟨2, ![256, 32]⟩
abbrev S1024x32 : Shape := ⟨2, ![1024, 32]⟩
abbrev S32x1 : Shape := ⟨2, ![32, 1]⟩
abbrev S1x1 : Shape := ⟨2, ![1, 1]⟩

abbrev nBuf : Space → Nat
  | .hbm => 13
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x1024, .f32⟩
  | .hbm, ⟨2, _⟩ => ⟨S4x256x32, .f32⟩
  | .hbm, ⟨3, _⟩ => ⟨S4x1x64, .f32⟩
  | .hbm, ⟨4, _⟩ => ⟨S128x1, .f32⟩
  | .hbm, ⟨5, _⟩ => ⟨S1x2, .f32⟩
  | .hbm, ⟨6, _⟩ => ⟨S4x1x32, .f32⟩
  | .hbm, ⟨7, _⟩ => ⟨S4x32, .f32⟩
  | .hbm, ⟨8, _⟩ => ⟨S32x4, .f32⟩
  | .hbm, ⟨9, _⟩ => ⟨S4x1x32, .f32⟩
  | .hbm, ⟨10, _⟩ => ⟨S4x32, .f32⟩
  | .hbm, ⟨11, _⟩ => ⟨S32x4, .f32⟩
  | .hbm, ⟨12, _⟩ => ⟨S1024x1, .f32⟩
  | .local _ .vmem, ⟨0, _⟩ => ⟨S1024x256, .f32⟩
  | .local _ .vmem, ⟨1, _⟩ => ⟨S4x256x32, .f32⟩
  | .local _ .vmem, ⟨2, _⟩ => ⟨S32x4, .f32⟩
  | .local _ .vmem, ⟨3, _⟩ => ⟨S32x4, .f32⟩
  | .local _ .vmem, ⟨4, _⟩ => ⟨S1024x1024, .f32⟩
  | .local _ .vmem, ⟨5, _⟩ => ⟨S128x1, .f32⟩
  | .local _ .vmem, ⟨6, _⟩ => ⟨S1x2, .f32⟩
  | .local _ .vmem, ⟨7, _⟩ => ⟨S1024x1, .f32⟩
  | .local _ .vmem, ⟨8, _⟩ => ⟨S1024x1, .f32⟩
  | .local _ .vmem, ⟨9, _⟩ => ⟨S1024x512, .f32⟩
  | .local _ .vmem, ⟨10, _⟩ => ⟨S1024x4, .f32⟩
  | .local _ .vmem, ⟨11, _⟩ => ⟨S4x1024, .f32⟩
  | .local _ .vmem, ⟨12, _⟩ => ⟨S1024x128, .f32⟩
  | .local _ .vmem, ⟨13, _⟩ => ⟨S1024x1, .f32⟩
  | .local _ .vmem, ⟨14, _⟩ => ⟨S1x1024, .f32⟩
  | .local _ .vmem, ⟨15, _⟩ => ⟨S1024x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v10 : Index := Scalar.indexCast v9
  let c0 : Index := 0#32
  ![v10.toNat, 0]
def k0_cond3 (i : grid0.Coords) : BitVec 1 :=
  let arg0 : BitVec 32 := BitVec.ofNat 32 (i 0).val
  let c1_i32_4 : BitVec 32 := 1#32
  let v12 : BitVec 1 := Scalar.cmpi .slt arg0 c1_i32_4
  let v13 : BitVec 32 := Scalar.extui v12
  let c0_i32_5 : BitVec 32 := 0#32
  let v14 : BitVec 1 := Scalar.cmpi .ne v13 c0_i32_5
  v14

def k0_off2 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v18 : Index := Scalar.indexCast v9
  let c0_8 : Index := 0#32
  ![v18.toNat, 0]
def k0_off3 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v43 : Index := Scalar.indexCast v9
  let c0_17 : Index := 0#32
  ![v43.toNat, 0]
def k0_off4 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v47 : Index := Scalar.indexCast v9
  let c1 : Index := 1#32
  ![v47.toNat, 1]
def k0_off5 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v72 : Index := Scalar.indexCast v9
  let c32 : Index := 32#32
  ![v72.toNat, 32]
def k0_off6 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v76 : Index := Scalar.indexCast v9
  let c2 : Index := 2#32
  ![v76.toNat, 2]
def k0_off7 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v101 : Index := Scalar.indexCast v9
  let c64 : Index := 64#32
  ![v101.toNat, 64]
def k0_off8 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v105 : Index := Scalar.indexCast v9
  let c3 : Index := 3#32
  ![v105.toNat, 3]
def k0_off9 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v130 : Index := Scalar.indexCast v9
  let c96 : Index := 96#32
  ![v130.toNat, 96]
def k0_cond4 (i : grid0.Coords) : BitVec 1 :=
  let arg0 : BitVec 32 := BitVec.ofNat 32 (i 0).val
  let c1_i32_6 : BitVec 32 := 1#32
  let v15 : BitVec 1 := Scalar.cmpi .sge arg0 c1_i32_6
  let v16 : BitVec 32 := Scalar.extui v15
  let c0_i32_7 : BitVec 32 := 0#32
  let v17 : BitVec 1 := Scalar.cmpi .ne v16 c0_i32_7
  v17

def k0_off10 (i : grid0.Coords) : Fin 2 → Nat :=
  let arg0 : BitVec 32 := BitVec.ofNat 32 (i 0).val
  let c1_i32_2 : BitVec 32 := 1#32
  let v6 : BitVec 1 := Scalar.cmpi .slt arg0 c1_i32_2
  let c1_i32_3 : BitVec 32 := 1#32
  let v7 : BitVec 32 := Scalar.subi arg0 c1_i32_3
  let v8 : BitVec 32 := Scalar.select v6 arg0 v7
  let c1024_i32 : BitVec 32 := 1024#32
  let v9 : BitVec 32 := Scalar.muli v8 c1024_i32
  let v18 : Index := Scalar.indexCast v9
  let c0_8 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4x1x64_S4x1x32_0_0_0 : S4x1x64.Slices ![0, 0, 0] S4x1x32
  shapeCasts_S4x1x32_S4x32 : S4x1x32.ShapeCasts S4x32
  transposes_S4x32_S32x4_1_0 : S4x32.Transposes [1, 0] S32x4
  slices_S4x1x64_S4x1x32_0_0_32 : S4x1x64.Slices ![0, 0, 32] S4x1x32
  inb_S1024x256_S1024x256_0_0 : ∀ a, (![0, 0] : Fin 2 → Nat) a + S1024x256.size a ≤ S1024x256.size a
  h_S1024x256 : 0 < S1024x256.numel
  inb_S4x256x32_S1x256x32_0_0_0 : ∀ a, (![0, 0, 0] : Fin 3 → Nat) a + S1x256x32.size a ≤ S4x256x32.size a
  h_S1x256x32 : 0 < S1x256x32.numel
  shapeCasts_S1x256x32_S256x32 : S1x256x32.ShapeCasts S256x32
  inb_S1024x512_S1024x32_0_0 : ∀ a, (![0, 0] : Fin 2 → Nat) a + S1024x32.size a ≤ S1024x512.size a
  h_S1024x32 : 0 < S1024x32.numel
  shapeCasts_S1024x32_S1024x32 : S1024x32.ShapeCasts S1024x32
  inb_S1024x512_S1024x1_0_32 : ∀ a, (![0, 32] : Fin 2 → Nat) a + S1024x1.size a ≤ S1024x512.size a
  h_S1024x1 : 0 < S1024x1.numel
  shapeCasts_S1024x1_S1024x1 : S1024x1.ShapeCasts S1024x1
  inb_S32x4_S32x1_0_0 : ∀ a, (![0, 0] : Fin 2 → Nat) a + S32x1.size a ≤ S32x4.size a
  h_S32x1 : 0 < S32x1.numel
  shapeCasts_S32x1_S32x1 : S32x1.ShapeCasts S32x1
  inb_S1024x4_S1024x1_0_0 : ∀ a, (![0, 0] : Fin 2 → Nat) a + S1024x1.size a ≤ S1024x4.size a
  inb_S4x1024_S1x1024_0_0 : ∀ a, (![0, 0] : Fin 2 → Nat) a + S1x1024.size a ≤ S4x1024.size a
  h_S1x1024 : 0 < S1x1024.numel
  shapeCasts_S1x1024_S1x1024 : S1x1024.ShapeCasts S1x1024
  inb_S4x256x32_S1x256x32_1_0_0 : ∀ a, (![1, 0, 0] : Fin 3 → Nat) a + S1x256x32.size a ≤ S4x256x32.size a
  inb_S1024x512_S1024x32_0_128 : ∀ a, (![0, 128] : Fin 2 → Nat) a + S1024x32.size a ≤ S1024x512.size a
  inb_S1024x512_S1024x1_0_160 : ∀ a, (![0, 160] : Fin 2 → Nat) a + S1024x1.size a ≤ S1024x512.size a
  inb_S32x4_S32x1_0_1 : ∀ a, (![0, 1] : Fin 2 → Nat) a + S32x1.size a ≤ S32x4.size a
  inb_S1024x4_S1024x1_0_1 : ∀ a, (![0, 1] : Fin 2 → Nat) a + S1024x1.size a ≤ S1024x4.size a
  inb_S4x1024_S1x1024_1_0 : ∀ a, (![1, 0] : Fin 2 → Nat) a + S1x1024.size a ≤ S4x1024.size a
  inb_S4x256x32_S1x256x32_2_0_0 : ∀ a, (![2, 0, 0] : Fin 3 → Nat) a + S1x256x32.size a ≤ S4x256x32.size a
  inb_S1024x512_S1024x32_0_256 : ∀ a, (![0, 256] : Fin 2 → Nat) a + S1024x32.size a ≤ S1024x512.size a
  inb_S1024x512_S1024x1_0_288 : ∀ a, (![0, 288] : Fin 2 → Nat) a + S1024x1.size a ≤ S1024x512.size a
  inb_S32x4_S32x1_0_2 : ∀ a, (![0, 2] : Fin 2 → Nat) a + S32x1.size a ≤ S32x4.size a
  inb_S1024x4_S1024x1_0_2 : ∀ a, (![0, 2] : Fin 2 → Nat) a + S1024x1.size a ≤ S1024x4.size a
  inb_S4x1024_S1x1024_2_0 : ∀ a, (![2, 0] : Fin 2 → Nat) a + S1x1024.size a ≤ S4x1024.size a
  inb_S4x256x32_S1x256x32_3_0_0 : ∀ a, (![3, 0, 0] : Fin 3 → Nat) a + S1x256x32.size a ≤ S4x256x32.size a
  inb_S1024x512_S1024x32_0_384 : ∀ a, (![0, 384] : Fin 2 → Nat) a + S1024x32.size a ≤ S1024x512.size a
  inb_S1024x512_S1024x1_0_416 : ∀ a, (![0, 416] : Fin 2 → Nat) a + S1024x1.size a ≤ S1024x512.size a
  inb_S32x4_S32x1_0_3 : ∀ a, (![0, 3] : Fin 2 → Nat) a + S32x1.size a ≤ S32x4.size a
  inb_S1024x4_S1024x1_0_3 : ∀ a, (![0, 3] : Fin 2 → Nat) a + S1024x1.size a ≤ S1024x4.size a
  inb_S4x1024_S1x1024_3_0 : ∀ a, (![3, 0] : Fin 2 → Nat) a + S1x1024.size a ≤ S4x1024.size a
  inb_S1024x128_S1024x128_0_0 : ∀ a, (![0, 0] : Fin 2 → Nat) a + S1024x128.size a ≤ S1024x128.size a
  h_S1024x128 : 0 < S1024x128.numel
  inb_S128x1_S128x1_0_0 : ∀ a, (![0, 0] : Fin 2 → Nat) a + S128x1.size a ≤ S128x1.size a
  h_S128x1 : 0 < S128x1.numel
  inb_S1x2_S1x1_0_0 : ∀ a, (![0, 0] : Fin 2 → Nat) a + S1x1.size a ≤ S1x2.size a
  h_S1x1 : 0 < S1x1.numel
  broadcasts_S1x1_S1024x1 : S1x1.Broadcasts S1024x1
  inb_S1024x1_S1024x1_0_0 : ∀ a, (![0, 0] : Fin 2 → Nat) a + S1024x1.size a ≤ S1024x1.size a
  inb_S1x2_S1x1_0_1 : ∀ a, (![0, 1] : Fin 2 → Nat) a + S1x1.size a ≤ S1x2.size a
  broadcasts_S1x1_S1x1024 : S1x1.Broadcasts S1x1024
  inb_S1x1024_S1x1024_0_0 : ∀ a, (![0, 0] : Fin 2 → Nat) a + S1x1024.size a ≤ S1x1024.size a
  inb_S1024x128_S1024x1_0_0 : ∀ a, (![0, 0] : Fin 2 → Nat) a + S1024x1.size a ≤ S1024x128.size a
  inb_S1024x128_S1024x1_0_1 : ∀ a, (![0, 1] : Fin 2 → Nat) a + S1024x1.size a ≤ S1024x128.size a
  h_S1024x1024 : 0 < S1024x1024.numel
  broadcasts_S1024x1_S1024x1024 : S1024x1.Broadcasts S1024x1024
  broadcasts_S1x1024_S1024x1024 : S1x1024.Broadcasts S1024x1024
  inb_S1024x512_S1024x128_0_0 : ∀ a, (![0, 0] : Fin 2 → Nat) a + S1024x128.size a ≤ S1024x512.size a
  slices_S1024x128_o0_0_S1024x32 : S1024x128.Slices ![0, 0] S1024x32
  slices_S1024x128_o0_32_S1024x1 : S1024x128.Slices ![0, 32] S1024x1
  broadcasts_S1024x1_S1024x32 : S1024x1.Broadcasts S1024x32
  inb_S1024x512_S1024x128_0_128 : ∀ a, (![0, 128] : Fin 2 → Nat) a + S1024x128.size a ≤ S1024x512.size a
  inb_S1024x512_S1024x128_0_256 : ∀ a, (![0, 256] : Fin 2 → Nat) a + S1024x128.size a ≤ S1024x512.size a
  inb_S1024x512_S1024x128_0_384 : ∀ a, (![0, 384] : Fin 2 → Nat) a + S1024x128.size a ≤ S1024x512.size a
  slices_S1024x128_o0_0_S1024x1 : S1024x128.Slices ![0, 0] S1024x1
  slices_S1024x128_o0_1_S1024x1 : S1024x128.Slices ![0, 1] S1024x1
  dot_S1024x256_S256x32_S1024x32_1_0_0_1_n_n_wf : DotDims.WF S1024x256 S256x32 S1024x32 [1] [0] [0] [1] [] []
  dot_S1024x32_S32x1_S1024x1_1_0_0_1_n_n_wf : DotDims.WF S1024x32 S32x1 S1024x1 [1] [0] [0] [1] [] []
  dot_S32x1_S1024x32_S1x1024_0_1_1_0_n_n_wf : DotDims.WF S32x1 S1024x32 S1x1024 [0] [1] [1] [0] [] []
  dot_S1024x128_S128x1_S1024x1_1_0_0_1_n_n_wf : DotDims.WF S1024x128 S128x1 S1024x1 [1] [0] [0] [1] [] []
  dot_S128x1_S1024x128_S1x1024_0_1_1_0_n_n_wf : DotDims.WF S128x1 S1024x128 S1x1024 [0] [1] [1] [0] [] []
  dot_S1024x1024_S1024x128_S1024x128_1_0_0_1_n_n_wf : DotDims.WF S1024x1024 S1024x128 S1024x128 [1] [0] [0] [1] [] []
  hrank0 : 0 < grid0.rank
  k0_off1_inb : ∀ i : grid0.Coords, ∀ a, (k0_off1 i) a + S1024x1024.size a ≤ S1024x1024.size a
  k0_off2_inb : ∀ i : grid0.Coords, ∀ (k0_h3 : k0_cond3 i = 1#1), ∀ a, (k0_off2 i) a + S1024x1.size a ≤ S1024x4.size a
  k0_off3_inb : ∀ i : grid0.Coords, ∀ (k0_h3 : k0_cond3 i = 1#1), ∀ a, (k0_off3 i) a + S1024x32.size a ≤ S1024x128.size a
  k0_off4_inb : ∀ i : grid0.Coords, ∀ (k0_h3 : k0_cond3 i = 1#1), ∀ a, (k0_off4 i) a + S1024x1.size a ≤ S1024x4.size a
  k0_off5_inb : ∀ i : grid0.Coords, ∀ (k0_h3 : k0_cond3 i = 1#1), ∀ a, (k0_off5 i) a + S1024x32.size a ≤ S1024x128.size a
  k0_off6_inb : ∀ i : grid0.Coords, ∀ (k0_h3 : k0_cond3 i = 1#1), ∀ a, (k0_off6 i) a + S1024x1.size a ≤ S1024x4.size a
  k0_off7_inb : ∀ i : grid0.Coords, ∀ (k0_h3 : k0_cond3 i = 1#1), ∀ a, (k0_off7 i) a + S1024x32.size a ≤ S1024x128.size a
  k0_off8_inb : ∀ i : grid0.Coords, ∀ (k0_h3 : k0_cond3 i = 1#1), ∀ a, (k0_off8 i) a + S1024x1.size a ≤ S1024x4.size a
  k0_off9_inb : ∀ i : grid0.Coords, ∀ (k0_h3 : k0_cond3 i = 1#1), ∀ a, (k0_off9 i) a + S1024x32.size a ≤ S1024x128.size a
  k0_off10_inb : ∀ i : grid0.Coords, ∀ (k0_h4 : k0_cond4 i = 1#1), ∀ a, (k0_off10 i) a + S1024x1.size a ≤ S1024x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x32.size a ≤ S4x256x32.size a
  hwx0_1 : ∀ i : grid0.Coords, EltTy.bits .f32 = 32 ∨ (Rect.block (s := S4x256x32) S4x256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4.size a ≤ S32x4.size a
  hwx0_2 : ∀ i : grid0.Coords, EltTy.bits .f32 = 32 ∨ (Rect.block (s := S32x4) S32x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4.size a ≤ S32x4.size a
  hwx0_3 : ∀ i : grid0.Coords, EltTy.bits .f32 = 32 ∨ (Rect.block (s := S32x4) S32x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S1024x1.size a
  hwx0_7 : ∀ i : grid0.Coords, EltTy.bits .f32 = 32 ∨ (Rect.block (s := S1024x1) S1024x1.size (cc0_transform_7 i) (hinb0_7 i)).WholeWords (EltTy.packing .f32)

variable [Facts₀]

def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf
def dot_S32x1_S1024x32_S1x1024_0_1_1_0_n_n : DotDims S32x1 S1024x32 S1x1024 where
  lhsContracting := [0]
  rhsContracting := [1]
  lhsNonContracting := [1]
  rhsNonContracting := [0]
  lhsBatch := []
  rhsBatch := []
  wf := dot_S32x1_S1024x32_S1x1024_0_1_1_0_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S128x1_S1024x128_S1x1024_0_1_1_0_n_n : DotDims S128x1 S1024x128 S1x1024 where
  lhsContracting := [0]
  rhsContracting := [1]
  lhsNonContracting := [1]
  rhsNonContracting := [0]
  lhsBatch := []
  rhsBatch := []
  wf := dot_S128x1_S1024x128_S1x1024_0_1_1_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S32x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S32x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S1024x256 : Shape := ⟨2, ![1024, 256]⟩
abbrev S1024x1024 : Shape := ⟨2, ![1024, 1024]⟩
abbrev S4x256x32 : Shape := ⟨3, ![4, 256, 32]⟩
abbrev S4x1x64 : Shape := ⟨3, ![4, 1, 64]⟩
abbrev S128x1 : Shape := ⟨2, ![128, 1]⟩
abbrev S1x2 : Shape := ⟨2, ![1, 2]⟩
abbrev S_ : Shape := ⟨0, ![]⟩
abbrev S1048576 : Shape := ⟨1, ![1048576]⟩
abbrev S1048576x1 : Shape := ⟨2, ![1048576, 1]⟩
abbrev S1x256x32 : Shape := ⟨3, ![1, 256, 32]⟩
abbrev S256x32 : Shape := ⟨2, ![256, 32]⟩
abbrev S1x1x64 : Shape := ⟨3, ![1, 1, 64]⟩
abbrev S1x64 : Shape := ⟨2, ![1, 64]⟩
abbrev S1024x32 : Shape := ⟨2, ![1024, 32]⟩
abbrev S1048576x32 : Shape := ⟨2, ![1048576, 32]⟩
abbrev S1048576x64 : Shape := ⟨2, ![1048576, 64]⟩
abbrev S64x1048576 : Shape := ⟨2, ![64, 1048576]⟩
abbrev S1x1048576 : Shape := ⟨2, ![1, 1048576]⟩
abbrev S1024 : Shape := ⟨1, ![1024]⟩
abbrev S1024x1 : Shape := ⟨2, ![1024, 1]⟩
abbrev S1024x128 : Shape := ⟨2, ![1024, 128]⟩
abbrev S1048576x2 : Shape := ⟨2, ![1048576, 2]⟩
abbrev S2x1048576 : Shape := ⟨2, ![2, 1048576]⟩

abbrev nBuf : Space → Nat
  | .hbm => 504
  | .vmem => 0
  | .smem => 0
  | _ => 0

abbrev hbmTy0_0 (i : Nat) : BufTy := match i % 128 with
  | 0 => ⟨S1024x256, .f32⟩
  | 1 => ⟨S1024x1024, .f32⟩
  | 2 => ⟨S4x256x32, .f32⟩
  | 3 => ⟨S4x1x64, .f32⟩
  | 4 => ⟨S128x1, .f32⟩
  | 5 => ⟨S1x2, .f32⟩
  | 6 => ⟨S_, .f32⟩
  | 7 => ⟨S1024x1024, .f32⟩
  | 8 => ⟨S1024x1024, .i1⟩
  | 9 => ⟨S1048576, .i1⟩
  | 10 => ⟨S1048576, .i32⟩
  | 11 => ⟨S_, .i32⟩
  | 12 => ⟨S_, .i32⟩
  | 13 => ⟨S1048576, .i32⟩
  | 14 => ⟨S_, .i32⟩
  | 15 => ⟨S1048576, .i32⟩
  | 16 => ⟨S_, .i32⟩
  | 17 => ⟨S_, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S_, .i32⟩
  | 29 => ⟨S1048576, .i32⟩
  | 30 => ⟨S1048576, .i32⟩
  | 31 => ⟨S_, .i32⟩
  | 32 => ⟨S_, .i32⟩
  | 33 => ⟨S1048576, .i32⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S1048576, .i32⟩
  | 42 => ⟨S1048576, .i32⟩
  | 43 => ⟨S_, .i32⟩
  | 44 => ⟨S1048576, .i32⟩
  | 45 => ⟨S1048576, .i1⟩
  | 46 => ⟨S1048576, .i1⟩
  | 47 => ⟨S_, .i32⟩
  | 48 => ⟨S1048576, .i32⟩
  | 49 => ⟨S1048576, .i32⟩
  | 50 => ⟨S1048576, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i1⟩
  | 65 => ⟨S_, .i32⟩
  | 66 => ⟨S_, .i1⟩
  | 67 => ⟨S1048576, .i1⟩
  | 68 => ⟨S1048576, .i1⟩
  | 69 => ⟨S1048576, .i1⟩
  | 70 => ⟨S1048576, .i32⟩
  | 71 => ⟨S1048576, .i32⟩
  | 72 => ⟨S1048576, .i32⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S1048576, .i32⟩
  | 81 => ⟨S1048576, .i32⟩
  | 82 => ⟨S_, .i32⟩
  | 83 => ⟨S1048576, .i32⟩
  | 84 => ⟨S1048576, .i1⟩
  | 85 => ⟨S1048576, .i1⟩
  | 86 => ⟨S_, .i32⟩
  | 87 => ⟨S1048576, .i32⟩
  | 88 => ⟨S1048576, .i32⟩
  | 89 => ⟨S1048576, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i1⟩
  | 104 => ⟨S_, .i32⟩
  | 105 => ⟨S_, .i1⟩
  | 106 => ⟨S1048576, .i1⟩
  | 107 => ⟨S1048576, .i1⟩
  | 108 => ⟨S1048576, .i1⟩
  | 109 => ⟨S1048576, .i32⟩
  | 110 => ⟨S1048576, .i32⟩
  | 111 => ⟨S1048576, .i32⟩
  | 112 => ⟨S1048576, .i32⟩
  | 113 => ⟨S1024x1024, .i32⟩
  | 114 => ⟨S_, .i32⟩
  | 115 => ⟨S_, .i32⟩
  | 116 => ⟨S1048576, .i32⟩
  | 117 => ⟨S1048576, .i1⟩
  | 118 => ⟨S_, .i32⟩
  | 119 => ⟨S_, .i32⟩
  | 120 => ⟨S1048576, .i32⟩
  | 121 => ⟨S1048576, .i32⟩
  | 122 => ⟨S_, .i32⟩
  | 123 => ⟨S_, .i32⟩
  | 124 => ⟨S1048576, .i32⟩
  | 125 => ⟨S1048576, .i32⟩
  | 126 => ⟨S1x256x32, .f32⟩
  | 127 => ⟨S256x32, .f32⟩
  | _ => ⟨S1024x256, .f32⟩

abbrev hbmTy0_1 (i : Nat) : BufTy := match i % 128 with
  | 0 => ⟨S1x1x64, .f32⟩
  | 1 => ⟨S1x64, .f32⟩
  | 2 => ⟨S1024x32, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S1048576x1, .i32⟩
  | 11 => ⟨S1048576x32, .f32⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i32⟩
  | 18 => ⟨S1048576, .i32⟩
  | 19 => ⟨S1048576x1, .i32⟩
  | 20 => ⟨S1048576x32, .f32⟩
  | 21 => ⟨S1048576x64, .f32⟩
  | 22 => ⟨S64x1048576, .f32⟩
  | 23 => ⟨S1x1048576, .f32⟩
  | 24 => ⟨S1048576, .f32⟩
  | 25 => ⟨S_, .f32⟩
  | 26 => ⟨S_, .f32⟩
  | 27 => ⟨S1048576, .f32⟩
  | 28 => ⟨S1048576, .i1⟩
  | 29 => ⟨S_, .f32⟩
  | 30 => ⟨S1048576, .f32⟩
  | 31 => ⟨S1048576, .f32⟩
  | 32 => ⟨S1048576, .f32⟩
  | 33 => ⟨S1048576, .f32⟩
  | 34 => ⟨S1048576, .f32⟩
  | 35 => ⟨S_, .f32⟩
  | 36 => ⟨S1024, .f32⟩
  | 37 => ⟨S1048576x1, .i32⟩
  | 38 => ⟨S1024, .f32⟩
  | 39 => ⟨S1024x1, .f32⟩
  | 40 => ⟨S1048576x1, .f32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S1048576x1, .i32⟩
  | 49 => ⟨S1048576x32, .f32⟩
  | 50 => ⟨S1048576x32, .f32⟩
  | 51 => ⟨S1048576x32, .f32⟩
  | 52 => ⟨S_, .f32⟩
  | 53 => ⟨S1024x32, .f32⟩
  | 54 => ⟨S1048576x1, .i32⟩
  | 55 => ⟨S1024x32, .f32⟩
  | 56 => ⟨S1024x32, .f32⟩
  | 57 => ⟨S1024x32, .f32⟩
  | 58 => ⟨S_, .f32⟩
  | 59 => ⟨S1024x32, .f32⟩
  | 60 => ⟨S1024x32, .i1⟩
  | 61 => ⟨S_, .f32⟩
  | 62 => ⟨S1024x32, .f32⟩
  | 63 => ⟨S1024x32, .i1⟩
  | 64 => ⟨S_, .f32⟩
  | 65 => ⟨S_, .f32⟩
  | 66 => ⟨S1024x32, .f32⟩
  | 67 => ⟨S1024x32, .f32⟩
  | 68 => ⟨S1024x32, .f32⟩
  | 69 => ⟨S_, .f32⟩
  | 70 => ⟨S1024x32, .f32⟩
  | 71 => ⟨S1024x32, .f32⟩
  | 72 => ⟨S1024x32, .f32⟩
  | 73 => ⟨S1x256x32, .f32⟩
  | 74 => ⟨S256x32, .f32⟩
  | 75 => ⟨S1x1x64, .f32⟩
  | 76 => ⟨S1x64, .f32⟩
  | 77 => ⟨S1024x32, .f32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S1048576x1, .i32⟩
  | 86 => ⟨S1048576x32, .f32⟩
  | 87 => ⟨S_, .i32⟩
  | 88 => ⟨S1048576, .i32⟩
  | 89 => ⟨S1048576, .i1⟩
  | 90 => ⟨S_, .i32⟩
  | 91 => ⟨S1048576, .i32⟩
  | 92 => ⟨S1048576, .i32⟩
  | 93 => ⟨S1048576, .i32⟩
  | 94 => ⟨S1048576x1, .i32⟩
  | 95 => ⟨S1048576x32, .f32⟩
  | 96 => ⟨S1048576x64, .f32⟩
  | 97 => ⟨S64x1048576, .f32⟩
  | 98 => ⟨S1x1048576, .f32⟩
  | 99 => ⟨S1048576, .f32⟩
  | 100 => ⟨S_, .f32⟩
  | 101 => ⟨S_, .f32⟩
  | 102 => ⟨S1048576, .f32⟩
  | 103 => ⟨S1048576, .i1⟩
  | 104 => ⟨S_, .f32⟩
  | 105 => ⟨S1048576, .f32⟩
  | 106 => ⟨S1048576, .f32⟩
  | 107 => ⟨S1048576, .f32⟩
  | 108 => ⟨S1048576, .f32⟩
  | 109 => ⟨S1048576, .f32⟩
  | 110 => ⟨S_, .f32⟩
  | 111 => ⟨S1024, .f32⟩
  | 112 => ⟨S1048576x1, .i32⟩
  | 113 => ⟨S1024, .f32⟩
  | 114 => ⟨S1024x1, .f32⟩
  | 115 => ⟨S1048576x1, .f32⟩
  | 116 => ⟨S_, .i32⟩
  | 117 => ⟨S1048576, .i32⟩
  | 118 => ⟨S1048576, .i1⟩
  | 119 => ⟨S_, .i32⟩
  | 120 => ⟨S1048576, .i32⟩
  | 121 => ⟨S1048576, .i32⟩
  | 122 => ⟨S1048576, .i32⟩
  | 123 => ⟨S1048576x1, .i32⟩
  | 124 => ⟨S1048576x32, .f32⟩
  | 125 => ⟨S1048576x32, .f32⟩
  | 126 => ⟨S1048576x32, .f32⟩
  | 127 => ⟨S_, .f32⟩
  | _ => ⟨S1024x256, .f32⟩

abbrev hbmTy0_2 (i : Nat) : BufTy := match i % 128 with
  | 0 => ⟨S1024x32, .f32⟩
  | 1 => ⟨S1048576x1, .i32⟩
  | 2 => ⟨S1024x32, .f32⟩
  | 3 => ⟨S1024x32, .f32⟩
  | 4 => ⟨S1024x32, .f32⟩
  | 5 => ⟨S_, .f32⟩
  | 6 => ⟨S1024x32, .f32⟩
  | 7 => ⟨S1024x32, .i1⟩
  | 8 => ⟨S_, .f32⟩
  | 9 => ⟨S1024x32, .f32⟩
  | 10 => ⟨S1024x32, .i1⟩
  | 11 => ⟨S_, .f32⟩
  | 12 => ⟨S_, .f32⟩
  | 13 => ⟨S1024x32, .f32⟩
  | 14 => ⟨S1024x32, .f32⟩
  | 15 => ⟨S1024x32, .f32⟩
  | 16 => ⟨S_, .f32⟩
  | 17 => ⟨S1024x32, .f32⟩
  | 18 => ⟨S1024x32, .f32⟩
  | 19 => ⟨S1024x32, .f32⟩
  | 20 => ⟨S1x256x32, .f32⟩
  | 21 => ⟨S256x32, .f32⟩
  | 22 => ⟨S1x1x64, .f32⟩
  | 23 => ⟨S1x64, .f32⟩
  | 24 => ⟨S1024x32, .f32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S1048576x1, .i32⟩
  | 33 => ⟨S1048576x32, .f32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S1048576x1, .i32⟩
  | 42 => ⟨S1048576x32, .f32⟩
  | 43 => ⟨S1048576x64, .f32⟩
  | 44 => ⟨S64x1048576, .f32⟩
  | 45 => ⟨S1x1048576, .f32⟩
  | 46 => ⟨S1048576, .f32⟩
  | 47 => ⟨S_, .f32⟩
  | 48 => ⟨S_, .f32⟩
  | 49 => ⟨S1048576, .f32⟩
  | 50 => ⟨S1048576, .i1⟩
  | 51 => ⟨S_, .f32⟩
  | 52 => ⟨S1048576, .f32⟩
  | 53 => ⟨S1048576, .f32⟩
  | 54 => ⟨S1048576, .f32⟩
  | 55 => ⟨S1048576, .f32⟩
  | 56 => ⟨S1048576, .f32⟩
  | 57 => ⟨S_, .f32⟩
  | 58 => ⟨S1024, .f32⟩
  | 59 => ⟨S1048576x1, .i32⟩
  | 60 => ⟨S1024, .f32⟩
  | 61 => ⟨S1024x1, .f32⟩
  | 62 => ⟨S1048576x1, .f32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S1048576x1, .i32⟩
  | 71 => ⟨S1048576x32, .f32⟩
  | 72 => ⟨S1048576x32, .f32⟩
  | 73 => ⟨S1048576x32, .f32⟩
  | 74 => ⟨S_, .f32⟩
  | 75 => ⟨S1024x32, .f32⟩
  | 76 => ⟨S1048576x1, .i32⟩
  | 77 => ⟨S1024x32, .f32⟩
  | 78 => ⟨S1024x32, .f32⟩
  | 79 => ⟨S1024x32, .f32⟩
  | 80 => ⟨S_, .f32⟩
  | 81 => ⟨S1024x32, .f32⟩
  | 82 => ⟨S1024x32, .i1⟩
  | 83 => ⟨S_, .f32⟩
  | 84 => ⟨S1024x32, .f32⟩
  | 85 => ⟨S1024x32, .i1⟩
  | 86 => ⟨S_, .f32⟩
  | 87 => ⟨S_, .f32⟩
  | 88 => ⟨S1024x32, .f32⟩
  | 89 => ⟨S1024x32, .f32⟩
  | 90 => ⟨S1024x32, .f32⟩
  | 91 => ⟨S_, .f32⟩
  | 92 => ⟨S1024x32, .f32⟩
  | 93 => ⟨S1024x32, .f32⟩
  | 94 => ⟨S1024x32, .f32⟩
  | 95 => ⟨S1x256x32, .f32⟩
  | 96 => ⟨S256x32, .f32⟩
  | 97 => ⟨S1x1x64, .f32⟩
  | 98 => ⟨S1x64, .f32⟩
  | 99 => ⟨S1024x32, .f32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x32, .f32⟩
  | 109 => ⟨S_, .i32⟩
  | 110 => ⟨S1048576, .i32⟩
  | 111 => ⟨S1048576, .i1⟩
  | 112 => ⟨S_, .i32⟩
  | 113 => ⟨S1048576, .i32⟩
  | 114 => ⟨S1048576, .i32⟩
  | 115 => ⟨S1048576, .i32⟩
  | 116 => ⟨S1048576x1, .i32⟩
  | 117 => ⟨S1048576x32, .f32⟩
  | 118 => ⟨S1048576x64, .f32⟩
  | 119 => ⟨S64x1048576, .f32⟩
  | 120 => ⟨S1x1048576, .f32⟩
  | 121 => ⟨S1048576, .f32⟩
  | 122 => ⟨S_, .f32⟩
  | 123 => ⟨S_, .f32⟩
  | 124 => ⟨S1048576, .f32⟩
  | 125 => ⟨S1048576, .i1⟩
  | 126 => ⟨S_, .f32⟩
  | 127 => ⟨S1048576, .f32⟩
  | _ => ⟨S1024x256, .f32⟩

abbrev hbmTy0_3 (i : Nat) : BufTy := match i % 128 with
  | 0 => ⟨S1048576, .f32⟩
  | 1 => ⟨S1048576, .f32⟩
  | 2 => ⟨S1048576, .f32⟩
  | 3 => ⟨S1048576, .f32⟩
  | 4 => ⟨S_, .f32⟩
  | 5 => ⟨S1024, .f32⟩
  | 6 => ⟨S1048576x1, .i32⟩
  | 7 => ⟨S1024, .f32⟩
  | 8 => ⟨S1024x1, .f32⟩
  | 9 => ⟨S1048576x1, .f32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S1048576x1, .i32⟩
  | 18 => ⟨S1048576x32, .f32⟩
  | 19 => ⟨S1048576x32, .f32⟩
  | 20 => ⟨S1048576x32, .f32⟩
  | 21 => ⟨S_, .f32⟩
  | 22 => ⟨S1024x32, .f32⟩
  | 23 => ⟨S1048576x1, .i32⟩
  | 24 => ⟨S1024x32, .f32⟩
  | 25 => ⟨S1024x32, .f32⟩
  | 26 => ⟨S1024x32, .f32⟩
  | 27 => ⟨S_, .f32⟩
  | 28 => ⟨S1024x32, .f32⟩
  | 29 => ⟨S1024x32, .i1⟩
  | 30 => ⟨S_, .f32⟩
  | 31 => ⟨S1024x32, .f32⟩
  | 32 => ⟨S1024x32, .i1⟩
  | 33 => ⟨S_, .f32⟩
  | 34 => ⟨S_, .f32⟩
  | 35 => ⟨S1024x32, .f32⟩
  | 36 => ⟨S1024x32, .f32⟩
  | 37 => ⟨S1024x32, .f32⟩
  | 38 => ⟨S_, .f32⟩
  | 39 => ⟨S1024x32, .f32⟩
  | 40 => ⟨S1024x32, .f32⟩
  | 41 => ⟨S1024x32, .f32⟩
  | 42 => ⟨S1024x128, .f32⟩
  | 43 => ⟨S1024x1, .f32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x1, .f32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S1048576x1, .i32⟩
  | 61 => ⟨S1048576x1, .f32⟩
  | 62 => ⟨S1048576x2, .f32⟩
  | 63 => ⟨S2x1048576, .f32⟩
  | 64 => ⟨S1x1048576, .f32⟩
  | 65 => ⟨S1048576, .f32⟩
  | 66 => ⟨S_, .f32⟩
  | 67 => ⟨S_, .f32⟩
  | 68 => ⟨S1048576, .f32⟩
  | 69 => ⟨S1048576, .i1⟩
  | 70 => ⟨S_, .f32⟩
  | 71 => ⟨S1048576, .f32⟩
  | 72 => ⟨S1048576, .f32⟩
  | 73 => ⟨S1048576, .f32⟩
  | 74 => ⟨S1048576, .f32⟩
  | 75 => ⟨S1048576, .f32⟩
  | 76 => ⟨S_, .f32⟩
  | 77 => ⟨S1024, .f32⟩
  | 78 => ⟨S1048576x1, .i32⟩
  | 79 => ⟨S1024, .f32⟩
  | 80 => ⟨S1024x1, .f32⟩
  | 81 => ⟨S1048576x1, .f32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576x1, .f32⟩
  | 91 => ⟨S1048576x1, .f32⟩
  | 92 => ⟨S_, .f32⟩
  | 93 => ⟨S1024x1, .f32⟩
  | 94 => ⟨S1048576x1, .i32⟩
  | 95 => ⟨S1024x1, .f32⟩
  | 96 => ⟨S1024x1, .f32⟩
  | 97 => ⟨S_, .f32⟩
  | 98 => ⟨S1024x1, .f32⟩
  | 99 => ⟨S1024x1, .i1⟩
  | 100 => ⟨S_, .f32⟩
  | 101 => ⟨S1024x1, .f32⟩
  | 102 => ⟨S1024x1, .i1⟩
  | 103 => ⟨S_, .f32⟩
  | 104 => ⟨S_, .f32⟩
  | 105 => ⟨S1024x1, .f32⟩
  | 106 => ⟨S1024x1, .f32⟩
  | 107 => ⟨S1024x1, .f32⟩
  | 108 => ⟨S_, .f32⟩
  | 109 => ⟨S1024x1, .f32⟩
  | 110 => ⟨S1024x1, .f32⟩
  | 111 => ⟨S1024x1, .f32⟩
  | 112 => ⟨S1024x1, .f32⟩
  | 113 => ⟨S1024x1, .f32⟩
  | 114 => ⟨S_, .f32⟩
  | 115 => ⟨S1024x1, .f32⟩
  | 116 => ⟨S1024x1, .f32⟩
  | 117 => ⟨S_, .f32⟩
  | 118 => ⟨S1024x1, .f32⟩
  | 119 => ⟨S1024x1, .f32⟩
  | _ => ⟨S1024x256, .f32⟩

abbrev hbmTy (i : Nat) : BufTy := match i / 128 with
  | 0 => hbmTy0_0 i
  | 1 => hbmTy0_1 i
  | 2 => hbmTy0_2 i
  | 3 => hbmTy0_3 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_call2_call0_c : Ref sig .tc := ⟨.hbm, 31, rfl⟩
abbrev main_call2_call0_v0 : Ref sig .tc := ⟨.hbm, 32, rfl⟩
abbrev main_v13 : Ref sig .tc := ⟨.hbm, 33, rfl⟩
abbrev main_c_4 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v14 : Ref sig .tc := ⟨.hbm, 50, rfl⟩
abbrev main_c_5 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v15 : Ref sig .tc := ⟨.hbm, 72, rfl⟩
abbrev main_c_6 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v16 : Ref sig .tc := ⟨.hbm, 89, rfl⟩
abbrev main_c_7 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_c_8 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_c_9 : Ref sig .tc := ⟨.hbm, 118, rfl⟩
abbrev main_call7_v0 : Ref sig .tc := ⟨.hbm, 119, rfl⟩
abbrev main_call7_v1 : Ref sig .tc := ⟨.hbm, 120, rfl⟩
abbrev main_v23 : Ref sig .tc := ⟨.hbm, 121, rfl⟩
abbrev main_c_10 : Ref sig .tc := ⟨.hbm, 122, rfl⟩
abbrev main_call8_v0 : Ref sig .tc := ⟨.hbm, 123, rfl⟩
abbrev main_call8_v1 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_c_11 : Ref sig .tc := ⟨.hbm, 131, rfl⟩
abbrev main_v30 : Ref sig .tc := ⟨.hbm, 132, rfl⟩
abbrev main_v31 : Ref sig .tc := ⟨.hbm, 133, rfl⟩
abbrev main_c_12 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_c_13 : Ref sig .tc := ⟨.hbm, 140, rfl⟩
abbrev main_v37 : Ref sig .tc := ⟨.hbm, 141, rfl⟩
abbrev main_v38 : Ref sig .tc := ⟨.hbm, 142, rfl⟩
abbrev main_c_14 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_cst_15 : Ref sig .tc := ⟨.hbm, 153, rfl⟩
abbrev main_call9_cst : Ref sig .tc := ⟨.hbm, 154, rfl⟩
abbrev main_call9_v0 : Ref sig .tc := ⟨.hbm, 155, rfl⟩
abbrev main_call9_v1 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_cst_16 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_c_17 : Ref sig .tc := ⟨.hbm, 169, rfl⟩
abbrev main_v56 : Ref sig .tc := ⟨.hbm, 170, rfl⟩
abbrev main_v57 : Ref sig .tc := ⟨.hbm, 171, rfl⟩
abbrev main_c_18 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_cst_19 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_call10_cst : Ref sig .tc := ⟨.hbm, 186, rfl⟩
abbrev main_call10_v0 : Ref sig .tc := ⟨.hbm, 187, rfl⟩
abbrev main_call10_v1 : Ref sig .tc := ⟨.hbm, 188, rfl⟩
abbrev main_call10_cst_0 : Ref sig .tc := ⟨.hbm, 189, rfl⟩
abbrev main_call10_v2 : Ref sig .tc := ⟨.hbm, 190, rfl⟩
abbrev main_call10_v3 : Ref sig .tc := ⟨.hbm, 191, rfl⟩
abbrev main_call10_cst_1 : Ref sig .tc := ⟨.hbm, 192, rfl⟩
abbrev main_call10_call0_v0 : Ref sig .tc := ⟨.hbm, 193, rfl⟩
abbrev main_call10_call0_v1 : Ref sig .tc := ⟨.hbm, 194, rfl⟩
abbrev main_call10_v4 : Ref sig .tc := ⟨.hbm, 195, rfl⟩
abbrev main_call10_v5 : Ref sig .tc := ⟨.hbm, 196, rfl⟩
abbrev main_call10_cst_2 : Ref sig .tc := ⟨.hbm, 197, rfl⟩
abbrev main_call10_v6 : Ref sig .tc := ⟨.hbm, 198, rfl⟩
abbrev main_call10_v7 : Ref sig .tc := ⟨.hbm, 199, rfl⟩
abbrev main_v70 : Ref sig .tc := ⟨.hbm, 200, rfl⟩
abbrev main_v71 : Ref sig .tc := ⟨.hbm, 201, rfl⟩
abbrev main_v72 : Ref sig .tc := ⟨.hbm, 202, rfl⟩
abbrev main_v73 : Ref sig .tc := ⟨.hbm, 203, rfl⟩
abbrev main_v74 : Ref sig .tc := ⟨.hbm, 204, rfl⟩
abbrev main_v75 : Ref sig .tc := ⟨.hbm, 205, rfl⟩
abbrev main_c_20 : Ref sig .tc := ⟨.hbm, 206, rfl⟩
abbrev main_v76 : Ref sig .tc := ⟨.hbm, 207, rfl⟩
abbrev main_v77 : Ref sig .tc := ⟨.hbm, 208, rfl⟩
abbrev main_c_21 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_c_22 : Ref sig .tc := ⟨.hbm, 215, rfl⟩
abbrev main_v83 : Ref sig .tc := ⟨.hbm, 216, rfl⟩
abbrev main_v84 : Ref sig .tc := ⟨.hbm, 217, rfl⟩
abbrev main_c_23 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_cst_24 : Ref sig .tc := ⟨.hbm, 228, rfl⟩
abbrev main_call11_cst : Ref sig .tc := ⟨.hbm, 229, rfl⟩
abbrev main_call11_v0 : Ref sig .tc := ⟨.hbm, 230, rfl⟩
abbrev main_call11_v1 : Ref sig .tc := ⟨.hbm, 231, rfl⟩
abbrev main_call11_v2 : Ref sig .tc := ⟨.hbm, 232, rfl⟩
abbrev main_call11_v3 : Ref sig .tc := ⟨.hbm, 233, rfl⟩
abbrev main_call11_v4 : Ref sig .tc := ⟨.hbm, 234, rfl⟩
abbrev main_v94 : Ref sig .tc := ⟨.hbm, 235, rfl⟩
abbrev main_v95 : Ref sig .tc := ⟨.hbm, 236, rfl⟩
abbrev main_v96 : Ref sig .tc := ⟨.hbm, 237, rfl⟩
abbrev main_cst_25 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_v101 : Ref sig .tc := ⟨.hbm, 243, rfl⟩
abbrev main_c_26 : Ref sig .tc := ⟨.hbm, 244, rfl⟩
abbrev main_v102 : Ref sig .tc := ⟨.hbm, 245, rfl⟩
abbrev main_v103 : Ref sig .tc := ⟨.hbm, 246, rfl⟩
abbrev main_c_27 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_cst_28 : Ref sig .tc := ⟨.hbm, 255, rfl⟩
abbrev main_v111 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_call12_cst : Ref sig .tc := ⟨.hbm, 261, rfl⟩
abbrev main_call12_v0 : Ref sig .tc := ⟨.hbm, 262, rfl⟩
abbrev main_call12_v1 : Ref sig .tc := ⟨.hbm, 263, rfl⟩
abbrev main_call12_cst_0 : Ref sig .tc := ⟨.hbm, 264, rfl⟩
abbrev main_call12_v2 : Ref sig .tc := ⟨.hbm, 265, rfl⟩
abbrev main_call12_v3 : Ref sig .tc := ⟨.hbm, 266, rfl⟩
abbrev main_call12_cst_1 : Ref sig .tc := ⟨.hbm, 267, rfl⟩
abbrev main_call12_call0_v0 : Ref sig .tc := ⟨.hbm, 268, rfl⟩
abbrev main_call12_call0_v1 : Ref sig .tc := ⟨.hbm, 269, rfl⟩
abbrev main_call12_v4 : Ref sig .tc := ⟨.hbm, 270, rfl⟩
abbrev main_call12_v5 : Ref sig .tc := ⟨.hbm, 271, rfl⟩
abbrev main_call12_cst_2 : Ref sig .tc := ⟨.hbm, 272, rfl⟩
abbrev main_call12_v6 : Ref sig .tc := ⟨.hbm, 273, rfl⟩
abbrev main_call12_v7 : Ref sig .tc := ⟨.hbm, 274, rfl⟩
abbrev main_v116 : Ref sig .tc := ⟨.hbm, 275, rfl⟩
abbrev main_v117 : Ref sig .tc := ⟨.hbm, 276, rfl⟩
abbrev main_v118 : Ref sig .tc := ⟨.hbm, 277, rfl⟩
abbrev main_v119 : Ref sig .tc := ⟨.hbm, 278, rfl⟩
abbrev main_v120 : Ref sig .tc := ⟨.hbm, 279, rfl⟩
abbrev main_v121 : Ref sig .tc := ⟨.hbm, 280, rfl⟩
abbrev main_c_29 : Ref sig .tc := ⟨.hbm, 281, rfl⟩
abbrev main_v122 : Ref sig .tc := ⟨.hbm, 282, rfl⟩
abbrev main_v123 : Ref sig .tc := ⟨.hbm, 283, rfl⟩
abbrev main_c_30 : Ref sig .tc := ⟨.hbm, 284, rfl⟩
abbrev main_v124 : Ref sig .tc := ⟨.hbm, 285, rfl⟩
abbrev main_v125 : Ref sig .tc := ⟨.hbm, 286, rfl⟩
abbrev main_v126 : Ref sig .tc := ⟨.hbm, 287, rfl⟩
abbrev main_v127 : Ref sig .tc := ⟨.hbm, 288, rfl⟩
abbrev main_v128 : Ref sig .tc := ⟨.hbm, 289, rfl⟩
abbrev main_c_31 : Ref sig .tc := ⟨.hbm, 290, rfl⟩
abbrev main_v129 : Ref sig .tc := ⟨.hbm, 291, rfl⟩
abbrev main_v130 : Ref sig .tc := ⟨.hbm, 292, rfl⟩
abbrev main_c_32 : Ref sig .tc := ⟨.hbm, 293, rfl⟩
abbrev main_v131 : Ref sig .tc := ⟨.hbm, 294, rfl⟩
abbrev main_v132 : Ref sig .tc := ⟨.hbm, 295, rfl⟩
abbrev main_v133 : Ref sig .tc := ⟨.hbm, 296, rfl⟩
abbrev main_v134 : Ref sig .tc := ⟨.hbm, 297, rfl⟩
abbrev main_v135 : Ref sig .tc := ⟨.hbm, 298, rfl⟩
abbrev main_v136 : Ref sig .tc := ⟨.hbm, 299, rfl⟩
abbrev main_v137 : Ref sig .tc := ⟨.hbm, 300, rfl⟩
abbrev main_v138 : Ref sig .tc := ⟨.hbm, 301, rfl⟩
abbrev main_v139 : Ref sig .tc := ⟨.hbm, 302, rfl⟩
abbrev main_cst_33 : Ref sig .tc := ⟨.hbm, 303, rfl⟩
abbrev main_call13_cst : Ref sig .tc := ⟨.hbm, 304, rfl⟩
abbrev main_call13_v0 : Ref sig .tc := ⟨.hbm, 305, rfl⟩
abbrev main_call13_v1 : Ref sig .tc := ⟨.hbm, 306, rfl⟩
abbrev main_call13_v2 : Ref sig .tc := ⟨.hbm, 307, rfl⟩
abbrev main_call13_v3 : Ref sig .tc := ⟨.hbm, 308, rfl⟩
abbrev main_call13_v4 : Ref sig .tc := ⟨.hbm, 309, rfl⟩
abbrev main_v140 : Ref sig .tc := ⟨.hbm, 310, rfl⟩
abbrev main_v141 : Ref sig .tc := ⟨.hbm, 311, rfl⟩
abbrev main_v142 : Ref sig .tc := ⟨.hbm, 312, rfl⟩
abbrev main_cst_34 : Ref sig .tc := ⟨.hbm, 313, rfl⟩
abbrev main_v143 : Ref sig .tc := ⟨.hbm, 314, rfl⟩
abbrev main_v144 : Ref sig .tc := ⟨.hbm, 315, rfl⟩
abbrev main_v145 : Ref sig .tc := ⟨.hbm, 316, rfl⟩
abbrev main_v146 : Ref sig .tc := ⟨.hbm, 317, rfl⟩
abbrev main_v147 : Ref sig .tc := ⟨.hbm, 318, rfl⟩
abbrev main_c_35 : Ref sig .tc := ⟨.hbm, 319, rfl⟩
abbrev main_v148 : Ref sig .tc := ⟨.hbm, 320, rfl⟩
abbrev main_v149 : Ref sig .tc := ⟨.hbm, 321, rfl⟩
abbrev main_c_36 : Ref sig .tc := ⟨.hbm, 322, rfl⟩
abbrev main_v150 : Ref sig .tc := ⟨.hbm, 323, rfl⟩
abbrev main_v151 : Ref sig .tc := ⟨.hbm, 324, rfl⟩
abbrev main_v152 : Ref sig .tc := ⟨.hbm, 325, rfl⟩
abbrev main_v153 : Ref sig .tc := ⟨.hbm, 326, rfl⟩
abbrev main_v154 : Ref sig .tc := ⟨.hbm, 327, rfl⟩
abbrev main_v155 : Ref sig .tc := ⟨.hbm, 328, rfl⟩
abbrev main_v156 : Ref sig .tc := ⟨.hbm, 329, rfl⟩
abbrev main_cst_37 : Ref sig .tc := ⟨.hbm, 330, rfl⟩
abbrev main_v157 : Ref sig .tc := ⟨.hbm, 331, rfl⟩
abbrev main_v158 : Ref sig .tc := ⟨.hbm, 332, rfl⟩
abbrev main_v159 : Ref sig .tc := ⟨.hbm, 333, rfl⟩
abbrev main_v160 : Ref sig .tc := ⟨.hbm, 334, rfl⟩
abbrev main_v161 : Ref sig .tc := ⟨.hbm, 335, rfl⟩
abbrev main_call14_cst : Ref sig .tc := ⟨.hbm, 336, rfl⟩
abbrev main_call14_v0 : Ref sig .tc := ⟨.hbm, 337, rfl⟩
abbrev main_call14_v1 : Ref sig .tc := ⟨.hbm, 338, rfl⟩
abbrev main_call14_cst_0 : Ref sig .tc := ⟨.hbm, 339, rfl⟩
abbrev main_call14_v2 : Ref sig .tc := ⟨.hbm, 340, rfl⟩
abbrev main_call14_v3 : Ref sig .tc := ⟨.hbm, 341, rfl⟩
abbrev main_call14_cst_1 : Ref sig .tc := ⟨.hbm, 342, rfl⟩
abbrev main_call14_call0_v0 : Ref sig .tc := ⟨.hbm, 343, rfl⟩
abbrev main_call14_call0_v1 : Ref sig .tc := ⟨.hbm, 344, rfl⟩
abbrev main_call14_v4 : Ref sig .tc := ⟨.hbm, 345, rfl⟩
abbrev main_call14_v5 : Ref sig .tc := ⟨.hbm, 346, rfl⟩
abbrev main_call14_cst_2 : Ref sig .tc := ⟨.hbm, 347, rfl⟩
abbrev main_call14_v6 : Ref sig .tc := ⟨.hbm, 348, rfl⟩
abbrev main_call14_v7 : Ref sig .tc := ⟨.hbm, 349, rfl⟩
abbrev main_v162 : Ref sig .tc := ⟨.hbm, 350, rfl⟩
abbrev main_v163 : Ref sig .tc := ⟨.hbm, 351, rfl⟩
abbrev main_v164 : Ref sig .tc := ⟨.hbm, 352, rfl⟩
abbrev main_v165 : Ref sig .tc := ⟨.hbm, 353, rfl⟩
abbrev main_v166 : Ref sig .tc := ⟨.hbm, 354, rfl⟩
abbrev main_v167 : Ref sig .tc := ⟨.hbm, 355, rfl⟩
abbrev main_c_38 : Ref sig .tc := ⟨.hbm, 356, rfl⟩
abbrev main_v168 : Ref sig .tc := ⟨.hbm, 357, rfl⟩
abbrev main_v169 : Ref sig .tc := ⟨.hbm, 358, rfl⟩
abbrev main_c_39 : Ref sig .tc := ⟨.hbm, 359, rfl⟩
abbrev main_v170 : Ref sig .tc := ⟨.hbm, 360, rfl⟩
abbrev main_v171 : Ref sig .tc := ⟨.hbm, 361, rfl⟩
abbrev main_v172 : Ref sig .tc := ⟨.hbm, 362, rfl⟩
abbrev main_v173 : Ref sig .tc := ⟨.hbm, 363, rfl⟩
abbrev main_v174 : Ref sig .tc := ⟨.hbm, 364, rfl⟩
abbrev main_c_40 : Ref sig .tc := ⟨.hbm, 365, rfl⟩
abbrev main_v175 : Ref sig .tc := ⟨.hbm, 366, rfl⟩
abbrev main_v176 : Ref sig .tc := ⟨.hbm, 367, rfl⟩
abbrev main_c_41 : Ref sig .tc := ⟨.hbm, 368, rfl⟩
abbrev main_v177 : Ref sig .tc := ⟨.hbm, 369, rfl⟩
abbrev main_v178 : Ref sig .tc := ⟨.hbm, 370, rfl⟩
abbrev main_v179 : Ref sig .tc := ⟨.hbm, 371, rfl⟩
abbrev main_v180 : Ref sig .tc := ⟨.hbm, 372, rfl⟩
abbrev main_v181 : Ref sig .tc := ⟨.hbm, 373, rfl⟩
abbrev main_v182 : Ref sig .tc := ⟨.hbm, 374, rfl⟩
abbrev main_v183 : Ref sig .tc := ⟨.hbm, 375, rfl⟩
abbrev main_v184 : Ref sig .tc := ⟨.hbm, 376, rfl⟩
abbrev main_v185 : Ref sig .tc := ⟨.hbm, 377, rfl⟩
abbrev main_cst_42 : Ref sig .tc := ⟨.hbm, 378, rfl⟩
abbrev main_call15_cst : Ref sig .tc := ⟨.hbm, 379, rfl⟩
abbrev main_call15_v0 : Ref sig .tc := ⟨.hbm, 380, rfl⟩
abbrev main_call15_v1 : Ref sig .tc := ⟨.hbm, 381, rfl⟩
abbrev main_call15_v2 : Ref sig .tc := ⟨.hbm, 382, rfl⟩
abbrev main_call15_v3 : Ref sig .tc := ⟨.hbm, 383, rfl⟩
abbrev main_call15_v4 : Ref sig .tc := ⟨.hbm, 384, rfl⟩
abbrev main_v186 : Ref sig .tc := ⟨.hbm, 385, rfl⟩
abbrev main_v187 : Ref sig .tc := ⟨.hbm, 386, rfl⟩
abbrev main_v188 : Ref sig .tc := ⟨.hbm, 387, rfl⟩
abbrev main_cst_43 : Ref sig .tc := ⟨.hbm, 388, rfl⟩
abbrev main_v189 : Ref sig .tc := ⟨.hbm, 389, rfl⟩
abbrev main_v190 : Ref sig .tc := ⟨.hbm, 390, rfl⟩
abbrev main_v191 : Ref sig .tc := ⟨.hbm, 391, rfl⟩
abbrev main_v192 : Ref sig .tc := ⟨.hbm, 392, rfl⟩
abbrev main_v193 : Ref sig .tc := ⟨.hbm, 393, rfl⟩
abbrev main_c_44 : Ref sig .tc := ⟨.hbm, 394, rfl⟩
abbrev main_v194 : Ref sig .tc := ⟨.hbm, 395, rfl⟩
abbrev main_v195 : Ref sig .tc := ⟨.hbm, 396, rfl⟩
abbrev main_c_45 : Ref sig .tc := ⟨.hbm, 397, rfl⟩
abbrev main_v196 : Ref sig .tc := ⟨.hbm, 398, rfl⟩
abbrev main_v197 : Ref sig .tc := ⟨.hbm, 399, rfl⟩
abbrev main_v198 : Ref sig .tc := ⟨.hbm, 400, rfl⟩
abbrev main_v199 : Ref sig .tc := ⟨.hbm, 401, rfl⟩
abbrev main_v200 : Ref sig .tc := ⟨.hbm, 402, rfl⟩
abbrev main_v201 : Ref sig .tc := ⟨.hbm, 403, rfl⟩
abbrev main_v202 : Ref sig .tc := ⟨.hbm, 404, rfl⟩
abbrev main_cst_46 : Ref sig .tc := ⟨.hbm, 405, rfl⟩
abbrev main_v203 : Ref sig .tc := ⟨.hbm, 406, rfl⟩
abbrev main_v204 : Ref sig .tc := ⟨.hbm, 407, rfl⟩
abbrev main_v205 : Ref sig .tc := ⟨.hbm, 408, rfl⟩
abbrev main_v206 : Ref sig .tc := ⟨.hbm, 409, rfl⟩
abbrev main_v207 : Ref sig .tc := ⟨.hbm, 410, rfl⟩
abbrev main_call16_cst : Ref sig .tc := ⟨.hbm, 411, rfl⟩
abbrev main_call16_v0 : Ref sig .tc := ⟨.hbm, 412, rfl⟩
abbrev main_call16_v1 : Ref sig .tc := ⟨.hbm, 413, rfl⟩
abbrev main_call16_cst_0 : Ref sig .tc := ⟨.hbm, 414, rfl⟩
abbrev main_call16_v2 : Ref sig .tc := ⟨.hbm, 415, rfl⟩
abbrev main_call16_v3 : Ref sig .tc := ⟨.hbm, 416, rfl⟩
abbrev main_call16_cst_1 : Ref sig .tc := ⟨.hbm, 417, rfl⟩
abbrev main_call16_call0_v0 : Ref sig .tc := ⟨.hbm, 418, rfl⟩
abbrev main_call16_call0_v1 : Ref sig .tc := ⟨.hbm, 419, rfl⟩
abbrev main_call16_v4 : Ref sig .tc := ⟨.hbm, 420, rfl⟩
abbrev main_call16_v5 : Ref sig .tc := ⟨.hbm, 421, rfl⟩
abbrev main_call16_cst_2 : Ref sig .tc := ⟨.hbm, 422, rfl⟩
abbrev main_call16_v6 : Ref sig .tc := ⟨.hbm, 423, rfl⟩
abbrev main_call16_v7 : Ref sig .tc := ⟨.hbm, 424, rfl⟩
abbrev main_v208 : Ref sig .tc := ⟨.hbm, 425, rfl⟩
abbrev main_v209 : Ref sig .tc := ⟨.hbm, 426, rfl⟩
abbrev main_v210 : Ref sig .tc := ⟨.hbm, 427, rfl⟩
abbrev main_c_47 : Ref sig .tc := ⟨.hbm, 428, rfl⟩
abbrev main_v211 : Ref sig .tc := ⟨.hbm, 429, rfl⟩
abbrev main_v212 : Ref sig .tc := ⟨.hbm, 430, rfl⟩
abbrev main_c_48 : Ref sig .tc := ⟨.hbm, 431, rfl⟩
abbrev main_v213 : Ref sig .tc := ⟨.hbm, 432, rfl⟩
abbrev main_v214 : Ref sig .tc := ⟨.hbm, 433, rfl⟩
abbrev main_v215 : Ref sig .tc := ⟨.hbm, 434, rfl⟩
abbrev main_v216 : Ref sig .tc := ⟨.hbm, 435, rfl⟩
abbrev main_v217 : Ref sig .tc := ⟨.hbm, 436, rfl⟩
abbrev main_c_49 : Ref sig .tc := ⟨.hbm, 437, rfl⟩
abbrev main_v218 : Ref sig .tc := ⟨.hbm, 438, rfl⟩
abbrev main_v219 : Ref sig .tc := ⟨.hbm, 439, rfl⟩
abbrev main_c_50 : Ref sig .tc := ⟨.hbm, 440, rfl⟩
abbrev main_v220 : Ref sig .tc := ⟨.hbm, 441, rfl⟩
abbrev main_v221 : Ref sig .tc := ⟨.hbm, 442, rfl⟩
abbrev main_v222 : Ref sig .tc := ⟨.hbm, 443, rfl⟩
abbrev main_v223 : Ref sig .tc := ⟨.hbm, 444, rfl⟩
abbrev main_v224 : Ref sig .tc := ⟨.hbm, 445, rfl⟩
abbrev main_v225 : Ref sig .tc := ⟨.hbm, 446, rfl⟩
abbrev main_v226 : Ref sig .tc := ⟨.hbm, 447, rfl⟩
abbrev main_v227 : Ref sig .tc := ⟨.hbm, 448, rfl⟩
abbrev main_v228 : Ref sig .tc := ⟨.hbm, 449, rfl⟩
abbrev main_cst_51 : Ref sig .tc := ⟨.hbm, 450, rfl⟩
abbrev main_call17_cst : Ref sig .tc := ⟨.hbm, 451, rfl⟩
abbrev main_call17_v0 : Ref sig .tc := ⟨.hbm, 452, rfl⟩
abbrev main_call17_v1 : Ref sig .tc := ⟨.hbm, 453, rfl⟩
abbrev main_call17_v2 : Ref sig .tc := ⟨.hbm, 454, rfl⟩
abbrev main_call17_v3 : Ref sig .tc := ⟨.hbm, 455, rfl⟩
abbrev main_call17_v4 : Ref sig .tc := ⟨.hbm, 456, rfl⟩
abbrev main_v229 : Ref sig .tc := ⟨.hbm, 457, rfl⟩
abbrev main_v230 : Ref sig .tc := ⟨.hbm, 458, rfl⟩
abbrev main_v231 : Ref sig .tc := ⟨.hbm, 459, rfl⟩
abbrev main_cst_52 : Ref sig .tc := ⟨.hbm, 460, rfl⟩
abbrev main_v232 : Ref sig .tc := ⟨.hbm, 461, rfl⟩
abbrev main_v233 : Ref sig .tc := ⟨.hbm, 462, rfl⟩
abbrev main_v234 : Ref sig .tc := ⟨.hbm, 463, rfl⟩
abbrev main_v235 : Ref sig .tc := ⟨.hbm, 464, rfl⟩
abbrev main_v236 : Ref sig .tc := ⟨.hbm, 465, rfl⟩
abbrev main_c_53 : Ref sig .tc := ⟨.hbm, 466, rfl⟩
abbrev main_v237 : Ref sig .tc := ⟨.hbm, 467, rfl⟩
abbrev main_v238 : Ref sig .tc := ⟨.hbm, 468, rfl⟩
abbrev main_c_54 : Ref sig .tc := ⟨.hbm, 469, rfl⟩
abbrev main_v239 : Ref sig .tc := ⟨.hbm, 470, rfl⟩
abbrev main_v240 : Ref sig .tc := ⟨.hbm, 471, rfl⟩
abbrev main_v241 : Ref sig .tc := ⟨.hbm, 472, rfl⟩
abbrev main_v242 : Ref sig .tc := ⟨.hbm, 473, rfl⟩
abbrev main_v243 : Ref sig .tc := ⟨.hbm, 474, rfl⟩
abbrev main_v244 : Ref sig .tc := ⟨.hbm, 475, rfl⟩
abbrev main_cst_55 : Ref sig .tc := ⟨.hbm, 476, rfl⟩
abbrev main_v245 : Ref sig .tc := ⟨.hbm, 477, rfl⟩
abbrev main_v246 : Ref sig .tc := ⟨.hbm, 478, rfl⟩
abbrev main_v247 : Ref sig .tc := ⟨.hbm, 479, rfl⟩
abbrev main_v248 : Ref sig .tc := ⟨.hbm, 480, rfl⟩
abbrev main_call18_cst : Ref sig .tc := ⟨.hbm, 481, rfl⟩
abbrev main_call18_v0 : Ref sig .tc := ⟨.hbm, 482, rfl⟩
abbrev main_call18_v1 : Ref sig .tc := ⟨.hbm, 483, rfl⟩
abbrev main_call18_cst_0 : Ref sig .tc := ⟨.hbm, 484, rfl⟩
abbrev main_call18_v2 : Ref sig .tc := ⟨.hbm, 485, rfl⟩
abbrev main_call18_v3 : Ref sig .tc := ⟨.hbm, 486, rfl⟩
abbrev main_call18_cst_1 : Ref sig .tc := ⟨.hbm, 487, rfl⟩
abbrev main_call18_call0_v0 : Ref sig .tc := ⟨.hbm, 488, rfl⟩
abbrev main_call18_call0_v1 : Ref sig .tc := ⟨.hbm, 489, rfl⟩
abbrev main_call18_v4 : Ref sig .tc := ⟨.hbm, 490, rfl⟩
abbrev main_call18_v5 : Ref sig .tc := ⟨.hbm, 491, rfl⟩
abbrev main_call18_cst_2 : Ref sig .tc := ⟨.hbm, 492, rfl⟩
abbrev main_call18_v6 : Ref sig .tc := ⟨.hbm, 493, rfl⟩
abbrev main_call18_v7 : Ref sig .tc := ⟨.hbm, 494, rfl⟩
abbrev main_v249 : Ref sig .tc := ⟨.hbm, 495, rfl⟩
abbrev main_v250 : Ref sig .tc := ⟨.hbm, 496, rfl⟩
abbrev main_v251 : Ref sig .tc := ⟨.hbm, 497, rfl⟩
abbrev main_cst_56 : Ref sig .tc := ⟨.hbm, 498, rfl⟩
abbrev main_v252 : Ref sig .tc := ⟨.hbm, 499, rfl⟩
abbrev main_v253 : Ref sig .tc := ⟨.hbm, 500, rfl⟩
abbrev main_cst_57 : Ref sig .tc := ⟨.hbm, 501, rfl⟩
abbrev main_v254 : Ref sig .tc := ⟨.hbm, 502, rfl⟩
abbrev main_v255 : Ref sig .tc := ⟨.hbm, 503, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  slices_S4x256x32_S1x256x32_0_0_0 : S4x256x32.Slices ![0, 0, 0] S1x256x32
  shapeCasts_S1x256x32_S256x32 : S1x256x32.ShapeCasts S256x32
  slices_S4x1x64_S1x1x64_0_0_0 : S4x1x64.Slices ![0, 0, 0] S1x1x64
  shapeCasts_S1x1x64_S1x64 : S1x1x64.ShapeCasts S1x64
  concatenates_S1048576x32_S1048576x32_S1048576x64_d1 : Shape.Concatenates [S1048576x32, S1048576x32] S1048576x64 1
  transposes_S1048576x64_S64x1048576_1_0 : S1048576x64.Transposes [1, 0] S64x1048576
  shapeCasts_S1x1048576_S1048576 : S1x1048576.ShapeCasts S1048576
  bcast_S_S1024 : S_.BroadcastsInDim S1024 (![] : Fin 0 → Fin S1024.rank)
  bcast_S1024_S1024x1_0 : S1024.BroadcastsInDim S1024x1 (![0] : Fin 1 → Fin S1024x1.rank)
  bcast_S1048576x1_S1048576x32_0_1 : S1048576x1.BroadcastsInDim S1048576x32 (![0, 1] : Fin 2 → Fin S1048576x32.rank)
  bcast_S_S1024x32 : S_.BroadcastsInDim S1024x32 (![] : Fin 0 → Fin S1024x32.rank)
  bcast_S1024x1_S1024x32_0_1 : S1024x1.BroadcastsInDim S1024x32 (![0, 1] : Fin 2 → Fin S1024x32.rank)
  slices_S4x256x32_S1x256x32_1_0_0 : S4x256x32.Slices ![1, 0, 0] S1x256x32
  slices_S4x1x64_S1x1x64_1_0_0 : S4x1x64.Slices ![1, 0, 0] S1x1x64
  slices_S4x256x32_S1x256x32_2_0_0 : S4x256x32.Slices ![2, 0, 0] S1x256x32
  slices_S4x1x64_S1x1x64_2_0_0 : S4x1x64.Slices ![2, 0, 0] S1x1x64
  slices_S4x256x32_S1x256x32_3_0_0 : S4x256x32.Slices ![3, 0, 0] S1x256x32
  slices_S4x1x64_S1x1x64_3_0_0 : S4x1x64.Slices ![3, 0, 0] S1x1x64
  concatenates_S1024x32_S1024x32_S1024x32_S1024x32_S1024x128_d1 : Shape.Concatenates [S1024x32, S1024x32, S1024x32, S1024x32] S1024x128 1
  concatenates_S1048576x1_S1048576x1_S1048576x2_d1 : Shape.Concatenates [S1048576x1, S1048576x1] S1048576x2 1
  transposes_S1048576x2_S2x1048576_1_0 : S1048576x2.Transposes [1, 0] S2x1048576
  bcast_S_S1024x1 : S_.BroadcastsInDim S1024x1 (![] : Fin 0 → Fin S1024x1.rank)
  scatter_S1048576_S1048576x1_S1048576_n_0_0_1_wf : ScatterDims.WF S1048576 S1048576x1 S1048576 [] [0] [0] 1
  dot_S1024x256_S256x32_S1024x32_1_0_0_1_n_n_wf : DotDims.WF S1024x256 S256x32 S1024x32 [1] [0] [0] [1] [] []
  gather_S1024x32_S1048576x1_S1048576x32_1_0_n_n_0_1_132_wf : GatherDims.WF S1024x32 S1048576x1 S1048576x32 [1] [0] [] [0] [] 1 ![1, 32]
  dot_S1x64_S64x1048576_S1x1048576_1_0_0_1_n_n_wf : DotDims.WF S1x64 S64x1048576 S1x1048576 [1] [0] [0] [1] [] []
  scatter_S1024_S1048576x1_S1048576_n_0_0_1_wf : ScatterDims.WF S1024 S1048576x1 S1048576 [] [0] [0] 1
  scatter_S1024x32_S1048576x1_S1048576x32_1_0_0_1_wf : ScatterDims.WF S1024x32 S1048576x1 S1048576x32 [1] [0] [0] 1
  dot_S1024x128_S128x1_S1024x1_1_0_0_1_n_n_wf : DotDims.WF S1024x128 S128x1 S1024x1 [1] [0] [0] [1] [] []
  gather_S1024x1_S1048576x1_S1048576x1_1_0_n_n_0_1_11_wf : GatherDims.WF S1024x1 S1048576x1 S1048576x1 [1] [0] [] [0] [] 1 ![1, 1]
  dot_S1x2_S2x1048576_S1x1048576_1_0_0_1_n_n_wf : DotDims.WF S1x2 S2x1048576 S1x1048576 [1] [0] [0] [1] [] []
  scatter_S1024x1_S1048576x1_S1048576x1_1_0_0_1_wf : ScatterDims.WF S1024x1 S1048576x1 S1048576x1 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def gather_S1024x32_S1048576x1_S1048576x32_1_0_n_n_0_1_132 : GatherDims S1024x32 S1048576x1 S1048576x32 where
  offsetDims := [1]
  collapsedSliceDims := [0]
  operandBatchingDims := []
  startIndicesBatchingDims := []
  startIndexMap := [0]
  indexVectorDim := 1
  sliceSizes := ![1, 32]
  wf := gather_S1024x32_S1048576x1_S1048576x32_1_0_n_n_0_1_132_wf
def dot_S1x64_S64x1048576_S1x1048576_1_0_0_1_n_n : DotDims S1x64 S64x1048576 S1x1048576 where
  lhsContracting := [1]
  rhsContracting := [0]
  lhsNonContracting := [0]
  rhsNonContracting := [1]
  lhsBatch := []
  rhsBatch := []
  wf := dot_S1x64_S64x1048576_S1x1048576_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def scatter_S1024x32_S1048576x1_S1048576x32_1_0_0_1 : ScatterDims S1024x32 S1048576x1 S1048576x32 where
  updateWindowDims := [1]
  insertedWindowDims := [0]
  scatterDimsToOperandDims := [0]
  indexVectorDim := 1
  wf := scatter_S1024x32_S1048576x1_S1048576x32_1_0_0_1_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def gather_S1024x1_S1048576x1_S1048576x1_1_0_n_n_0_1_11 : GatherDims S1024x1 S1048576x1 S1048576x1 where
  offsetDims := [1]
  collapsedSliceDims := [0]
  operandBatchingDims := []
  startIndicesBatchingDims := []
  startIndexMap := [0]
  indexVectorDim := 1
  sliceSizes := ![1, 1]
  wf := gather_S1024x1_S1048576x1_S1048576x1_1_0_n_n_0_1_11_wf
def dot_S1x2_S2x1048576_S1x1048576_1_0_0_1_n_n : DotDims S1x2 S2x1048576 S1x1048576 where
  lhsContracting := [1]
  rhsContracting := [0]
  lhsNonContracting := [0]
  rhsNonContracting := [1]
  lhsBatch := []
  rhsBatch := []
  wf := dot_S1x2_S2x1048576_S1x1048576_1_0_0_1_n_n_wf
def scatter_S1024x1_S1048576x1_S1048576x1_1_0_0_1 : ScatterDims S1024x1 S1048576x1 S1048576x1 where
  updateWindowDims := [1]
  insertedWindowDims := [0]
  scatterDimsToOperandDims := [0]
  indexVectorDim := 1
  wf := scatter_S1024x1_S1048576x1_S1048576x1_1_0_0_1_wf

class Facts : Prop extends Facts₀ where

variable [Facts]
-- ==== Proof.KRuns.lean ====
import proofs.«135979_g12610023981851_fold_wed_c4_432_5_alg».proof.Proof.Gen.KernelIdeal.Launch
import proofs.«135979_g12610023981851_fold_wed_c4_432_5_alg».proof.Proof.Gen.KernelIdeal.Skeleton
import proofs.«135979_g12610023981851_fold_wed_c4_432_5_alg».proof.Proof.Gen.KernelIdeal.Points
import proofs.«135979_g12610023981851_fold_wed_c4_432_5_alg».proof.Proof.Gen.KernelIdeal.Frame
import Idealize.ShloMosaic.Lib.Pipeline.FrameBody
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 2 = 0 := by
  show ∀ t : Fin grid0.N, _; decide +kernel

abbrev cond0_1 (i : grid0.Coords) : Prop := (Scalar.cmpi .ne (Scalar.extui (Scalar.cmpi .eq (BitVec.ofNat 32 (i 0).val) 1#32)) 0#32) = 1#1
theorem hcond0_1 : ∀ t : Fin cfg0.N, cond0_1 (grid0.coords t) ↔ t.val % 2 = 1 := by
  show ∀ t : Fin grid0.N, _; decide +kernel

abbrev cond0_2 (i : grid0.Coords) : Prop := k0_cond3 i = 1#1
theorem hcond0_2 : ∀ t : Fin cfg0.N, cond0_2 (grid0.coords t) ↔ t.val % 2 = 0 := by
  show ∀ t : Fin grid0.N, _; decide +kernel

abbrev cond0_3 (i : grid0.Coords) : Prop := k0_cond4 i = 1#1
theorem hcond0_3 : ∀ t : Fin cfg0.N, cond0_3 (grid0.coords t) ↔ t.val % 2 = 1 := by
  show ∀ t : Fin grid0.N, _; decide +kernel

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cond0_2 (grid0.coords t) → ¬cond0_3 (grid0.coords t) → cfg0.idle 7 (grid0.coords t) = true := by decide +kernel
theorem noFlush0_7_A : ∀ t : Fin cfg0.N, cond0_0 (grid0.coords t) → ¬cond0_1 (grid0.coords t) → cond0_2 (grid0.coords t) → ¬cond0_3 (grid0.coords t) → (cfg0.win 7).flush t = false := by decide +kernel

theorem liveAt0_7_B : ∀ t : Fin cfg0.N, ¬cond0_0 (grid0.coords t) → cond0_1 (grid0.coords t) → ¬cond0_2 (grid0.coords t) → cond0_3 (grid0.coords t) → cfg0.idle 7 (grid0.coords t) = false := by decide +kernel

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x256x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev scM0_0 : Memref sig .tc .vmem S1024x512 .f32 := Memref.whole cc0_scratch0
abbrev scM0_1 : Memref sig .tc .vmem S1024x4 .f32 := Memref.whole cc0_scratch1
abbrev scM0_2 : Memref sig .tc .vmem S4x1024 .f32 := Memref.whole cc0_scratch2
abbrev scM0_3 : Memref sig .tc .vmem S1024x128 .f32 := Memref.whole cc0_scratch3
abbrev scM0_4 : Memref sig .tc .vmem S1024x1 .f32 := Memref.whole cc0_scratch4
abbrev scM0_5 : Memref sig .tc .vmem S1x1024 .f32 := Memref.whole cc0_scratch5
abbrev scM0_6 : Memref sig .tc .vmem S1024x128 .f32 := Memref.whole cc0_scratch6

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; rfl

-- Take `f' := f` and `d := rd f`.
@[instance_reducible] def frame_read {α β : Sort _} (rd : β → α) (P : β → sProp 𝕄) (f : β) : Frame false (P f) iprop(∃ d f', ⌜rd f' = d⌝ ∗ P f') iprop(emp) where
  frame := by
    iintro ⟨H, -⟩; iexists _, f; isplitr; · ipureintro; rfl
    iexact H

-- `h.unread x` reads as `x`, so it is the witness.
@[instance_reducible] def frame_unread (c : Dev nD) {sh : Shape} (a : Memref sig .tc .vmem sh .f32) (h : a.IsWhole) (x : Vec F sh .f32) :
    Frame false (a.view.loc (c : Thread nD τ) ↦[a.view.set]{fullShare} h.unread x : sProp 𝕄)
      iprop(∃ f, ⌜a.view.read (Elt F) f = x⌝ ∗ (a.view.loc (c : Thread nD τ) ↦[a.view.set]{fullShare} f)) iprop(emp) where
  frame := by
    iintro ⟨H, -⟩; iexists _; isplitr; · ipureintro; exact h.read_unread x
    iexact H

end Cert.KernelIdeal.Gen

end
-- ==== Proof.KRunA.lean ====
import proofs.«135979_g12610023981851_fold_wed_c4_432_5_alg».proof.Proof.KRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k0_off1_eq_A : ∀ i : grid0.Coords, k0_off1 i = ![0, 0] := by decide +kernel
instance closedOff_k0_off1_A (i : grid0.Coords) : ClosedOff (k0_off1 i) := ⟨_, k0_off1_eq_A i⟩
theorem k0_off2_eq_A : ∀ i : grid0.Coords, k0_off2 i = ![0, 0] := by decide +kernel
instance closedOff_k0_off2_A (i : grid0.Coords) : ClosedOff (k0_off2 i) := ⟨_, k0_off2_eq_A i⟩
theorem k0_off3_eq_A : ∀ i : grid0.Coords, k0_off3 i = ![0, 0] := by decide +kernel
instance closedOff_k0_off3_A (i : grid0.Coords) : ClosedOff (k0_off3 i) := ⟨_, k0_off3_eq_A i⟩
theorem k0_off4_eq_A : ∀ i : grid0.Coords, k0_off4 i = ![0, 1] := by decide +kernel
instance closedOff_k0_off4_A (i : grid0.Coords) : ClosedOff (k0_off4 i) := ⟨_, k0_off4_eq_A i⟩
theorem k0_off5_eq_A : ∀ i : grid0.Coords, k0_off5 i = ![0, 32] := by decide +kernel
instance closedOff_k0_off5_A (i : grid0.Coords) : ClosedOff (k0_off5 i) := ⟨_, k0_off5_eq_A i⟩
theorem k0_off6_eq_A : ∀ i : grid0.Coords, k0_off6 i = ![0, 2] := by decide +kernel
instance closedOff_k0_off6_A (i : grid0.Coords) : ClosedOff (k0_off6 i) := ⟨_, k0_off6_eq_A i⟩
theorem k0_off7_eq_A : ∀ i : grid0.Coords, k0_off7 i = ![0, 64] := by decide +kernel
instance closedOff_k0_off7_A (i : grid0.Coords) : ClosedOff (k0_off7 i) := ⟨_, k0_off7_eq_A i⟩
theorem k0_off8_eq_A : ∀ i : grid0.Coords, k0_off8 i = ![0, 3] := by decide +kernel
instance closedOff_k0_off8_A (i : grid0.Coords) : ClosedOff (k0_off8 i) := ⟨_, k0_off8_eq_A i⟩
theorem k0_off9_eq_A : ∀ i : grid0.Coords, k0_off9 i = ![0, 96] := by decide +kernel
instance closedOff_k0_off9_A (i : grid0.Coords) : ClosedOff (k0_off9 i) := ⟨_, k0_off9_eq_A i⟩

attribute [local instance] frame_read frame_unread

set_option maxHeartbeats 4000000 in
noncomputable def kernelRun0_A (c : Dev nD) (i : grid0.Coords) (arg1 : Memref sig .tc .vmem S1024x256 .f32) (harg1 : arg1.IsWhole) (arg2 : Memref sig .tc .vmem S4x256x32 .f32) (harg2 : arg2.IsWhole) (arg3 : Memref sig .tc .vmem S32x4 .f32) (harg3 : arg3.IsWhole) (arg4 : Memref sig .tc .vmem S32x4 .f32) (harg4 : arg4.IsWhole) (arg5 : Memref sig .tc .vmem S1024x1024 .f32) (harg5 : arg5.IsWhole) (arg6 : Memref sig .tc .vmem S128x1 .f32) (harg6 : arg6.IsWhole) (arg7 : Memref sig .tc .vmem S1x2 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x4 .f32) (harg10 : arg10.IsWhole) (arg11 : Memref sig .tc .vmem S4x1024 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1x1024 .f32) (harg14 : arg14.IsWhole) (arg15 : Memref sig .tc .vmem S1024x128 .f32) (harg15 : arg15.IsWhole) (hc0 : cond0_0 i) (hc1 : ¬cond0_1 i) (hc2 : cond0_2 i) (hc3 : ¬cond0_3 i)
    (x0 : Vec F S1024x256 .f32) (x1 : Vec F S4x256x32 .f32) (x2 x3 : Vec F S32x4 .f32) (x4 : Vec F S1024x1024 .f32) (x5 : Vec F S128x1 .f32) (x6 : Vec F S1x2 .f32) (xs9 : Vec F S1024x512 .f32) :
    { LS3 : List (View.Piece (Elt F) S1024x128 .f32) //
      ∀ (xi7 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare xs9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS3) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__gat_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi7 E K => ?run⟩
  case run =>
    simp only [cc0__gat_body_eq_skeleton]; unfold cc0__gat_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0
    sl_exec (disch := first | exact hc0 | exact hc1 | exact hc2 | exact hc3)
    sl_step
    iapply Hk
    iframe
    iexists _; iexact HS3

end Cert.KernelIdeal.Gen

end
-- ==== Proof.KRunB.lean ====
import proofs.«135979_g12610023981851_fold_wed_c4_432_5_alg».proof.Proof.KRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k0_off1_eq_B : ∀ i : grid0.Coords, k0_off1 i = ![0, 0] := by decide +kernel
instance closedOff_k0_off1_B (i : grid0.Coords) : ClosedOff (k0_off1 i) := ⟨_, k0_off1_eq_B i⟩
theorem k0_off10_eq_B : ∀ i : grid0.Coords, k0_off10 i = ![0, 0] := by decide +kernel
instance closedOff_k0_off10_B (i : grid0.Coords) : ClosedOff (k0_off10 i) := ⟨_, k0_off10_eq_B i⟩

attribute [local instance] frame_read frame_unread

set_option maxHeartbeats 1000000 in
noncomputable def kernelRun0_B (c : Dev nD) (i : grid0.Coords) (arg1 : Memref sig .tc .vmem S1024x256 .f32) (harg1 : arg1.IsWhole) (arg2 : Memref sig .tc .vmem S4x256x32 .f32) (harg2 : arg2.IsWhole) (arg3 : Memref sig .tc .vmem S32x4 .f32) (harg3 : arg3.IsWhole) (arg4 : Memref sig .tc .vmem S32x4 .f32) (harg4 : arg4.IsWhole) (arg5 : Memref sig .tc .vmem S1024x1024 .f32) (harg5 : arg5.IsWhole) (arg6 : Memref sig .tc .vmem S128x1 .f32) (harg6 : arg6.IsWhole) (arg7 : Memref sig .tc .vmem S1x2 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x4 .f32) (harg10 : arg10.IsWhole) (arg11 : Memref sig .tc .vmem S4x1024 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1x1024 .f32) (harg14 : arg14.IsWhole) (arg15 : Memref sig .tc .vmem S1024x128 .f32) (harg15 : arg15.IsWhole) (hc0 : ¬cond0_0 i) (hc1 : cond0_1 i) (hc2 : ¬cond0_2 i) (hc3 : cond0_3 i)
    (x0 : Vec F S1024x256 .f32) (x1 : Vec F S4x256x32 .f32) (x2 x3 : Vec F S32x4 .f32) (x4 : Vec F S1024x1024 .f32) (x5 : Vec F S128x1 .f32) (x6 : Vec F S1x2 .f32) (xs3 : Vec F S1024x128 .f32) (xs15 : Vec F S1024x128 .f32) :
    { L7 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ (∃ d, owns (c : Thread nD τ) arg13 fullShare d) ∗ (∃ d, owns (c : Thread nD τ) arg14 fullShare d) ∗ owns (c : Thread nD τ) arg15 fullShare xs15
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)
                ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__gat_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__gat_body_eq_skeleton]; unfold cc0__gat_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%fs3, %hfs3, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg12.eq_unread hfs3; obtain rfl := harg15.eq_unread hfs6
    sl_exec (disch := first | exact hc0 | exact hc1 | exact hc2 | exact hc3)
    sl_step
    iapply Hk
    iframe
    iexists _; iexact H7

end Cert.KernelIdeal.Gen

end
-- ==== Proof.KFrame.lean ====
import proofs.«135979_g12610023981851_fold_wed_c4_432_5_alg».proof.Proof.KRunA
import proofs.«135979_g12610023981851_fold_wed_c4_432_5_alg».proof.Proof.KRunB

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def rdats (c : Dev nD) : Pipeline.RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

-- Take `d := y`.
local instance frame_some {α : Sort _} (Q : α → sProp 𝕄) (y : α) : Frame false (Q y) iprop(∃ d, Q d) iprop(emp) where
  frame := by iintro ⟨H, -⟩; iexists y; iexact H

-- Take `X := y`: then `p → X = y` holds by reflexivity.
local instance frame_kept {α : Sort _} (p : Prop) (y : α) (Q : α → sProp 𝕄) (R G : sProp 𝕄) [h : Frame false R (Q y) G] :
    Frame false R iprop(∃ X, ⌜p → X = y⌝ ∗ Q X) G where
  frame := by
    iintro H; iexists y; isplitr; · ipureintro; exact fun _ => rfl
    iapply h.frame; iexact H

theorem body_obligation (c : Dev nD) : (rdats (F := F) m c).BodyObligation (defs₀ (F := F)) Variants.none () Set.univ := fun t Y _ => by
  rw [bigSep_W0, bigSep_W0]
  simp only [rdats, PhiA0_eq]
  rcases fin_N0 t with rfl | rfl
  · iintro ⟨⟨⟨⟨%d9, HS0⟩, HS1, HS2, HS3, HS4, HS5, HS6⟩, Hg⟩, Ho, H0, H1, H2, H3, H4, H5, H6, H7⟩
    iapply ((kernelRun0_A c _ _ _ _ _ _ _ _ _ _ _ _ _ _ _ _ _ _ _ _ _ _ _ _ _ _ _ _ _ _ _ ((hcond0_0 t0_0).mpr rfl) (mt (hcond0_1 t0_0).mp (by decide)) ((hcond0_2 t0_0).mpr rfl) (mt (hcond0_3 t0_0).mp (by decide)) (Y 0) (Y 1) (Y 2) (Y 3) (Y 4) (Y 5) (Y 6) d9).2 (Y 7) Set.univ _)
    iframe
    iintro ⟨H0, H1, H2, H3, H4, H5, H6, H7, HS0, HS1, HS2, ⟨%e3, HS3⟩, HS4, HS5, HS6⟩
    ihave HS3 := owns_intro _ _ _ _ $$ HS3
    iframe
    iexact Ho
  · iintro ⟨⟨⟨HS0, HS1, HS2, ⟨%d12, HS3⟩, HS4, HS5, ⟨%d15, HS6⟩⟩, Hg⟩, Ho, H0, H1, H2, H3, H4, H5, H6, H7⟩
    iapply ((kernelRun0_B c _ _ _ _ _ _ _ _ _ _ _ _ _ _ _ _ _ _ _ _ _ _ _ _ _ _ _ _ _ _ _ (mt (hcond0_0 t0_1).mp (by decide)) ((hcond0_1 t0_1).mpr rfl) (mt (hcond0_2 t0_1).mp (by decide)) ((hcond0_3 t0_1).mpr rfl) (Y 0) (Y 1) (Y 2) (Y 3) (Y 4) (Y 5) (Y 6) d12 d15).2 Set.univ _)
    iframe
    iintro ⟨H0, H1, H2, H3, H4, H5, H6, ⟨%e7, H7⟩, HS0, HS1, HS2, HS3, HS4, HS5, HS6⟩
    ihave H7 := owns_intro _ _ _ _ $$ H7
    iframe
    isplitl [Ho]; · iexact Ho
    iexists _; isplitr; swap; · iexact H7
    ipureintro; exact fun h => absurd h (by decide)

set_option backward.isDefEq.respectTransparency.types false in
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

theorem arr_in (c : Dev nD) (w : Fin cfg0.W) (hw : (cfg0.win w).isOut = false) (G : Buf (Elt F) ((cfg0.win w).arr.view.loc (c.tc : Thread nD τ)))
    (h : (rdats m c).ArrAt w cfg0.N G) : G = V m c (Pipeline.arrRef spec0 w) :=
  Eq.mp (congrFun ((rdats m c).ArrAt_in w hw cfg0.N) G) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arr_in m c 0 rfl _ ((h c).1 0)).trans (V_main_arg0 m c),
      (arr_in m c 4 rfl _ ((h c).1 4)).trans (V_main_arg1 m c),
      (arr_in m c 1 rfl _ ((h c).1 1)).trans (V_main_arg2 m c),
      ((h c).2 main_arg3 (Pipeline.mem_restRefs_of main_arg3 (by decide) (by decide))).trans (V_main_arg3 m c),
      (arr_in m c 5 rfl _ ((h c).1 5)).trans (V_main_arg4 m c),
      (arr_in m c 6 rfl _ ((h c).1 6)).trans (V_main_arg5 m c)⟩) (run_main m ρ)

end Cert.KernelIdeal.Gen

end
-- ==== Proof.BRuns.lean ====
import proofs.«135979_g12610023981851_fold_wed_c4_432_5_alg».proof.Proof.Gen.Kernel.Launch
import proofs.«135979_g12610023981851_fold_wed_c4_432_5_alg».proof.Proof.Gen.Kernel.Skeleton
import proofs.«135979_g12610023981851_fold_wed_c4_432_5_alg».proof.Proof.Gen.Kernel.Points
import proofs.«135979_g12610023981851_fold_wed_c4_432_5_alg».proof.Proof.Gen.Kernel.Frame
import Idealize.ShloMosaic.Lib.Pipeline.FrameBody
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 2 = 0 := by
  show ∀ t : Fin grid0.N, _; decide +kernel

abbrev cond0_1 (i : grid0.Coords) : Prop := (Scalar.cmpi .ne (Scalar.extui (Scalar.cmpi .eq (BitVec.ofNat 32 (i 0).val) 1#32)) 0#32) = 1#1
theorem hcond0_1 : ∀ t : Fin cfg0.N, cond0_1 (grid0.coords t) ↔ t.val % 2 = 1 := by
  show ∀ t : Fin grid0.N, _; decide +kernel

abbrev cond0_2 (i : grid0.Coords) : Prop := k0_cond3 i = 1#1
theorem hcond0_2 : ∀ t : Fin cfg0.N, cond0_2 (grid0.coords t) ↔ t.val % 2 = 0 := by
  show ∀ t : Fin grid0.N, _; decide +kernel

abbrev cond0_3 (i : grid0.Coords) : Prop := k0_cond4 i = 1#1
theorem hcond0_3 : ∀ t : Fin cfg0.N, cond0_3 (grid0.coords t) ↔ t.val % 2 = 1 := by
  show ∀ t : Fin grid0.N, _; decide +kernel

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cond0_2 (grid0.coords t) → ¬cond0_3 (grid0.coords t) → cfg0.idle 7 (grid0.coords t) = true := by decide +kernel
theorem noFlush0_7_A : ∀ t : Fin cfg0.N, cond0_0 (grid0.coords t) → ¬cond0_1 (grid0.coords t) → cond0_2 (grid0.coords t) → ¬cond0_3 (grid0.coords t) → (cfg0.win 7).flush t = false := by decide +kernel

theorem liveAt0_7_B : ∀ t : Fin cfg0.N, ¬cond0_0 (grid0.coords t) → cond0_1 (grid0.coords t) → ¬cond0_2 (grid0.coords t) → cond0_3 (grid0.coords t) → cfg0.idle 7 (grid0.coords t) = false := by decide +kernel

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x256x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev scM0_0 : Memref sig .tc .vmem S1024x512 .f32 := Memref.whole cc0_scratch0
abbrev scM0_1 : Memref sig .tc .vmem S1024x4 .f32 := Memref.whole cc0_scratch1
abbrev scM0_2 : Memref sig .tc .vmem S4x1024 .f32 := Memref.whole cc0_scratch2
abbrev scM0_3 : Memref sig .tc .vmem S1024x128 .f32 := Memref.whole cc0_scratch3
abbrev scM0_4 : Memref sig .tc .vmem S1024x1 .f32 := Memref.whole cc0_scratch4
abbrev scM0_5 : Memref sig .tc .vmem S1x1024 .f32 := Memref.whole cc0_scratch5
abbrev scM0_6 : Memref sig .tc .vmem S1024x128 .f32 := Memref.whole cc0_scratch6

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; rfl

-- Take `f' := f` and `d := rd f`.
@[instance_reducible] def frame_read {α β : Sort _} (rd : β → α) (P : β → sProp 𝕄) (f : β) : Frame false (P f) iprop(∃ d f', ⌜rd f' = d⌝ ∗ P f') iprop(emp) where
  frame := by
    iintro ⟨H, -⟩; iexists _, f; isplitr; · ipureintro; rfl
    iexact H

-- `h.unread x` reads as `x`, so it is the witness.
@[instance_reducible] def frame_unread (c : Dev nD) {sh : Shape} (a : Memref sig .tc .vmem sh .f32) (h : a.IsWhole) (x : Vec F sh .f32) :
    Frame false (a.view.loc (c : Thread nD τ) ↦[a.view.set]{fullShare} h.unread x : sProp 𝕄)
      iprop(∃ f, ⌜a.view.read (Elt F) f = x⌝ ∗ (a.view.loc (c : Thread nD τ) ↦[a.view.set]{fullShare} f)) iprop(emp) where
  frame := by
    iintro ⟨H, -⟩; iexists _; isplitr; · ipureintro; exact h.read_unread x
    iexact H

end Cert.Kernel.Gen

end
-- ==== Proof.BRunA.lean ====
import proofs.«135979_g12610023981851_fold_wed_c4_432_5_alg».proof.Proof.BRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k0_off1_eq_A : ∀ i : grid0.Coords, k0_off1 i = ![0, 0] := by decide +kernel
instance closedOff_k0_off1_A (i : grid0.Coords) : ClosedOff (k0_off1 i) := ⟨_, k0_off1_eq_A i⟩
theorem k0_off2_eq_A : ∀ i : grid0.Coords, k0_off2 i = ![0, 0] := by decide +kernel
instance closedOff_k0_off2_A (i : grid0.Coords) : ClosedOff (k0_off2 i) := ⟨_, k0_off2_eq_A i⟩
theorem k0_off3_eq_A : ∀ i : grid0.Coords, k0_off3 i = ![0, 0] := by decide +kernel
instance closedOff_k0_off3_A (i : grid0.Coords) : ClosedOff (k0_off3 i) := ⟨_, k0_off3_eq_A i⟩
theorem k0_off4_eq_A : ∀ i : grid0.Coords, k0_off4 i = ![0, 1] := by decide +kernel
instance closedOff_k0_off4_A (i : grid0.Coords) : ClosedOff (k0_off4 i) := ⟨_, k0_off4_eq_A i⟩
theorem k0_off5_eq_A : ∀ i : grid0.Coords, k0_off5 i = ![0, 32] := by decide +kernel
instance closedOff_k0_off5_A (i : grid0.Coords) : ClosedOff (k0_off5 i) := ⟨_, k0_off5_eq_A i⟩
theorem k0_off6_eq_A : ∀ i : grid0.Coords, k0_off6 i = ![0, 2] := by decide +kernel
instance closedOff_k0_off6_A (i : grid0.Coords) : ClosedOff (k0_off6 i) := ⟨_, k0_off6_eq_A i⟩
theorem k0_off7_eq_A : ∀ i : grid0.Coords, k0_off7 i = ![0, 64] := by decide +kernel
instance closedOff_k0_off7_A (i : grid0.Coords) : ClosedOff (k0_off7 i) := ⟨_, k0_off7_eq_A i⟩
theorem k0_off8_eq_A : ∀ i : grid0.Coords, k0_off8 i = ![0, 3] := by decide +kernel
instance closedOff_k0_off8_A (i : grid0.Coords) : ClosedOff (k0_off8 i) := ⟨_, k0_off8_eq_A i⟩
theorem k0_off9_eq_A : ∀ i : grid0.Coords, k0_off9 i = ![0, 96] := by decide +kernel
instance closedOff_k0_off9_A (i : grid0.Coords) : ClosedOff (k0_off9 i) := ⟨_, k0_off9_eq_A i⟩

attribute [local instance] frame_read frame_unread

set_option maxHeartbeats 4000000 in
noncomputable def kernelRun0_A (c : Dev nD) (i : grid0.Coords) (arg1 : Memref sig .tc .vmem S1024x256 .f32) (harg1 : arg1.IsWhole) (arg2 : Memref sig .tc .vmem S4x256x32 .f32) (harg2 : arg2.IsWhole) (arg3 : Memref sig .tc .vmem S32x4 .f32) (harg3 : arg3.IsWhole) (arg4 : Memref sig .tc .vmem S32x4 .f32) (harg4 : arg4.IsWhole) (arg5 : Memref sig .tc .vmem S1024x1024 .f32) (harg5 : arg5.IsWhole) (arg6 : Memref sig .tc .vmem S128x1 .f32) (harg6 : arg6.IsWhole) (arg7 : Memref sig .tc .vmem S1x2 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x4 .f32) (harg10 : arg10.IsWhole) (arg11 : Memref sig .tc .vmem S4x1024 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1x1024 .f32) (harg14 : arg14.IsWhole) (arg15 : Memref sig .tc .vmem S1024x128 .f32) (harg15 : arg15.IsWhole) (hc0 : cond0_0 i) (hc1 : ¬cond0_1 i) (hc2 : cond0_2 i) (hc3 : ¬cond0_3 i)
    (x0 : Vec F S1024x256 .f32) (x1 : Vec F S4x256x32 .f32) (x2 x3 : Vec F S32x4 .f32) (x4 : Vec F S1024x1024 .f32) (x5 : Vec F S128x1 .f32) (x6 : Vec F S1x2 .f32) (xs9 : Vec F S1024x512 .f32) :
    { LS3 : List (View.Piece (Elt F) S1024x128 .f32) //
      ∀ (xi7 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare xs9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS3) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__gat_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi7 E K => ?run⟩
  case run =>
    simp only [cc0__gat_body_eq_skeleton]; unfold cc0__gat_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0
    sl_exec (disch := first | exact hc0 | exact hc1 | exact hc2 | exact hc3)
    sl_step
    iapply Hk
    iframe
    iexists _; iexact HS3

end Cert.Kernel.Gen

end
-- ==== Proof.BRunB.lean ====
import proofs.«135979_g12610023981851_fold_wed_c4_432_5_alg».proof.Proof.BRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k0_off1_eq_B : ∀ i : grid0.Coords, k0_off1 i = ![0, 0] := by decide +kernel
instance closedOff_k0_off1_B (i : grid0.Coords) : ClosedOff (k0_off1 i) := ⟨_, k0_off1_eq_B i⟩
theorem k0_off10_eq_B : ∀ i : grid0.Coords, k0_off10 i = ![0, 0] := by decide +kernel
instance closedOff_k0_off10_B (i : grid0.Coords) : ClosedOff (k0_off10 i) := ⟨_, k0_off10_eq_B i⟩

attribute [local instance] frame_read frame_unread

set_option maxHeartbeats 1000000 in
noncomputable def kernelRun0_B (c : Dev nD) (i : grid0.Coords) (arg1 : Memref sig .tc .vmem S1024x256 .f32) (harg1 : arg1.IsWhole) (arg2 : Memref sig .tc .vmem S4x256x32 .f32) (harg2 : arg2.IsWhole) (arg3 : Memref sig .tc .vmem S32x4 .f32) (harg3 : arg3.IsWhole) (arg4 : Memref sig .tc .vmem S32x4 .f32) (harg4 : arg4.IsWhole) (arg5 : Memref sig .tc .vmem S1024x1024 .f32) (harg5 : arg5.IsWhole) (arg6 : Memref sig .tc .vmem S128x1 .f32) (harg6 : arg6.IsWhole) (arg7 : Memref sig .tc .vmem S1x2 .f32) (harg7 : arg7.IsWhole) (arg8 : Memref sig .tc .vmem S1024x1 .f32) (harg8 : arg8.IsWhole) (arg9 : Memref sig .tc .vmem S1024x512 .f32) (harg9 : arg9.IsWhole) (arg10 : Memref sig .tc .vmem S1024x4 .f32) (harg10 : arg10.IsWhole) (arg11 : Memref sig .tc .vmem S4x1024 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1x1024 .f32) (harg14 : arg14.IsWhole) (arg15 : Memref sig .tc .vmem S1024x128 .f32) (harg15 : arg15.IsWhole) (hc0 : ¬cond0_0 i) (hc1 : cond0_1 i) (hc2 : ¬cond0_2 i) (hc3 : cond0_3 i)
    (x0 : Vec F S1024x256 .f32) (x1 : Vec F S4x256x32 .f32) (x2 x3 : Vec F S32x4 .f32) (x4 : Vec F S1024x1024 .f32) (x5 : Vec F S128x1 .f32) (x6 : Vec F S1x2 .f32) (xs3 : Vec F S1024x128 .f32) (xs15 : Vec F S1024x128 .f32) :
    { L7 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ (∃ d, owns (c : Thread nD τ) arg13 fullShare d) ∗ (∃ d, owns (c : Thread nD τ) arg14 fullShare d) ∗ owns (c : Thread nD τ) arg15 fullShare xs15
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)
                ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__gat_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__gat_body_eq_skeleton]; unfold cc0__gat_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%fs3, %hfs3, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg12.eq_unread hfs3; obtain rfl := harg15.eq_unread hfs6
    sl_exec (disch := first | exact hc0 | exact hc1 | exact hc2 | exact hc3)
    sl_step
    iapply Hk
    iframe
    iexists _; iexact H7

end Cert.Kernel.Gen

end
-- ==== Proof.BFrame.lean ====
import proofs.«135979_g12610023981851_fold_wed_c4_432_5_alg».proof.Proof.BRunA
import proofs.«135979_g12610023981851_fold_wed_c4_432_5_alg».proof.Proof.BRunB

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def rdats (c : Dev nD) : Pipeline.RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

-- Take `d := y`.
local instance frame_some {α : Sort _} (Q : α → sProp 𝕄) (y : α) : Frame false (Q y) iprop(∃ d, Q d) iprop(emp) where
  frame := by iintro ⟨H, -⟩; iexists y; iexact H

-- Take `X := y`: then `p → X = y` holds by reflexivity.
local instance frame_kept {α : Sort _} (p : Prop) (y : α) (Q : α → sProp 𝕄) (R G : sProp 𝕄) [h : Frame false R (Q y) G] :
    Frame false R iprop(∃ X, ⌜p → X = y⌝ ∗ Q X) G where
  frame := by
    iintro H; iexists y; isplitr; · ipureintro; exact fun _ => rfl
    iapply h.frame; iexact H

theorem body_obligation (c : Dev nD) : (rdats (F := F) m c).BodyObligation (defs₀ (F := F)) Variants.none () Set.univ := fun t Y _ => by
  rw [bigSep_W0, bigSep_W0]
  simp only [rdats, PhiA0_eq]
  rcases fin_N0 t with rfl | rfl
  · iintro ⟨⟨⟨⟨%d9, HS0⟩, HS1, HS2, HS3, HS4, HS5, HS6⟩, Hg⟩, Ho, H0, H1, H2, H3, H4, H5, H6, H7⟩
    iapply ((kernelRun0_A c _ _ _ _ _ _ _ _ _ _ _ _ _ _ _ _ _ _ _ _ _ _ _ _ _ _ _ _ _ _ _ ((hcond0_0 t0_0).mpr rfl) (mt (hcond0_1 t0_0).mp (by decide)) ((hcond0_2 t0_0).mpr rfl) (mt (hcond0_3 t0_0).mp (by decide)) (Y 0) (Y 1) (Y 2) (Y 3) (Y 4) (Y 5) (Y 6) d9).2 (Y 7) Set.univ _)
    iframe
    iintro ⟨H0, H1, H2, H3, H4, H5, H6, H7, HS0, HS1, HS2, ⟨%e3, HS3⟩, HS4, HS5, HS6⟩
    ihave HS3 := owns_intro _ _ _ _ $$ HS3
    iframe
    iexact Ho
  · iintro ⟨⟨⟨HS0, HS1, HS2, ⟨%d12, HS3⟩, HS4, HS5, ⟨%d15, HS6⟩⟩, Hg⟩, Ho, H0, H1, H2, H3, H4, H5, H6, H7⟩
    iapply ((kernelRun0_B c _ _ _ _ _ _ _ _ _ _ _ _ _ _ _ _ _ _ _ _ _ _ _ _ _ _ _ _ _ _ _ (mt (hcond0_0 t0_1).mp (by decide)) ((hcond0_1 t0_1).mpr rfl) (mt (hcond0_2 t0_1).mp (by decide)) ((hcond0_3 t0_1).mpr rfl) (Y 0) (Y 1) (Y 2) (Y 3) (Y 4) (Y 5) (Y 6) d12 d15).2 Set.univ _)
    iframe
    iintro ⟨H0, H1, H2, H3, H4, H5, H6, ⟨%e7, H7⟩, HS0, HS1, HS2, HS3, HS4, HS5, HS6⟩
    ihave H7 := owns_intro _ _ _ _ $$ H7
    iframe
    isplitl [Ho]; · iexact Ho
    iexists _; isplitr; swap; · iexact H7
    ipureintro; exact fun h => absurd h (by decide)

set_option backward.isDefEq.respectTransparency.types false in
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

theorem arr_in (c : Dev nD) (w : Fin cfg0.W) (hw : (cfg0.win w).isOut = false) (G : Buf (Elt F) ((cfg0.win w).arr.view.loc (c.tc : Thread nD τ)))
    (h : (rdats m c).ArrAt w cfg0.N G) : G = V m c (Pipeline.arrRef spec0 w) :=
  Eq.mp (congrFun ((rdats m c).ArrAt_in w hw cfg0.N) G) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arr_in m c 0 rfl _ ((h c).1 0)).trans (V_main_arg0 m c),
      (arr_in m c 4 rfl _ ((h c).1 4)).trans (V_main_arg1 m c),
      (arr_in m c 1 rfl _ ((h c).1 1)).trans (V_main_arg2 m c),
      ((h c).2 main_arg3 (Pipeline.mem_restRefs_of main_arg3 (by decide) (by decide))).trans (V_main_arg3 m c),
      (arr_in m c 5 rfl _ ((h c).1 5)).trans (V_main_arg4 m c),
      (arr_in m c 6 rfl _ ((h c).1 6)).trans (V_main_arg5 m c)⟩) (run_main m ρ)

end Cert.Kernel.Gen

end
-- ==== Proof.Spec.lean ====
import Idealize.ShloMosaic.PureOps.Ideal
import Idealize.ShloMosaic.Lib.ValueIdx

noncomputable section

namespace Cert.Spec

open Idealize.ShloMosaic

-- the negative-side slope of the leaky rectifier, as the programs spell it
def slope : EReal := Ideal.ofBits .f32 0x3E4CCCCD#32

section Enum
variable (M : ℕ) (msk : ℕ → Prop) [DecidablePred msk]

-- how many positions `≤ p` the mask holds
def cnt (p : ℕ) : ℕ := ((Finset.range (p + 1)).filter msk).card

def nnz : ℕ := ((Finset.range M).filter msk).card

-- the position of the `k`-th masked entry: the positions whose running count is still `≤ k`, counted
def flat (k : ℕ) : ℕ := ((Finset.range M).filter fun p => cnt msk p ≤ k).card
end Enum

-- flat position `p` of the adjacency matrix, row-major, holds a nonzero entry
def nz (adj : Fin 1024 → Fin 1024 → EReal) (p : ℕ) : Prop :=
  ∃ h : p < 1048576, adj ⟨p / 1024, by omega⟩ ⟨p % 1024, Nat.mod_lt _ (by decide)⟩ ≠ 0

instance (adj : Fin 1024 → Fin 1024 → EReal) : DecidablePred (nz adj) := fun _ => Classical.propDecidable _

-- row and column of the `e`-th edge; past the last edge both are the out-of-range node 1024
def srcN (adj : Fin 1024 → Fin 1024 → EReal) (e : ℕ) : ℕ :=
  if e < nnz 1048576 (nz adj) then flat 1048576 (nz adj) e / 1024 else 1024

def dstN (adj : Fin 1024 → Fin 1024 → EReal) (e : ℕ) : ℕ :=
  if e < nnz 1048576 (nz adj) then flat 1048576 (nz adj) e % 1024 else 1024

def cl (n : ℕ) : Fin 1024 := ⟨min n 1023, by omega⟩

def eluK (v : EReal) : EReal := if 0 < v then v else Ideal.exp (min v 0) - 1

def eluR (v : EReal) : EReal := if 0 < v then v else 1 * (Ideal.exp (if 0 < v then 0 else v) - 1)

-- an edge's weight in the dense form: `min z (slope·z)` of the NEGATED score `z`, times the adjacency entry
def weightK (s d a : EReal) : EReal := Ideal.exp (min (s + d) (slope * (s + d))) * a

-- and in the edge-list form: `exp` of minus the leaky rectifier of the score
def weightR (z : EReal) : EReal := Ideal.exp (-(if 0 ≤ z then z else slope * z))

section Head
variable (x : Fin 1024 → Fin 256 → EReal) (adj : Fin 1024 → Fin 1024 → EReal)
  (W : Fin 256 → Fin 32 → EReal) (a : Fin 64 → EReal)

def proj1 (i : Fin 1024) (t : Fin 32) : EReal := ∑ f : Fin 256, x i f * W f t

def srcK1 (i : Fin 1024) : EReal := ∑ t : Fin 32, proj1 x W i t * -(a (Fin.castAdd 32 t))

def dstK1 (j : Fin 1024) : EReal := ∑ t : Fin 32, -(a (Fin.natAdd 32 t)) * proj1 x W j t
def numK1 (i : Fin 1024) (t : Fin 32) : EReal :=
  ∑ j : Fin 1024, weightK (srcK1 x W a i) (dstK1 x W a j) (adj i j) * proj1 x W j t
def denK1 (i : Fin 1024) : EReal :=
  ∑ j : Fin 1024, weightK (srcK1 x W a i) (dstK1 x W a j) (adj i j)

-- one head, dense: every column `j` weighted by the adjacency entry, then the quotient and `elu`
def hidK1 (i : Fin 1024) (t : Fin 32) : EReal := eluK (Ideal.div (numK1 x adj W a i t) (denK1 x adj W a i))

def scoreR1 (e : ℕ) : EReal :=
  ∑ u : Fin 64, a u * (if h : u.val < 32 then proj1 x W (cl (srcN adj e)) ⟨u.val, h⟩
                        else proj1 x W (cl (dstN adj e)) ⟨u.val - 32, by omega⟩)
def denR1 (i : Fin 1024) : EReal :=
  0 + ∑ e ∈ (Finset.range 1048576).filter (fun e => srcN adj e = i.val), weightR (scoreR1 x adj W a e)
def numR1 (i : Fin 1024) (t : Fin 32) : EReal :=
  0 + ∑ e ∈ (Finset.range 1048576).filter (fun e => srcN adj e = i.val),
        weightR (scoreR1 x adj W a e) * proj1 x W (cl (dstN adj e)) t
-- one head, edge list: the sums run over the edges whose row is `i`
def hidR1 (i : Fin 1024) (t : Fin 32) : EReal := eluR (Ideal.div (numR1 x adj W a i t) (denR1 x adj W a i))

end Head

section Net
variable (x : Fin 1024 → Fin 256 → EReal) (adj : Fin 1024 → Fin 1024 → EReal)
  (Ws : Fin 4 → Fin 256 → Fin 32 → EReal) (att : Fin 4 → Fin 64 → EReal)
  (Wo : Fin 128 → EReal) (ao : Fin 2 → EReal)

abbrev proj (k : Fin 4) : Fin 1024 → Fin 32 → EReal := proj1 x (Ws k)
abbrev hidK (k : Fin 4) : Fin 1024 → Fin 32 → EReal := hidK1 x adj (Ws k) (att k)
abbrev hidR (k : Fin 4) : Fin 1024 → Fin 32 → EReal := hidR1 x adj (Ws k) (att k)

def gK (H : Fin 1024 → Fin 128 → EReal) (i : Fin 1024) : EReal := ∑ u : Fin 128, H i u * Wo u

def outK (H : Fin 1024 → Fin 128 → EReal) (i : Fin 1024) : EReal :=
  Ideal.logistic (eluK (Ideal.div
    (∑ j : Fin 1024, weightK (gK Wo H i * -(ao 0)) (gK Wo H j * -(ao 1)) (adj i j) * gK Wo H j)
    (∑ j : Fin 1024, weightK (gK Wo H i * -(ao 0)) (gK Wo H j * -(ao 1)) (adj i j))))

def hidAllK (i : Fin 1024) (u : Fin 128) : EReal :=
  hidK x adj Ws att ⟨u.val / 32, by omega⟩ i ⟨u.val % 32, Nat.mod_lt _ (by decide)⟩

-- the whole network read at node `i`, dense form
def netK (i : Fin 1024) : EReal := outK adj Wo ao (hidAllK x adj Ws att) i

def score2R (H : Fin 1024 → Fin 128 → EReal) (e : ℕ) : EReal :=
  ∑ u : Fin 2, ao u * (if u.val < 1 then gK Wo H (cl (srcN adj e)) else gK Wo H (cl (dstN adj e)))
def outR (H : Fin 1024 → Fin 128 → EReal) (i : Fin 1024) : EReal :=
  Ideal.logistic (eluR (Ideal.div
    (0 + ∑ e ∈ (Finset.range 1048576).filter (fun e => srcN adj e = i.val),
        weightR (score2R adj Wo ao H e) * gK Wo H (cl (dstN adj e)))
    (0 + ∑ e ∈ (Finset.range 1048576).filter (fun e => srcN adj e = i.val), weightR (score2R adj Wo ao H e))))

def hidAllR (i : Fin 1024) (u : Fin 128) : EReal :=
  hidR x adj Ws att ⟨u.val / 32, by omega⟩ i ⟨u.val % 32, Nat.mod_lt _ (by decide)⟩

-- the whole network read at node `i`, edge-list form
def netR (i : Fin 1024) : EReal := outR adj Wo ao (hidAllR x adj Ws att) i

end Net

def cat4 (h0 h1 h2 h3 : Fin 1024 → Fin 32 → EReal) (i : Fin 1024) (u : Fin 128) : EReal :=
  (![h0, h1, h2, h3] : Fin 4 → Fin 1024 → Fin 32 → EReal) ⟨u.val / 32, by omega⟩ i ⟨u.val % 32, Nat.mod_lt _ (by decide)⟩

def Real2 {A B : Type} (f : A → B → EReal) : Prop := ∀ a b, ∃ r : ℝ, f a b = (r : EReal)
def Real1 {A : Type} (f : A → EReal) : Prop := ∀ a, ∃ r : ℝ, f a = (r : EReal)

-- every adjacency entry is 0 or 1: where the product with the entry is the mask
def Mask01 (adj : Fin 1024 → Fin 1024 → EReal) : Prop := ∀ i j, adj i j = 0 ∨ adj i j = 1

end Cert.Spec

end
-- ==== Proof.KValRun.lean ====
import proofs.«135979_g12610023981851_fold_wed_c4_432_5_alg».proof.Proof.KRunA
import proofs.«135979_g12610023981851_fold_wed_c4_432_5_alg».proof.Proof.KRunB
import proofs.«135979_g12610023981851_fold_wed_c4_432_5_alg».proof.Proof.Spec
import Idealize.ShloMosaic.Lib.Pipeline.Value
import Idealize.ShloMosaic.Lib.ValueIdx

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Value

variable (m : (ℓ : Loc nD τ sig) → Buf (Elt Ideal) ℓ) (ρ : Dev nD → PrngReg)

abbrev inX (c : Dev nD) : Fin 1024 → Fin 256 → EReal := fun i f => V m c main_arg0 (ix2 i f)
abbrev inADJ (c : Dev nD) : Fin 1024 → Fin 1024 → EReal := fun i j => V m c main_arg1 (ix2 i j)
abbrev inWS (c : Dev nD) : Fin 4 → Fin 256 → Fin 32 → EReal := fun k f t => V m c main_arg2 (ix3 k f t)
abbrev inATT (c : Dev nD) : Fin 4 → Fin 64 → EReal := fun k u => V m c main_arg3 (ix3 k 0 u)
abbrev inWO (c : Dev nD) : Fin 128 → EReal := fun u => V m c main_arg4 (ix2 u 0)
abbrev inAO (c : Dev nD) : Fin 2 → EReal := fun u => V m c main_arg5 (ix2 0 u)

def hl2Arr (c : Dev nD) : Vec Ideal S1024x128 .f32 := fun y =>
  Spec.hidAllK (inX m c) (inADJ m c) (inWS m c) (inATT m c) (y 0) (y 1)

def outArr (c : Dev nD) : Vec Ideal S1024x1 .f32 := fun y =>
  Spec.netK (inX m c) (inADJ m c) (inWS m c) (inATT m c) (inWO m c) (inAO m c) (y 0)

def ReadsHidden : Prop :=
  ∀ (c : Dev nD) (hc0 : cond0_0 (grid0.coords t0_0)) (hc1 : ¬cond0_1 (grid0.coords t0_0)) (hc2 : cond0_2 (grid0.coords t0_0)) (hc3 : ¬cond0_3 (grid0.coords t0_0))
    (xs9 : Vec Ideal S1024x512 .f32) (v : View sig .tc .vmem S1024x128 .f32) (f : v.ty.Contents (Elt Ideal)),
    v.read (Elt Ideal) (v.writes (Elt Ideal) f (kernelRun0_A (F := Ideal) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t0_0) (iblk m c 1 t0_0) (iblk m c 2 t0_0) (iblk m c 3 t0_0) (iblk m c 4 t0_0) (iblk m c 5 t0_0) (iblk m c 6 t0_0) xs9).1) = hl2Arr m c

def ReadsResult : Prop :=
  ∀ (c : Dev nD) (hc0 : ¬cond0_0 (grid0.coords t0_1)) (hc1 : cond0_1 (grid0.coords t0_1)) (hc2 : ¬cond0_2 (grid0.coords t0_1)) (hc3 : cond0_3 (grid0.coords t0_1))
    (xs15 : Vec Ideal S1024x128 .f32) (v : View sig .tc .vmem S1024x1 .f32) (f : v.ty.Contents (Elt Ideal)),
    v.read (Elt Ideal) (v.writes (Elt Ideal) f (kernelRun0_B (F := Ideal) c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t0_1) (iblk m c 1 t0_1) (iblk m c 2 t0_1) (iblk m c 3 t0_1) (iblk m c 4 t0_1) (iblk m c 5 t0_1) (iblk m c 6 t0_1) (hl2Arr m c) xs15).1) = outArr m c

end Value

namespace Val

variable (m : (ℓ : Loc nD τ sig) → Buf (Elt Ideal) ℓ) (ρ : Dev nD → PrngReg)

local notation "𝕀" => MT nD τ sig Unit (Elt Ideal) ℕ (UR sig nD τ) ℕ

-- The invariant after the first point: the fourth scratch array holds the hidden features, the others anything.
def PhiH (c : Dev nD) : sProp 𝕀 :=
  iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (hl2Arr m c) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outArr m c
  Φ t := match t.val with
    | 0 => Pipeline.ΦA spec0 c
    | _ + 1 => PhiH m c
  q _ := fullShare
  owed _ := 0

theorem sound_body (hH : ReadsHidden m) (hR : ReadsResult m) (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d)))
      ⊢ wp frame (wpE (defs₀ (F := Ideal)) Variants.none c none) Set.univ (bodyAt0 t) (fun _ =>
        iprop(PhiH m c ∗ (dats m 0 c).owesAt () t.castSucc
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ owns (c : Thread nD τ) (ms0_6 t) fullShare (iblk m c 6 t)
        ∗ (dats m 0 c).leavesExact 7 t)) := by
  simp only [before0_0_of m (dats m 0 c) rfl fun _ => rfl, before0_1_of m (dats m 0 c) rfl fun _ => rfl, before0_2_of m (dats m 0 c) rfl fun _ => rfl, before0_3_of m (dats m 0 c) rfl fun _ => rfl, before0_4_of m (dats m 0 c) rfl fun _ => rfl, before0_5_of m (dats m 0 c) rfl fun _ => rfl, before0_6_of m (dats m 0 c) rfl fun _ => rfl]
  unfold bodyAt0 Dat.leavesExact
  rcases fin_N0 t with rfl | rfl
  · have h0 := (hcond0_0 t0_0).mpr rfl
    have h1 := mt (hcond0_1 t0_0).mp (by decide)
    have h2 := (hcond0_2 t0_0).mpr rfl
    have h3 := mt (hcond0_3 t0_0).mp (by decide)
    rw [idleAt0_7_A t0_0 h0 h1 h2 h3, noFlush0_7_A t0_0 h0 h1 h2 h3, show (dats m 0 c).Φ t0_0.castSucc = Pipeline.ΦA spec0 c from rfl, PhiA0_eq]
    unfold PhiH
    dsimp only
    iintro ⟨⟨⟨⟨%d9, HS0⟩, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A (F := Ideal) c (grid0.coords t0_0) _ _ _ _ _ _ _ _ _ _ _ _ _ _ _ _ _ _ _ _ _ _ _ _ _ _ _ _ _ _ h0 h1 h2 h3 (iblk m c 0 t0_0) (iblk m c 1 t0_0) (iblk m c 2 t0_0) (iblk m c 3 t0_0) (iblk m c 4 t0_0) (iblk m c 5 t0_0) (iblk m c 6 t0_0) d9).2 _ Set.univ _)
    iframe
    iintro ⟨H0, H1, H2, H3, H4, H5, H6, H7, HS0, HS1, HS2, ⟨%f, HS3⟩, HS4, HS5, HS6⟩
    iframe
    isplitl [HS3]
    · unfold owns; iexists _; isplitr
      swap; · iexact HS3
      ipureintro; exact hH c h0 h1 h2 h3 d9 _ f
    iexists _; iexact H7
  · have h0 := mt (hcond0_0 t0_1).mp (by decide)
    have h1 := (hcond0_1 t0_1).mpr rfl
    have h2 := mt (hcond0_2 t0_1).mp (by decide)
    have h3 := (hcond0_3 t0_1).mpr rfl
    rw [liveAt0_7_B t0_1 h0 h1 h2 h3, show (dats m 0 c).Φ t0_1.castSucc = PhiH m c from rfl]
    unfold PhiH
    dsimp only
    iintro ⟨⟨⟨HS0, HS1, HS2, HS3, HS4, HS5, ⟨%d15, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B (F := Ideal) c (grid0.coords t0_1) _ _ _ _ _ _ _ _ _ _ _ _ _ _ _ _ _ _ _ _ _ _ _ _ _ _ _ _ _ _ h0 h1 h2 h3 (iblk m c 0 t0_1) (iblk m c 1 t0_1) (iblk m c 2 t0_1) (iblk m c 3 t0_1) (iblk m c 4 t0_1) (iblk m c 5 t0_1) (iblk m c 6 t0_1) (hl2Arr m c) d15).2 Set.univ _)
    iframe
    isplitl [H7]; · iexists _; iexact H7
    iintro ⟨H0, H1, H2, H3, H4, H5, H6, ⟨%f, H7⟩, HS0, HS1, HS2, HS3, HS4, HS5, HS6⟩
    iframe
    unfold owns; iexists _; isplitr
    swap; · iexact H7
    ipureintro; exact hR c h0 h1 h2 h3 d15 _ f

theorem body_obligation (hH : ReadsHidden m) (hR : ReadsResult m) (c : Dev nD) : BodyObligation (dats m 0 c) (defs₀ (F := Ideal)) Variants.none () Set.univ := fun t => by
  rw [bigSep_W0, bigSep_W0]
  exact sound_body m hH hR c t

theorem hout (c : Dev nD) : (dats m 0 c).Φ (Fin.last cfg0.N) ⊢ Pipeline.ΦA spec0 c := by
  rw [show (dats m 0 c).Φ (Fin.last cfg0.N) = PhiH m c from rfl, PhiA0_eq]
  unfold PhiH
  iintro ⟨⟨HS0, HS1, HS2, HS3, HS4, HS5, HS6⟩, Hg⟩
  iframe
  iexists _; iexact HS3

set_option backward.isDefEq.respectTransparency.types false in
theorem run_main (hH : ReadsHidden m) (hR : ReadsResult m) : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m hH hR c).loose) (hshare := fun c => (dats m 0 c).share_full fun _ => rfl)
    (howed := fun _ _ => rfl) (V := V m)
    (hmain := hmain m Variants.none) (hA := fun _ _ => rfl) (hin := fun _ => .rfl) (hout := hout m)

theorem hz7 : (fun a => win0_7.index t0_1 a * main_v0.ty.shape.size a) = fun _ => 0 := funext fun a => by fin_cases a <;> decide

theorem final7 (c : Dev nD) : (dats m 0 c).arrAt 7 cfg0.N = outArr m c :=
  (dats m 0 c).arrAt_eq_of_cover 7 (outArr m c) (fun t hf => by
    have hN : cfg0.N = 2 := N_0
    obtain rfl : t = t0_1 := Fin.ext (show t.val = 1 by have := (flush0_7 t).mp hf; have := t.isLt; omega)
    exact (Memref.read_access_unit_zero (Elt Ideal) main_v0 hz7 _ (outArr m c)).symm) fun i =>
    ⟨t0_1, (flush0_7 t0_1).mpr rfl, by
      show i ∈ ((View.whole main_v0).slice (win0_7.rect t0_1)).set
      rw [View.set_slice_whole]
      exact View.mem_set_unit_zero hz7 _ i⟩

theorem run_value_of (hH : ReadsHidden m) (hR : ReadsResult m) : θ_run defs (onTc (τ := τ) (main (F := Ideal))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 7).trans (final7 m c),
      ((h c).1 0).trans (((dats m 0 c).arrAt_in 0 rfl _).trans (V_main_arg0 m c)),
      ((h c).1 4).trans (((dats m 0 c).arrAt_in 4 rfl _).trans (V_main_arg1 m c)),
      ((h c).1 1).trans (((dats m 0 c).arrAt_in 1 rfl _).trans (V_main_arg2 m c)),
      ((h c).2 main_arg3 (Pipeline.mem_restRefs_of main_arg3 (by decide) (by decide))).trans (V_main_arg3 m c),
      ((h c).1 5).trans (((dats m 0 c).arrAt_in 5 rfl _).trans (V_main_arg4 m c)),
      ((h c).1 6).trans (((dats m 0 c).arrAt_in 6 rfl _).trans (V_main_arg5 m c))⟩)
    (run_main m ρ hH hR)

end Val

end Cert.KernelIdeal.Gen

end
-- ==== Proof.KValue1.lean ====
import proofs.«135979_g12610023981851_fold_wed_c4_432_5_alg».proof.Proof.Gen.KernelIdeal.Skeleton
import proofs.«135979_g12610023981851_fold_wed_c4_432_5_alg».proof.Proof.Spec
import Idealize.ShloMosaic.Lib.IdealHost
import Idealize.ShloMosaic.Lib.Pipeline.Value

set_option synthInstance.maxSize 4096

noncomputable section

namespace Cert.KernelIdeal.Gen.Layer1

open Idealize.ShloMosaic Idealize.SL.Sem Idealize.ShloMosaic.ValueIdx
open scoped BigOperators

-- A product over one contracted axis, read at an index, is the sum over that axis of the operands' entries.
theorem mm_apply {sl sr so : Shape} (D : DotDims sl sr so) (n : ℕ) (hr : D.contr.rank = 1)
    (hs : D.contr.size ⟨0, by omega⟩ = n) (L : FVec Ideal sl .f32) (R : FVec Ideal sr .f32) (j : so.Idx)
    (l : Fin n → sl.Idx) (r : Fin n → sr.Idx) (hl : ∀ c, D.lhsIdx j ((contrEquiv1 D n hr hs).symm c) = l c)
    (hr' : ∀ c, D.rhsIdx j ((contrEquiv1 D n hr hs).symm c) = r c) :
    matmul D none L R (constant so .f32 0x00000000#32) j = ∑ c, L (l c) * R (r c) := by
  show FloatOps.matmul _ none L R _ j = _
  rw [Ideal.matmul_constant_zero_apply, ← Equiv.sum_comp (contrEquiv1 D n hr hs).symm]
  exact Finset.sum_congr rfl fun c _ => by rw [hl, hr']

-- `elu` written as a choice on `0 < x` between `x` and `exp (min x 0) - 1`.
theorem elu_eq (x : EReal) :
    Scalar.select (Ideal.cmp .ogt x (Ideal.ofBits .f32 0x00000000#32)) x
      (Ideal.exp (min x (Ideal.ofBits .f32 0x00000000#32)) - Ideal.ofBits .f32 0x3F800000#32) = Spec.eluK x := by
  rw [Ideal.ofBits_zero_f32, Ideal.ofBits_one_f32]
  unfold Spec.eluK Scalar.select Ideal.cmp
  by_cases h : (0 : EReal) < x <;> simp [h]

section
variable (A : Vec Ideal S1024x1024 .f32) (f1 : Vec Ideal S1024x1 .f32) (f2 : Vec Ideal S1x1024 .f32)
  (W : FVec Ideal S1024x1024 .f32) (hg : Vec Ideal S1024x128 .f32)

-- The dense weight of a pair: the source score runs along the row, the target score along the column.
theorem wts_apply (i j : Fin 1024) :
    k0_pay31 A f1 f2 (ix2 i j) = Spec.weightK (f1 (ix2 i 0)) (f2 (ix2 0 j)) (A (ix2 i j)) :=
  congrArg₂ (Spec.weightK · · (A (ix2 i j)))
    (broadcastTo_apply f1 _ (ix2 i j) (ix2 i 0) fun | ⟨0, _⟩ => rfl | ⟨1, _⟩ => rfl)
    (broadcastTo_apply f2 _ (ix2 i j) (ix2 0 j) fun | ⟨0, _⟩ => rfl | ⟨1, _⟩ => rfl)

def headFn (W : FVec Ideal S1024x1024 .f32) (hg : FVec Ideal S1024x128 .f32) : FVec Ideal S1024x32 .f32 :=
  k0_pay32 W hg (constant S1024x128 .f32 0x00000000#32)

theorem pay30_eq : k0_pay30 A f1 f2 hg = headFn (k0_pay31 A f1 f2) hg := rfl
theorem pay32_eq : k0_pay32 W hg (constant S1024x128 .f32 0x00000000#32) = headFn W hg := rfl
theorem pay33_eq : k0_pay33 A f1 f2 hg = headFn (k0_pay31 A f1 f2) hg := (shapeCast_self _ _).symm
theorem pay9_eq : k0_pay9 A f1 f2 hg = headFn (k0_pay31 A f1 f2) hg := rfl

-- One head at a node: `elu` of the weighted mean; against the column of ones the product's column 32 is the sum of the weights.
theorem head_apply (hone : ∀ j : Fin 1024, hg (ix2 j (⟨32, by decide⟩ : Fin 128)) = 1) (i : Fin 1024) (t : Fin 32) :
    headFn (k0_pay31 A f1 f2) hg (ix2 i t)
      = Spec.eluK (Ideal.div
          (∑ j : Fin 1024, Spec.weightK (f1 (ix2 i 0)) (f2 (ix2 0 j)) (A (ix2 i j)) * hg (ix2 j (⟨t.val, by omega⟩ : Fin 128)))
          (∑ j : Fin 1024, Spec.weightK (f1 (ix2 i 0)) (f2 (ix2 0 j)) (A (ix2 i j)))) := by
  have mm := fun u => (mm_apply dot_S1024x1024_S1024x128_S1024x128_1_0_0_1_n_n 1024 rfl rfl (k0_pay31 A f1 f2) hg (ix2 i u)
    (fun c => ix2 i c) (fun c => ix2 c u) (fun _ => eq_ix2 _) fun _ => eq_ix2 _).trans
      (Finset.sum_congr rfl fun j _ => congrArg (· * hg (ix2 j u)) (wts_apply A f1 f2 i j))
  rw [← pay33_eq]
  refine (elu_eq _).trans (congrArg Spec.eluK (congr (congrArg Ideal.div ?_) ?_))
  · exact (extractStridedSlice_apply _ _ _ _ _ fun | ⟨0, _⟩ => (Nat.zero_add _).symm | ⟨1, _⟩ => (Nat.zero_add _).symm).trans
      (mm _)
  · exact ((broadcastTo_apply _ _ _ (ix2 i 0) fun | ⟨0, _⟩ => rfl | ⟨1, _⟩ => rfl).trans
      (extractStridedSlice_apply _ _ _ _ _ fun | ⟨0, _⟩ => (Nat.zero_add _).symm | ⟨1, _⟩ => rfl)).trans
      ((mm _).trans (Finset.sum_congr rfl fun j _ => by rw [hone j, mul_one]))

end

section
variable (x : Vec Ideal S1024x256 .f32) (w : Vec Ideal S1x256x32 .f32) (hk v : FVec Ideal S1024x32 .f32)
  (a : Vec Ideal S32x1 .f32)

theorem pay8_eq : k0_pay8 v = v := shapeCast_self _ _

theorem proj_apply (i : Fin 1024) (t : Fin 32) : k0_pay12 x w (ix2 i t) = ∑ f : Fin 256, x (ix2 i f) * w (ix3 0 f t) :=
  (mm_apply dot_S1024x256_S256x32_S1024x32_1_0_0_1_n_n 256 rfl rfl x _ _ _ _ (fun _ => eq_ix2 _) fun _ => eq_ix2 _).trans <|
    Finset.sum_congr rfl fun f _ => congrArg (x (ix2 i f) * ·) <| shapeCast_apply w _ (ix2 f t) (ix3 0 f t) <| by
      rw [Shape.rowMajor_val_three, Shape.rowMajor_val_two]
      exact congrArg (· * 32 + t.val) (Nat.zero_add _)

theorem pay22_eq : k0_pay22 x w = k0_pay12 x w := rfl
theorem pay27_eq : k0_pay27 x w = k0_pay12 x w := rfl
theorem pay13_eq : k0_pay13 x w = k0_pay12 x w := shapeCast_self _ _
theorem pay18_eq : k0_pay18 x w = k0_pay12 x w := shapeCast_self _ _
theorem pay23_eq : k0_pay23 v = v := shapeCast_self _ _
theorem pay28_eq : k0_pay28 x w = k0_pay12 x w := shapeCast_self _ _

-- The attention vector enters negated, as `0 - a`.
theorem zeroSub_apply (y : S32x1.Idx) :
    subf (F := Ideal) (broadcast S32x1 (Scalar.ofBits .f32 0x00000000#32)) (shapeCast S32x1 a shapeCasts_S32x1_S32x1) y = -(a y) := by
  show Ideal.ofBits .f32 0x00000000#32 - shapeCast S32x1 a _ y = _
  rw [shapeCast_self, Ideal.ofBits_zero_f32, zero_sub]

theorem src_apply (i : Fin 1024) (z : Fin 1) : k0_pay1 hk a (ix2 i z) = ∑ t : Fin 32, hk (ix2 i t) * -(a (ix2 t z)) :=
  (congrFun (shapeCast_self _ _) _).trans <|
    (mm_apply dot_S1024x32_S32x1_S1024x1_1_0_0_1_n_n 32 rfl rfl hk _ _ _ _ (fun _ => eq_ix2 _) fun _ => eq_ix2 _).trans <|
      Finset.sum_congr rfl fun t _ => congrArg (hk (ix2 i t) * ·) (zeroSub_apply a _)

theorem dst_apply (z : Fin 1) (j : Fin 1024) : k0_pay2 hk a (ix2 z j) = ∑ t : Fin 32, -(a (ix2 t z)) * hk (ix2 j t) :=
  (congrFun (shapeCast_self _ _) _).trans <|
    (mm_apply dot_S32x1_S1024x32_S1x1024_0_1_1_0_n_n 32 rfl rfl _ hk _ _ _ (fun _ => eq_ix2 _) fun _ => eq_ix2 _).trans <|
      Finset.sum_congr rfl fun t _ => congrArg (· * hk (ix2 j t)) (zeroSub_apply a _)

theorem pay15_eq : k0_pay15 x w a = k0_pay1 (k0_pay12 x w) a := rfl
theorem pay20_eq : k0_pay20 x w a = k0_pay1 (k0_pay12 x w) a := rfl
theorem pay25_eq : k0_pay25 v a = k0_pay1 v a := rfl
theorem pay16_eq : k0_pay16 x w a = k0_pay2 (k0_pay12 x w) a := rfl
theorem pay21_eq : k0_pay21 x w a = k0_pay2 (k0_pay12 x w) a := rfl
theorem pay26_eq : k0_pay26 v a = k0_pay2 v a := rfl

end

section
variable (v : FVec Ideal S1024x1 .f32)

theorem ones_apply (y : S1024x1.Idx) : k0_pay11 (F := Ideal) y = 1 := Ideal.ofBits_one_f32
theorem pay14_eq : k0_pay14 (F := Ideal) = k0_pay11 := shapeCast_self _ _
theorem pay19_eq : k0_pay19 v = v := shapeCast_self _ _
theorem pay24_eq : k0_pay24 v = v := shapeCast_self _ _
theorem pay29_eq : k0_pay29 v = v := shapeCast_self _ _

end

end Cert.KernelIdeal.Gen.Layer1

end
-- ==== Proof.KValue1Read.lean ====
import proofs.«135979_g12610023981851_fold_wed_c4_432_5_alg».proof.Proof.KValue1
import proofs.«135979_g12610023981851_fold_wed_c4_432_5_alg».proof.Proof.KRunA
import Idealize.ShloMosaic.Lib.StableHlo.Run

noncomputable section

namespace Cert.KernelIdeal.Gen.Layer1

open Idealize.ShloMosaic Idealize.SL.Sem Idealize.ShloMosaic.ValueIdx Idealize.ShloMosaic.TcCoe
open Idealize.ShloMosaic.Tactic
open scoped BigOperators

theorem proj_value (x : Vec Ideal S1024x256 .f32) (w : Vec Ideal S1x256x32 .f32)
    (X : Fin 1024 → Fin 256 → EReal) (W : Fin 256 → Fin 32 → EReal)
    (hx : ∀ i f, x (ix2 i f) = X i f) (hw : ∀ f t, w (ix3 0 f t) = W f t) (i : Fin 1024) (t : Fin 32) :
    k0_pay12 x w (ix2 i t) = Spec.proj1 X W i t := by
  rw [proj_apply]; unfold Spec.proj1
  exact Finset.sum_congr rfl fun f _ => by rw [hx, hw]

theorem src_value (hk : FVec Ideal S1024x32 .f32) (a1 : Vec Ideal S32x1 .f32)
    (X : Fin 1024 → Fin 256 → EReal) (W : Fin 256 → Fin 32 → EReal) (a : Fin 64 → EReal)
    (hhk : ∀ i t, hk (ix2 i t) = Spec.proj1 X W i t) (ha : ∀ t : Fin 32, a1 (ix2 t 0) = a (Fin.castAdd 32 t))
    (i : Fin 1024) : k0_pay1 hk a1 (ix2 i 0) = Spec.srcK1 X W a i := by
  rw [src_apply]; unfold Spec.srcK1
  exact Finset.sum_congr rfl fun t _ => by rw [hhk, ha]

theorem dst_value (hk : FVec Ideal S1024x32 .f32) (a2 : Vec Ideal S32x1 .f32)
    (X : Fin 1024 → Fin 256 → EReal) (W : Fin 256 → Fin 32 → EReal) (a : Fin 64 → EReal)
    (hhk : ∀ i t, hk (ix2 i t) = Spec.proj1 X W i t) (ha : ∀ t : Fin 32, a2 (ix2 t 0) = a (Fin.natAdd 32 t))
    (j : Fin 1024) : k0_pay2 hk a2 (ix2 0 j) = Spec.dstK1 X W a j := by
  rw [dst_apply]; unfold Spec.dstK1
  exact Finset.sum_congr rfl fun t _ => by rw [hhk, ha]

theorem head_value (X : Fin 1024 → Fin 256 → EReal) (ADJ : Fin 1024 → Fin 1024 → EReal) (W : Fin 256 → Fin 32 → EReal)
    (a : Fin 64 → EReal) (A : Vec Ideal S1024x1024 .f32) (f1 : Vec Ideal S1024x1 .f32) (f2 : Vec Ideal S1x1024 .f32)
    (hg : Vec Ideal S1024x128 .f32) (hA : ∀ i j, A (ix2 i j) = ADJ i j)
    (hf1 : ∀ i, f1 (ix2 i 0) = Spec.srcK1 X W a i) (hf2 : ∀ j, f2 (ix2 0 j) = Spec.dstK1 X W a j)
    (hhg : ∀ (j : Fin 1024) (t : Fin 32), hg (ix2 j (⟨t.val, by omega⟩ : Fin 128)) = Spec.proj1 X W j t)
    (hone : ∀ j : Fin 1024, hg (ix2 j (⟨32, by decide⟩ : Fin 128)) = 1) (i : Fin 1024) (t : Fin 32) :
    headFn (k0_pay31 A f1 f2) hg (ix2 i t) = Spec.hidK1 X ADJ W a i t := by
  rw [head_apply A f1 f2 hg hone i t]
  unfold Spec.hidK1 Spec.numK1 Spec.denK1
  simp only [hA, hf1, hf2, hhg]

variable (X : Fin 1024 → Fin 256 → EReal) (ADJ : Fin 1024 → Fin 1024 → EReal)
  (WS : Fin 4 → Fin 256 → Fin 32 → EReal) (ATT : Fin 4 → Fin 64 → EReal)

theorem hidAllK_at (k : Fin 4) (i : Fin 1024) (t : Fin 32)
    (i' : Fin 1024) (u' : Fin 128) (hi : i'.val = i.val) (hu : u'.val = 32 * k.val + t.val) :
    Spec.hidAllK X ADJ WS ATT i' u' = Spec.hidK1 X ADJ (WS k) (ATT k) i t := by
  obtain rfl : i' = i := Fin.ext hi
  unfold Spec.hidAllK
  have hk := k.isLt
  have ht := t.isLt
  have e1 : ∀ h, (⟨u'.val / 32, h⟩ : Fin 4) = k := fun h => Fin.ext (by show u'.val / 32 = k.val; omega)
  have e2 : ∀ h, (⟨u'.val % 32, h⟩ : Fin 32) = t := fun h => Fin.ext (by show u'.val % 32 = t.val; omega)
  rw [e1, e2]

theorem read_four_agree (k : Fin 4) (off : Fin 2 → Nat)
    (hoff : off = ![0, 32 * k.val]) (inb : ∀ a, off a + S1024x32.size a ≤ S1024x128.size a) (P : S1024x32.Idx → EReal)
    (hP : ∀ i t, P (ix2 i t) = Spec.hidK1 X ADJ (WS k) (ATT k) i t)
    (x : (Rect.unit (s := S1024x128) off S1024x32.size inb).shape.Idx) :
    P x = Spec.hidAllK X ADJ WS ATT ((Rect.unit (s := S1024x128) off S1024x32.size inb).emb x 0)
      ((Rect.unit (s := S1024x128) off S1024x32.size inb).emb x 1) := by
  subst hoff
  obtain ⟨i, t, rfl⟩ : ∃ (i : Fin 1024) (t : Fin 32), x = ix2 i t := ⟨x 0, x 1, eq_ix2 x⟩
  exact (hP i t).trans (hidAllK_at X ADJ WS ATT k i t _ _ (by show 0 + 1 * i.val = i.val; omega)
    (by show 32 * k.val + 1 * t.val = 32 * k.val + t.val; omega)).symm

theorem read_four_mem (k : Fin 4) (off : Fin 2 → Nat) (hoff : off = ![0, 32 * k.val])
    (inb : ∀ a, off a + S1024x32.size a ≤ S1024x128.size a) (y : S1024x128.Idx) (h : (y 1).val / 32 = k.val) :
    y ∈ (Rect.unit (s := S1024x128) off S1024x32.size inb).set := by
  subst hoff
  have h0 := idx2_lt0 y
  refine Rect.mem_set_unit.mpr fun a => ?_
  match a with
  | ⟨0, _⟩ => exact ⟨Nat.zero_le _, by show (y 0).val < 0 + 1024; omega⟩
  | ⟨1, _⟩ => exact ⟨by show 32 * k.val ≤ (y 1).val; omega, by show (y 1).val < 32 * k.val + 32; omega⟩

def G9 : S1024x512.Idx → EReal := fun y =>
  if h : (y 1).val % 128 < 32 then
    Spec.proj1 X (WS ⟨(y 1).val / 128, by have := idx2_lt1 y; omega⟩) (y 0) ⟨(y 1).val % 128, h⟩
  else 1
def G10 : S1024x4.Idx → EReal := fun y => Spec.srcK1 X (WS (y 1)) (ATT (y 1)) (y 0)
def G11 : S4x1024.Idx → EReal := fun y => Spec.dstK1 X (WS (y 0)) (ATT (y 0)) (y 1)

theorem G9_proj_at (k : Fin 4) (i : Fin 1024) (t : Fin 32) (y : S1024x512.Idx) (h0 : (y 0).val = i.val)
    (h1 : (y 1).val = 128 * k.val + t.val) : G9 X WS y = Spec.proj1 X (WS k) i t := by
  have hk := k.isLt
  have ht := t.isLt
  have hlt : (y 1).val % 128 < 32 := by omega
  have e0 : y 0 = i := Fin.ext h0
  have e1 : ∀ h, (⟨(y 1).val / 128, h⟩ : Fin 4) = k := fun h => Fin.ext (by show (y 1).val / 128 = k.val; omega)
  have e2 : ∀ h, (⟨(y 1).val % 128, h⟩ : Fin 32) = t := fun h => Fin.ext (by show (y 1).val % 128 = t.val; omega)
  unfold G9
  rw [dif_pos hlt, e0, e1, e2]

theorem G9_one_at (y : S1024x512.Idx) (h1 : (y 1).val % 128 = 32) : G9 X WS y = 1 := by
  unfold G9
  rw [dif_neg (by omega)]

theorem G10_at (k : Fin 4) (i : Fin 1024) (y : S1024x4.Idx) (h0 : (y 0).val = i.val) (h1 : (y 1).val = k.val) :
    G10 X WS ATT y = Spec.srcK1 X (WS k) (ATT k) i := by
  have e0 : y 0 = i := Fin.ext h0
  have e1 : y 1 = k := Fin.ext h1
  show Spec.srcK1 X (WS (y 1)) (ATT (y 1)) (y 0) = _
  rw [e0, e1]

theorem G11_at (k : Fin 4) (j : Fin 1024) (y : S4x1024.Idx) (h0 : (y 0).val = k.val) (h1 : (y 1).val = j.val) :
    G11 X WS ATT y = Spec.dstK1 X (WS k) (ATT k) j := by
  have e0 : y 0 = k := Fin.ext h0
  have e1 : y 1 = j := Fin.ext h1
  show Spec.dstK1 X (WS (y 0)) (ATT (y 0)) (y 1) = _
  rw [e0, e1]

theorem agree9_proj (k : Fin 4) (off : Fin 2 → Nat) (hoff : off = ![0, 128 * k.val])
    (inb : ∀ a, off a + S1024x32.size a ≤ S1024x512.size a) (P : S1024x32.Idx → EReal)
    (hP : ∀ i t, P (ix2 i t) = Spec.proj1 X (WS k) i t)
    (x : (Rect.unit (s := S1024x512) off S1024x32.size inb).shape.Idx) :
    P x = G9 X WS ((Rect.unit (s := S1024x512) off S1024x32.size inb).emb x) := by
  subst hoff
  obtain ⟨i, t, rfl⟩ : ∃ (i : Fin 1024) (t : Fin 32), x = ix2 i t := ⟨x 0, x 1, eq_ix2 x⟩
  exact (hP i t).trans (G9_proj_at X WS k i t _ (by show 0 + 1 * i.val = i.val; omega)
    (by show 128 * k.val + 1 * t.val = 128 * k.val + t.val; omega)).symm

theorem agree9_one (k : Fin 4) (off : Fin 2 → Nat) (hoff : off = ![0, 128 * k.val + 32])
    (inb : ∀ a, off a + S1024x1.size a ≤ S1024x512.size a) (P : S1024x1.Idx → EReal)
    (hP : ∀ y, P y = 1)
    (x : (Rect.unit (s := S1024x512) off S1024x1.size inb).shape.Idx) :
    P x = G9 X WS ((Rect.unit (s := S1024x512) off S1024x1.size inb).emb x) := by
  subst hoff
  obtain ⟨i, z, rfl⟩ : ∃ (i : Fin 1024) (z : Fin 1), x = ix2 i z := ⟨x 0, x 1, eq_ix2 x⟩
  have hz : z.val = 0 := by have := z.isLt; omega
  exact (hP _).trans (G9_one_at X WS _ (by
    show (128 * k.val + 32 + 1 * z.val) % 128 = 32
    omega)).symm

theorem agree10 (k : Fin 4) (off : Fin 2 → Nat) (hoff : off = ![0, k.val])
    (inb : ∀ a, off a + S1024x1.size a ≤ S1024x4.size a) (P : S1024x1.Idx → EReal)
    (hP : ∀ i, P (ix2 i 0) = Spec.srcK1 X (WS k) (ATT k) i)
    (x : (Rect.unit (s := S1024x4) off S1024x1.size inb).shape.Idx) :
    P x = G10 X WS ATT ((Rect.unit (s := S1024x4) off S1024x1.size inb).emb x) := by
  subst hoff
  obtain ⟨i, z, rfl⟩ : ∃ (i : Fin 1024) (z : Fin 1), x = ix2 i z := ⟨x 0, x 1, eq_ix2 x⟩
  obtain rfl : z = 0 := Subsingleton.elim _ _
  exact (hP i).trans (G10_at X WS ATT k i _ (by show 0 + 1 * i.val = i.val; omega)
    (by show k.val + 1 * 0 = k.val; omega)).symm

theorem agree11 (k : Fin 4) (off : Fin 2 → Nat) (hoff : off = ![k.val, 0])
    (inb : ∀ a, off a + S1x1024.size a ≤ S4x1024.size a) (P : S1x1024.Idx → EReal)
    (hP : ∀ j, P (ix2 0 j) = Spec.dstK1 X (WS k) (ATT k) j)
    (x : (Rect.unit (s := S4x1024) off S1x1024.size inb).shape.Idx) :
    P x = G11 X WS ATT ((Rect.unit (s := S4x1024) off S1x1024.size inb).emb x) := by
  subst hoff
  obtain ⟨z, j, rfl⟩ : ∃ (z : Fin 1) (j : Fin 1024), x = ix2 z j := ⟨x 0, x 1, eq_ix2 x⟩
  obtain rfl : z = 0 := Subsingleton.elim _ _
  exact (hP j).trans (G11_at X WS ATT k j _ (by show k.val + 1 * 0 = k.val; omega)
    (by show 0 + 1 * j.val = j.val; omega)).symm

theorem slot_proj (v9 : View sig .tc .vmem S1024x512 .f32) (f9 : v9.ty.Contents (Elt Ideal))
    {L9 : List (View.Piece (Elt Ideal) S1024x512 .f32)}
    (hL9 : ∀ p ∈ L9, ∀ x : p.1.shape.Idx, p.2 x = G9 X WS (p.1.emb x))
    (k : Fin 4) {o : Fin 2 → Nat} (ho : o = ![0, 128 * k.val]) {inb : ∀ a, o a + S1024x128.size a ≤ S1024x512.size a}
    {o' : Fin 2 → Nat} {inb' : ∀ a, o' a + S1024x32.size a ≤ S1024x512.size a} {P : S1024x32.Idx → EReal}
    (hmem : (⟨Rect.unit (s := S1024x512) o' S1024x32.size inb', P⟩ : View.Piece (Elt Ideal) S1024x512 .f32) ∈ L9)
    (ho' : o' = ![0, 128 * k.val]) (j : Fin 1024) (t : Fin 32) :
    v9.readAt (Elt Ideal) (Rect.unit (s := S1024x512) o S1024x128.size inb).toLoadRect (v9.writes (Elt Ideal) f9 L9)
        (ix2 j (⟨t.val, by omega⟩ : Fin 128)) = Spec.proj1 X (WS k) j t := by
  subst ho ho'
  have hj := j.isLt
  have ht := t.isLt
  refine (View.read_writes_apply_of_pieces v9 f9 (G9 X WS) L9 hL9 _ ⟨_, hmem, (Rect.mem_set_unit (inb := inb')).mpr fun a => ?_⟩).trans
    (G9_proj_at X WS k j t _ (by show 0 + 1 * j.val = j.val; omega)
      (by show 128 * k.val + 1 * t.val = 128 * k.val + t.val; omega))
  match a with
  | ⟨0, _⟩ => exact ⟨Nat.zero_le _, by show 0 + 1 * j.val < 0 + 1024; omega⟩
  | ⟨1, _⟩ => exact ⟨by show 128 * k.val ≤ 128 * k.val + 1 * t.val; omega,
      by show 128 * k.val + 1 * t.val < 128 * k.val + 32; omega⟩

theorem slot_one (v9 : View sig .tc .vmem S1024x512 .f32) (f9 : v9.ty.Contents (Elt Ideal))
    {L9 : List (View.Piece (Elt Ideal) S1024x512 .f32)}
    (hL9 : ∀ p ∈ L9, ∀ x : p.1.shape.Idx, p.2 x = G9 X WS (p.1.emb x))
    (k : Fin 4) {o : Fin 2 → Nat} (ho : o = ![0, 128 * k.val]) {inb : ∀ a, o a + S1024x128.size a ≤ S1024x512.size a}
    {o' : Fin 2 → Nat} {inb' : ∀ a, o' a + S1024x1.size a ≤ S1024x512.size a} {P : S1024x1.Idx → EReal}
    (hmem : (⟨Rect.unit (s := S1024x512) o' S1024x1.size inb', P⟩ : View.Piece (Elt Ideal) S1024x512 .f32) ∈ L9)
    (ho' : o' = ![0, 128 * k.val + 32]) (j : Fin 1024) :
    v9.readAt (Elt Ideal) (Rect.unit (s := S1024x512) o S1024x128.size inb).toLoadRect (v9.writes (Elt Ideal) f9 L9)
        (ix2 j (⟨32, by decide⟩ : Fin 128)) = 1 := by
  subst ho ho'
  have hj := j.isLt
  have hk := k.isLt
  refine (View.read_writes_apply_of_pieces v9 f9 (G9 X WS) L9 hL9 _ ⟨_, hmem, (Rect.mem_set_unit (inb := inb')).mpr fun a => ?_⟩).trans
    (G9_one_at X WS _ (by show (128 * k.val + 1 * 32) % 128 = 32; omega))
  match a with
  | ⟨0, _⟩ => exact ⟨Nat.zero_le _, by show 0 + 1 * j.val < 0 + 1024; omega⟩
  | ⟨1, _⟩ => exact ⟨by show 128 * k.val + 32 ≤ 128 * k.val + 1 * 32; omega,
      by show 128 * k.val + 1 * 32 < 128 * k.val + 32 + 1; omega⟩

theorem col_read (v10 : View sig .tc .vmem S1024x4 .f32) {L10 : List (View.Piece (Elt Ideal) S1024x4 .f32)}
    (hL10 : ∀ p ∈ L10, ∀ x : p.1.shape.Idx, p.2 x = G10 X WS ATT (p.1.emb x))
    (k : Fin 4) {o : Fin 2 → Nat} (ho : o = ![0, k.val]) {inb : ∀ a, o a + S1024x1.size a ≤ S1024x4.size a}
    {o' : Fin 2 → Nat} {inb' : ∀ a, o' a + S1024x1.size a ≤ S1024x4.size a} {P : S1024x1.Idx → EReal}
    (hmem : (⟨Rect.unit (s := S1024x4) o' S1024x1.size inb', P⟩ : View.Piece (Elt Ideal) S1024x4 .f32) ∈ L10)
    (ho' : o' = ![0, k.val]) (i : Fin 1024) :
    v10.readCov L10 (Rect.unit (s := S1024x4) o S1024x1.size inb).toLoadRect (ix2 i 0)
      = Spec.srcK1 X (WS k) (ATT k) i := by
  subst ho ho'
  have hi := i.isLt
  refine (View.read_writes_apply_of_pieces v10 _ (G10 X WS ATT) L10 hL10 _ ⟨_, hmem, (Rect.mem_set_unit (inb := inb')).mpr fun a => ?_⟩).trans
    (G10_at X WS ATT k i _ (by show 0 + 1 * i.val = i.val; omega) (by show k.val + 1 * 0 = k.val; omega))
  match a with
  | ⟨0, _⟩ => exact ⟨Nat.zero_le _, by show 0 + 1 * i.val < 0 + 1024; omega⟩
  | ⟨1, _⟩ => exact ⟨by show k.val ≤ k.val + 1 * 0; omega, by show k.val + 1 * 0 < k.val + 1; omega⟩

theorem row_read (v11 : View sig .tc .vmem S4x1024 .f32) {L11 : List (View.Piece (Elt Ideal) S4x1024 .f32)}
    (hL11 : ∀ p ∈ L11, ∀ x : p.1.shape.Idx, p.2 x = G11 X WS ATT (p.1.emb x))
    (k : Fin 4) {o : Fin 2 → Nat} (ho : o = ![k.val, 0]) {inb : ∀ a, o a + S1x1024.size a ≤ S4x1024.size a}
    {o' : Fin 2 → Nat} {inb' : ∀ a, o' a + S1x1024.size a ≤ S4x1024.size a} {P : S1x1024.Idx → EReal}
    (hmem : (⟨Rect.unit (s := S4x1024) o' S1x1024.size inb', P⟩ : View.Piece (Elt Ideal) S4x1024 .f32) ∈ L11)
    (ho' : o' = ![k.val, 0]) (j : Fin 1024) :
    v11.readCov L11 (Rect.unit (s := S4x1024) o S1x1024.size inb).toLoadRect (ix2 0 j)
      = Spec.dstK1 X (WS k) (ATT k) j := by
  subst ho ho'
  have hj := j.isLt
  refine (View.read_writes_apply_of_pieces v11 _ (G11 X WS ATT) L11 hL11 _ ⟨_, hmem, (Rect.mem_set_unit (inb := inb')).mpr fun a => ?_⟩).trans
    (G11_at X WS ATT k j _ (by show k.val + 1 * 0 = k.val; omega) (by show 0 + 1 * j.val = j.val; omega))
  match a with
  | ⟨0, _⟩ => exact ⟨by show k.val ≤ k.val + 1 * 0; omega, by show k.val + 1 * 0 < k.val + 1; omega⟩
  | ⟨1, _⟩ => exact ⟨Nat.zero_le _, by show 0 + 1 * j.val < 0 + 1024; omega⟩

section Model

def L9model (x : Vec Ideal S1024x256 .f32) (w0 w1 w2 w3 : Vec Ideal S1x256x32 .f32) :
    List (View.Piece (Elt Ideal) S1024x512 .f32) :=
  [⟨Rect.unit ![0, 416] S1024x1.size inb_S1024x512_S1024x1_0_416, k0_pay29 (k0_pay11 (F := Ideal))⟩,
   ⟨Rect.unit ![0, 384] S1024x32.size inb_S1024x512_S1024x32_0_384, k0_pay28 x w3⟩,
   ⟨Rect.unit ![0, 288] S1024x1.size inb_S1024x512_S1024x1_0_288, k0_pay24 (k0_pay11 (F := Ideal))⟩,
   ⟨Rect.unit ![0, 256] S1024x32.size inb_S1024x512_S1024x32_0_256, k0_pay23 (k0_pay22 x w2)⟩,
   ⟨Rect.unit ![0, 160] S1024x1.size inb_S1024x512_S1024x1_0_160, k0_pay19 (k0_pay11 (F := Ideal))⟩,
   ⟨Rect.unit ![0, 128] S1024x32.size inb_S1024x512_S1024x32_0_128, k0_pay18 x w1⟩,
   ⟨Rect.unit ![0, 32] S1024x1.size inb_S1024x512_S1024x1_0_32, k0_pay14 (F := Ideal)⟩,
   ⟨Rect.unit ![0, 0] S1024x32.size inb_S1024x512_S1024x32_0_0, k0_pay13 x w0⟩]

def L10model (x : Vec Ideal S1024x256 .f32) (w0 w1 w2 w3 : Vec Ideal S1x256x32 .f32)
    (b0 b1 b2 b3 : Vec Ideal S32x1 .f32) : List (View.Piece (Elt Ideal) S1024x4 .f32) :=
  [⟨Rect.unit ![0, 3] S1024x1.size inb_S1024x4_S1024x1_0_3, k0_pay1 (k0_pay27 x w3) b3⟩,
   ⟨Rect.unit ![0, 2] S1024x1.size inb_S1024x4_S1024x1_0_2, k0_pay25 (k0_pay22 x w2) b2⟩,
   ⟨Rect.unit ![0, 1] S1024x1.size inb_S1024x4_S1024x1_0_1, k0_pay20 x w1 b1⟩,
   ⟨Rect.unit ![0, 0] S1024x1.size inb_S1024x4_S1024x1_0_0, k0_pay15 x w0 b0⟩]

def L11model (x : Vec Ideal S1024x256 .f32) (w0 w1 w2 w3 : Vec Ideal S1x256x32 .f32)
    (c0 c1 c2 c3 : Vec Ideal S32x1 .f32) : List (View.Piece (Elt Ideal) S4x1024 .f32) :=
  [⟨Rect.unit ![3, 0] S1x1024.size inb_S4x1024_S1x1024_3_0, k0_pay2 (k0_pay27 x w3) c3⟩,
   ⟨Rect.unit ![2, 0] S1x1024.size inb_S4x1024_S1x1024_2_0, k0_pay26 (k0_pay22 x w2) c2⟩,
   ⟨Rect.unit ![1, 0] S1x1024.size inb_S4x1024_S1x1024_1_0, k0_pay21 x w1 c1⟩,
   ⟨Rect.unit ![0, 0] S1x1024.size inb_S4x1024_S1x1024_0_0, k0_pay16 x w0 c0⟩]

variable (v9 : View sig .tc .vmem S1024x512 .f32) (f9 : v9.ty.Contents (Elt Ideal))
  (v10 : View sig .tc .vmem S1024x4 .f32) (v11 : View sig .tc .vmem S4x1024 .f32) (A : Vec Ideal S1024x1024 .f32)
  (o2 o4 o6 o8 : Fin 2 → Nat)
  (i2 : ∀ a, o2 a + S1024x1.size a ≤ S1024x4.size a) (i4 : ∀ a, o4 a + S1024x1.size a ≤ S1024x4.size a)
  (i6 : ∀ a, o6 a + S1024x1.size a ≤ S1024x4.size a) (i8 : ∀ a, o8 a + S1024x1.size a ≤ S1024x4.size a)
  (o3 o5 o7 o9 : Fin 2 → Nat)
  (i3 : ∀ a, o3 a + S1024x32.size a ≤ S1024x128.size a) (i5 : ∀ a, o5 a + S1024x32.size a ≤ S1024x128.size a)
  (i7 : ∀ a, o7 a + S1024x32.size a ≤ S1024x128.size a) (i9 : ∀ a, o9 a + S1024x32.size a ≤ S1024x128.size a)

def LS3model (L9 : List (View.Piece (Elt Ideal) S1024x512 .f32)) (L10 : List (View.Piece (Elt Ideal) S1024x4 .f32))
    (L11 : List (View.Piece (Elt Ideal) S4x1024 .f32)) : List (View.Piece (Elt Ideal) S1024x128 .f32) :=
  [⟨Rect.unit o9 S1024x32.size i9, k0_pay9 A (v10.readCov L10 (Rect.unit (s := S1024x4) o8 S1024x1.size i8).toLoadRect) (v11.readCov L11 (Rect.unit (s := S4x1024) ![3, 0] S1x1024.size inb_S4x1024_S1x1024_3_0).toLoadRect) (v9.readAt (Elt Ideal) (Rect.unit (s := S1024x512) ![0, 384] S1024x128.size inb_S1024x512_S1024x128_0_384).toLoadRect (v9.writes (Elt Ideal) f9 L9))⟩,
   ⟨Rect.unit o7 S1024x32.size i7, k0_pay8 (k0_pay33 A (v10.readCov L10 (Rect.unit (s := S1024x4) o6 S1024x1.size i6).toLoadRect) (v11.readCov L11 (Rect.unit (s := S4x1024) ![2, 0] S1x1024.size inb_S4x1024_S1x1024_2_0).toLoadRect) (v9.readAt (Elt Ideal) (Rect.unit (s := S1024x512) ![0, 256] S1024x128.size inb_S1024x512_S1024x128_0_256).toLoadRect (v9.writes (Elt Ideal) f9 L9)))⟩,
   ⟨Rect.unit o5 S1024x32.size i5, k0_pay32 (k0_pay31 A (v10.readCov L10 (Rect.unit (s := S1024x4) o4 S1024x1.size i4).toLoadRect) (v11.readCov L11 (Rect.unit (s := S4x1024) ![1, 0] S1x1024.size inb_S4x1024_S1x1024_1_0).toLoadRect)) (v9.readAt (Elt Ideal) (Rect.unit (s := S1024x512) ![0, 128] S1024x128.size inb_S1024x512_S1024x128_0_128).toLoadRect (v9.writes (Elt Ideal) f9 L9)) (constant S1024x128 .f32 0x00000000#32)⟩,
   ⟨Rect.unit o3 S1024x32.size i3, k0_pay30 A (v10.readCov L10 (Rect.unit (s := S1024x4) o2 S1024x1.size i2).toLoadRect) (v11.readCov L11 (Rect.unit (s := S4x1024) ![0, 0] S1x1024.size inb_S4x1024_S1x1024_0_0).toLoadRect) (v9.readAt (Elt Ideal) (Rect.unit (s := S1024x512) ![0, 0] S1024x128.size inb_S1024x512_S1024x128_0_0).toLoadRect (v9.writes (Elt Ideal) f9 L9))⟩]

variable (x : Vec Ideal S1024x256 .f32) (w0 w1 w2 w3 : Vec Ideal S1x256x32 .f32)
variable (hx : ∀ i f, x (ix2 i f) = X i f)
  (hw0 : ∀ f t, w0 (ix3 0 f t) = WS 0 f t) (hw1 : ∀ f t, w1 (ix3 0 f t) = WS 1 f t)
  (hw2 : ∀ f t, w2 (ix3 0 f t) = WS 2 f t) (hw3 : ∀ f t, w3 (ix3 0 f t) = WS 3 f t)

include hx hw0 hw1 hw2 hw3

theorem L9model_agree : ∀ p ∈ L9model x w0 w1 w2 w3, ∀ x : p.1.shape.Idx, p.2 x = G9 X WS (p.1.emb x) := by
  intro p hp
  simp only [L9model, List.mem_cons, List.not_mem_nil, or_false] at hp
  rcases hp with rfl | rfl | rfl | rfl | rfl | rfl | rfl | rfl
  · exact agree9_one X WS 3 ![0, 416] rfl inb_S1024x512_S1024x1_0_416 _ (fun y => by rw [pay29_eq]; exact ones_apply y)
  · exact agree9_proj X WS 3 ![0, 384] rfl inb_S1024x512_S1024x32_0_384 _ (fun i t => by rw [pay28_eq]; exact proj_value x w3 X (WS 3) hx hw3 i t)
  · exact agree9_one X WS 2 ![0, 288] rfl inb_S1024x512_S1024x1_0_288 _ (fun y => by rw [pay24_eq]; exact ones_apply y)
  · exact agree9_proj X WS 2 ![0, 256] rfl inb_S1024x512_S1024x32_0_256 _ (fun i t => by rw [pay23_eq, pay22_eq]; exact proj_value x w2 X (WS 2) hx hw2 i t)
  · exact agree9_one X WS 1 ![0, 160] rfl inb_S1024x512_S1024x1_0_160 _ (fun y => by rw [pay19_eq]; exact ones_apply y)
  · exact agree9_proj X WS 1 ![0, 128] rfl inb_S1024x512_S1024x32_0_128 _ (fun i t => by rw [pay18_eq]; exact proj_value x w1 X (WS 1) hx hw1 i t)
  · exact agree9_one X WS 0 ![0, 32] rfl inb_S1024x512_S1024x1_0_32 _ (fun y => by rw [pay14_eq]; exact ones_apply y)
  · exact agree9_proj X WS 0 ![0, 0] rfl inb_S1024x512_S1024x32_0_0 _ (fun i t => by rw [pay13_eq]; exact proj_value x w0 X (WS 0) hx hw0 i t)

theorem L10model_agree (b0 b1 b2 b3 : Vec Ideal S32x1 .f32)
    (hb0 : ∀ t : Fin 32, b0 (ix2 t 0) = ATT 0 (Fin.castAdd 32 t)) (hb1 : ∀ t : Fin 32, b1 (ix2 t 0) = ATT 1 (Fin.castAdd 32 t))
    (hb2 : ∀ t : Fin 32, b2 (ix2 t 0) = ATT 2 (Fin.castAdd 32 t)) (hb3 : ∀ t : Fin 32, b3 (ix2 t 0) = ATT 3 (Fin.castAdd 32 t)) :
    ∀ p ∈ L10model x w0 w1 w2 w3 b0 b1 b2 b3, ∀ x : p.1.shape.Idx, p.2 x = G10 X WS ATT (p.1.emb x) := by
  intro p hp
  simp only [L10model, List.mem_cons, List.not_mem_nil, or_false] at hp
  rcases hp with rfl | rfl | rfl | rfl
  · exact agree10 X WS ATT 3 ![0, 3] rfl inb_S1024x4_S1024x1_0_3 _ (fun i => by
      rw [pay27_eq]; exact src_value _ b3 X (WS 3) (ATT 3) (proj_value x w3 X (WS 3) hx hw3) hb3 i)
  · exact agree10 X WS ATT 2 ![0, 2] rfl inb_S1024x4_S1024x1_0_2 _ (fun i => by
      rw [pay25_eq, pay22_eq]; exact src_value _ b2 X (WS 2) (ATT 2) (proj_value x w2 X (WS 2) hx hw2) hb2 i)
  · exact agree10 X WS ATT 1 ![0, 1] rfl inb_S1024x4_S1024x1_0_1 _ (fun i => by
      rw [pay20_eq]; exact src_value _ b1 X (WS 1) (ATT 1) (proj_value x w1 X (WS 1) hx hw1) hb1 i)
  · exact agree10 X WS ATT 0 ![0, 0] rfl inb_S1024x4_S1024x1_0_0 _ (fun i => by
      rw [pay15_eq]; exact src_value _ b0 X (WS 0) (ATT 0) (proj_value x w0 X (WS 0) hx hw0) hb0 i)

theorem L11model_agree (c0 c1 c2 c3 : Vec Ideal S32x1 .f32)
    (hc0 : ∀ t : Fin 32, c0 (ix2 t 0) = ATT 0 (Fin.natAdd 32 t)) (hc1 : ∀ t : Fin 32, c1 (ix2 t 0) = ATT 1 (Fin.natAdd 32 t))
    (hc2 : ∀ t : Fin 32, c2 (ix2 t 0) = ATT 2 (Fin.natAdd 32 t)) (hc3 : ∀ t : Fin 32, c3 (ix2 t 0) = ATT 3 (Fin.natAdd 32 t)) :
    ∀ p ∈ L11model x w0 w1 w2 w3 c0 c1 c2 c3, ∀ x : p.1.shape.Idx, p.2 x = G11 X WS ATT (p.1.emb x) := by
  intro p hp
  simp only [L11model, List.mem_cons, List.not_mem_nil, or_false] at hp
  rcases hp with rfl | rfl | rfl | rfl
  · exact agree11 X WS ATT 3 ![3, 0] rfl inb_S4x1024_S1x1024_3_0 _ (fun j => by
      rw [pay27_eq]; exact dst_value _ c3 X (WS 3) (ATT 3) (proj_value x w3 X (WS 3) hx hw3) hc3 j)
  · exact agree11 X WS ATT 2 ![2, 0] rfl inb_S4x1024_S1x1024_2_0 _ (fun j => by
      rw [pay26_eq, pay22_eq]; exact dst_value _ c2 X (WS 2) (ATT 2) (proj_value x w2 X (WS 2) hx hw2) hc2 j)
  · exact agree11 X WS ATT 1 ![1, 0] rfl inb_S4x1024_S1x1024_1_0 _ (fun j => by
      rw [pay21_eq]; exact dst_value _ c1 X (WS 1) (ATT 1) (proj_value x w1 X (WS 1) hx hw1) hc1 j)
  · exact agree11 X WS ATT 0 ![0, 0] rfl inb_S4x1024_S1x1024_0_0 _ (fun j => by
      rw [pay16_eq]; exact dst_value _ c0 X (WS 0) (ATT 0) (proj_value x w0 X (WS 0) hx hw0) hc0 j)

theorem hl2_core (v : View sig .tc .vmem S1024x128 .f32) (f : v.ty.Contents (Elt Ideal))
    (b0 b1 b2 b3 c0 c1 c2 c3 : Vec Ideal S32x1 .f32)
    (hb0 : ∀ t : Fin 32, b0 (ix2 t 0) = ATT 0 (Fin.castAdd 32 t)) (hb1 : ∀ t : Fin 32, b1 (ix2 t 0) = ATT 1 (Fin.castAdd 32 t))
    (hb2 : ∀ t : Fin 32, b2 (ix2 t 0) = ATT 2 (Fin.castAdd 32 t)) (hb3 : ∀ t : Fin 32, b3 (ix2 t 0) = ATT 3 (Fin.castAdd 32 t))
    (hc0 : ∀ t : Fin 32, c0 (ix2 t 0) = ATT 0 (Fin.natAdd 32 t)) (hc1 : ∀ t : Fin 32, c1 (ix2 t 0) = ATT 1 (Fin.natAdd 32 t))
    (hc2 : ∀ t : Fin 32, c2 (ix2 t 0) = ATT 2 (Fin.natAdd 32 t)) (hc3 : ∀ t : Fin 32, c3 (ix2 t 0) = ATT 3 (Fin.natAdd 32 t))
    (hA : ∀ i j, A (ix2 i j) = ADJ i j)
    (ho2 : o2 = ![0, 0]) (ho4 : o4 = ![0, 1]) (ho6 : o6 = ![0, 2]) (ho8 : o8 = ![0, 3])
    (ho3 : o3 = ![0, 0]) (ho5 : o5 = ![0, 32]) (ho7 : o7 = ![0, 64]) (ho9 : o9 = ![0, 96]) :
    v.read (Elt Ideal) (v.writes (Elt Ideal) f
        (LS3model v9 f9 v10 v11 A o2 o4 o6 o8 i2 i4 i6 i8 o3 o5 o7 o9 i3 i5 i7 i9 (L9model x w0 w1 w2 w3)
          (L10model x w0 w1 w2 w3 b0 b1 b2 b3) (L11model x w0 w1 w2 w3 c0 c1 c2 c3)))
      = fun y => Spec.hidAllK X ADJ WS ATT (y 0) (y 1) := by
  have hL9 := L9model_agree X WS x w0 w1 w2 w3 hx hw0 hw1 hw2 hw3
  have hL10 := L10model_agree X WS ATT x w0 w1 w2 w3 hx hw0 hw1 hw2 hw3 b0 b1 b2 b3 hb0 hb1 hb2 hb3
  have hL11 := L11model_agree X WS ATT x w0 w1 w2 w3 hx hw0 hw1 hw2 hw3 c0 c1 c2 c3 hc0 hc1 hc2 hc3
  refine funext fun y => View.read_writes_apply_of_pieces v f (fun y => Spec.hidAllK X ADJ WS ATT (y 0) (y 1)) _ ?_ y ?_
  · intro p hp x
    simp only [LS3model, List.mem_cons, List.not_mem_nil, or_false] at hp
    rcases hp with rfl | rfl | rfl | rfl
    · exact read_four_agree X ADJ WS ATT 3 _ ho9 i9 _ (fun i t => by
        rw [pay9_eq]
        exact head_value X ADJ (WS 3) (ATT 3) A _ _ _ hA (col_read X WS ATT v10 hL10 3 ho8 (.head _) rfl)
          (row_read X WS ATT v11 hL11 3 rfl (.head _) rfl) (slot_proj X WS v9 f9 hL9 3 rfl (.tail _ (.head _)) rfl)
          (slot_one X WS v9 f9 hL9 3 rfl (.head _) rfl) i t) x
    · exact read_four_agree X ADJ WS ATT 2 _ ho7 i7 _ (fun i t => by
        rw [pay8_eq, pay33_eq]
        exact head_value X ADJ (WS 2) (ATT 2) A _ _ _ hA (col_read X WS ATT v10 hL10 2 ho6 (.tail _ (.head _)) rfl)
          (row_read X WS ATT v11 hL11 2 rfl (.tail _ (.head _)) rfl)
          (slot_proj X WS v9 f9 hL9 2 rfl (.tail _ (.tail _ (.tail _ (.head _)))) rfl)
          (slot_one X WS v9 f9 hL9 2 rfl (.tail _ (.tail _ (.head _))) rfl) i t) x
    · exact read_four_agree X ADJ WS ATT 1 _ ho5 i5 _ (fun i t => by
        rw [pay32_eq]
        exact head_value X ADJ (WS 1) (ATT 1) A _ _ _ hA (col_read X WS ATT v10 hL10 1 ho4 (.tail _ (.tail _ (.head _))) rfl)
          (row_read X WS ATT v11 hL11 1 rfl (.tail _ (.tail _ (.head _))) rfl)
          (slot_proj X WS v9 f9 hL9 1 rfl (.tail _ (.tail _ (.tail _ (.tail _ (.tail _ (.head _)))))) rfl)
          (slot_one X WS v9 f9 hL9 1 rfl (.tail _ (.tail _ (.tail _ (.tail _ (.head _))))) rfl) i t) x
    · exact read_four_agree X ADJ WS ATT 0 _ ho3 i3 _ (fun i t => by
        rw [pay30_eq]
        exact head_value X ADJ (WS 0) (ATT 0) A _ _ _ hA
          (col_read X WS ATT v10 hL10 0 ho2 (.tail _ (.tail _ (.tail _ (.head _)))) rfl)
          (row_read X WS ATT v11 hL11 0 rfl (.tail _ (.tail _ (.tail _ (.head _)))) rfl)
          (slot_proj X WS v9 f9 hL9 0 rfl (.tail _ (.tail _ (.tail _ (.tail _ (.tail _ (.tail _ (.tail _ (.head _)))))))) rfl)
          (slot_one X WS v9 f9 hL9 0 rfl (.tail _ (.tail _ (.tail _ (.tail _ (.tail _ (.tail _ (.head _))))))) rfl) i t) x
  · have h1 := idx2_lt1 y
    rcases (by omega : (y 1).val / 32 = 0 ∨ (y 1).val / 32 = 1 ∨ (y 1).val / 32 = 2 ∨ (y 1).val / 32 = 3) with h | h | h | h
    · exact ⟨_, .tail _ (.tail _ (.tail _ (.head _))), read_four_mem 0 _ ho3 i3 y h⟩
    · exact ⟨_, .tail _ (.tail _ (.head _)), read_four_mem 1 _ ho5 i5 y h⟩
    · exact ⟨_, .tail _ (.head _), read_four_mem 2 _ ho7 i7 y h⟩
    · exact ⟨_, .head _, read_four_mem 3 _ ho9 i9 y h⟩

end Model

section Blocks

variable (m : (ℓ : Loc nD τ sig) → Buf (Elt Ideal) ℓ)

theorem blkX_apply (c : Dev nD) (y : S1024x256.Idx) : (iblk m c 0 t0_0 : Vec Ideal S1024x256 .f32) y = V m c main_arg0 y :=
  show V m c main_arg0 (((cfg0.win 0).blk t0_0).view.emb y) = _ from congrArg _ (funext fun a => Fin.ext
    (Pipeline.Window.rect_emb_val_of_index_zero win0_0 t0_0 a ((by decide +kernel : ∀ a, win0_0.index t0_0 a = 0) a) y))

theorem blkWs_apply (c : Dev nD) (y : S4x256x32.Idx) : (iblk m c 1 t0_0 : Vec Ideal S4x256x32 .f32) y = V m c main_arg2 y :=
  show V m c main_arg2 (((cfg0.win 1).blk t0_0).view.emb y) = _ from congrArg _ (funext fun a => Fin.ext
    (Pipeline.Window.rect_emb_val_of_index_zero win0_1 t0_0 a ((by decide +kernel : ∀ a, win0_1.index t0_0 a = 0) a) y))

theorem blkAdj_apply (c : Dev nD) (y : S1024x1024.Idx) : (iblk m c 4 t0_0 : Vec Ideal S1024x1024 .f32) y = V m c main_arg1 y :=
  show V m c main_arg1 (((cfg0.win 4).blk t0_0).view.emb y) = _ from congrArg _ (funext fun a => Fin.ext
    (Pipeline.Window.rect_emb_val_of_index_zero win0_4 t0_0 a ((by decide +kernel : ∀ a, win0_4.index t0_0 a = 0) a) y))

theorem V_a1s_eq (c : Dev nD) :
    (V m c main_call0_v2 : S32x4.Idx → EReal)
      = transpose S32x4 [1, 0] (shapeCast S4x32 (extractStridedSlice S4x1x32 ![0, 0, 0] (V m c main_arg3)
          slices_S4x1x64_S4x1x32_0_0_0) shapeCasts_S4x1x32_S4x32) transposes_S4x32_S32x4_1_0 := by
  dsimp only [V, hostOps0]; after_results; rfl

theorem V_a2s_eq (c : Dev nD) :
    (V m c main_call0_v5 : S32x4.Idx → EReal)
      = transpose S32x4 [1, 0] (shapeCast S4x32 (extractStridedSlice S4x1x32 ![0, 0, 32] (V m c main_arg3)
          slices_S4x1x64_S4x1x32_0_0_32) shapeCasts_S4x1x32_S4x32) transposes_S4x32_S32x4_1_0 := by
  dsimp only [V, hostOps0]; after_results; rfl

theorem att_apply (A : Vec Ideal S4x1x64 .f32) (o : Nat) (hs : S4x1x64.Slices ![0, 0, o] S4x1x32) (t : Fin 32) (k : Fin 4)
    (u : Fin 64) (hu : u.val = o + t.val) :
    transpose S32x4 [1, 0] (shapeCast S4x32 (extractStridedSlice S4x1x32 ![0, 0, o] A hs) shapeCasts_S4x1x32_S4x32)
      transposes_S4x32_S32x4_1_0 (ix2 t k) = A (ix3 k 0 u) :=
  (transpose_apply _ _ _ (ix2 t k) (ix2 k t) fun b => by
    match b with
    | ⟨0, _⟩ => rfl
    | ⟨1, _⟩ => rfl).trans <|
  (shapeCast_apply _ _ (ix2 k t) (ix3 k 0 t) (by
    rw [Shape.rowMajor_val_three, Shape.rowMajor_val_two]
    show (k.val * 1 + 0) * 32 + t.val = k.val * 32 + t.val
    omega)).trans <|
  extractStridedSlice_apply _ _ _ (ix3 k 0 t) (ix3 k 0 u) fun a => by
    match a with
    | ⟨0, _⟩ => exact (Nat.zero_add _).symm
    | ⟨1, _⟩ => rfl
    | ⟨2, _⟩ => exact hu

theorem blkA1_apply (c : Dev nD) (t : Fin 32) (k : Fin 4) :
    (iblk m c 2 t0_0 : Vec Ideal S32x4 .f32) (ix2 t k) = V m c main_arg3 (ix3 k 0 (Fin.castAdd 32 t)) :=
  (show V m c main_call0_v2 (((cfg0.win 2).blk t0_0).view.emb (ix2 t k)) = V m c main_call0_v2 (ix2 t k) from
    congrArg _ (funext fun a => Fin.ext (Pipeline.Window.rect_emb_val_of_index_zero win0_2 t0_0 a
      ((by decide +kernel : ∀ a, win0_2.index t0_0 a = 0) a) _))).trans
    (by rw [V_a1s_eq]; exact att_apply _ 0 _ t k _ (Nat.zero_add _).symm)

theorem blkA2_apply (c : Dev nD) (t : Fin 32) (k : Fin 4) :
    (iblk m c 3 t0_0 : Vec Ideal S32x4 .f32) (ix2 t k) = V m c main_arg3 (ix3 k 0 (Fin.natAdd 32 t)) :=
  (show V m c main_call0_v5 (((cfg0.win 3).blk t0_0).view.emb (ix2 t k)) = V m c main_call0_v5 (ix2 t k) from
    congrArg _ (funext fun a => Fin.ext (Pipeline.Window.rect_emb_val_of_index_zero win0_3 t0_0 a
      ((by decide +kernel : ∀ a, win0_3.index t0_0 a = 0) a) _))).trans
    (by rw [V_a2s_eq]; exact att_apply _ 32 _ t k _ rfl)

theorem readAt_unread_apply {S : Shape} (a : Memref sig .tc .vmem S .f32) (ha : a.IsWhole) (x : Vec Ideal S .f32)
    (off size : Fin S.rank → Nat) (inb : ∀ ax, off ax + size ax ≤ S.size ax)
    (j : (Rect.unit (s := S) off size inb).shape.Idx) (y : S.Idx) (hy : ∀ ax, (y ax).val = off ax + (j ax).val) :
    View.readAt (Elt Ideal) a.view (Rect.unit (s := S) off size inb).toLoadRect (ha.unread x) j = x y := by
  rw [View.readAt_eq_ld, ha.read_unread]
  exact congrArg x (funext fun ax => Fin.ext (by
    rw [hy ax]; show off ax + 1 * (j ax).val = off ax + (j ax).val; omega))

theorem ldX (c : Dev nD) (a : Memref sig .tc .vmem S1024x256 .f32) (ha : a.IsWhole) (i : Fin 1024) (f : Fin 256) :
    View.readAt (Elt Ideal) a.view (Rect.unit (s := S1024x256) ![0, 0] S1024x256.size inb_S1024x256_S1024x256_0_0).toLoadRect
      (ha.unread (iblk m c 0 t0_0)) (ix2 i f) = V m c main_arg0 (ix2 i f) :=
  (readAt_unread_apply a ha _ _ _ _ (ix2 i f) (ix2 i f) fun ax => by
    match ax with
    | ⟨0, _⟩ => exact (Nat.zero_add _).symm
    | ⟨1, _⟩ => exact (Nat.zero_add _).symm).trans (blkX_apply m c _)

theorem ldA (c : Dev nD) (a : Memref sig .tc .vmem S1024x1024 .f32) (ha : a.IsWhole) (off : Fin 2 → Nat) (hoff : off = ![0, 0])
    (inb : ∀ ax, off ax + S1024x1024.size ax ≤ S1024x1024.size ax) (i j : Fin 1024) :
    View.readAt (Elt Ideal) a.view (Rect.unit (s := S1024x1024) off S1024x1024.size inb).toLoadRect
      (ha.unread (iblk m c 4 t0_0)) (ix2 i j) = V m c main_arg1 (ix2 i j) := by
  subst hoff
  exact (readAt_unread_apply a ha _ _ _ _ (ix2 i j) (ix2 i j) fun ax => by
    match ax with
    | ⟨0, _⟩ => exact (Nat.zero_add _).symm
    | ⟨1, _⟩ => exact (Nat.zero_add _).symm).trans (blkAdj_apply m c _)

theorem ldW (c : Dev nD) (a : Memref sig .tc .vmem S4x256x32 .f32) (ha : a.IsWhole) (k : Fin 4)
    (off : Fin 3 → Nat) (hoff : off = ![k.val, 0, 0]) (inb : ∀ ax, off ax + S1x256x32.size ax ≤ S4x256x32.size ax)
    (f : Fin 256) (t : Fin 32) :
    View.readAt (Elt Ideal) a.view (Rect.unit (s := S4x256x32) off S1x256x32.size inb).toLoadRect
      (ha.unread (iblk m c 1 t0_0)) (ix3 0 f t) = V m c main_arg2 (ix3 k f t) := by
  subst hoff
  exact (readAt_unread_apply a ha _ _ _ _ (ix3 0 f t) (ix3 k f t) fun ax => by
    match ax with
    | ⟨0, _⟩ => rfl
    | ⟨1, _⟩ => exact (Nat.zero_add _).symm
    | ⟨2, _⟩ => exact (Nat.zero_add _).symm).trans (blkWs_apply m c _)

theorem ldAtt (a : Memref sig .tc .vmem S32x4 .f32) (ha : a.IsWhole) (x : Vec Ideal S32x4 .f32) (k : Fin 4)
    (off : Fin 2 → Nat) (hoff : off = ![0, k.val]) (inb : ∀ ax, off ax + S32x1.size ax ≤ S32x4.size ax) (t : Fin 32) :
    View.readAt (Elt Ideal) a.view (Rect.unit (s := S32x4) off S32x1.size inb).toLoadRect (ha.unread x) (ix2 t 0)
      = x (ix2 t k) := by
  subst hoff
  exact readAt_unread_apply a ha x _ _ _ (ix2 t 0) (ix2 t k) fun ax => by
    match ax with
    | ⟨0, _⟩ => exact (Nat.zero_add _).symm
    | ⟨1, _⟩ => rfl

theorem hl2_read (c : Dev nD) (hc0 : cond0_0 (grid0.coords t0_0)) (hc1 : ¬cond0_1 (grid0.coords t0_0))
    (hc2 : cond0_2 (grid0.coords t0_0)) (hc3 : ¬cond0_3 (grid0.coords t0_0))
    (xs9 : Vec Ideal S1024x512 .f32) (v : View sig .tc .vmem S1024x128 .f32) (f : v.ty.Contents (Elt Ideal)) :
    v.read (Elt Ideal) (v.writes (Elt Ideal) f (kernelRun0_A (F := Ideal) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t0_0) (iblk m c 1 t0_0) (iblk m c 2 t0_0) (iblk m c 3 t0_0) (iblk m c 4 t0_0) (iblk m c 5 t0_0) (iblk m c 6 t0_0) xs9).1)
      = fun y => Spec.hidAllK (fun i f => V m c main_arg0 (ix2 i f)) (fun i j => V m c main_arg1 (ix2 i j))
          (fun k f t => V m c main_arg2 (ix3 k f t)) (fun k u => V m c main_arg3 (ix3 k 0 u)) (y 0) (y 1) := by
  unfold kernelRun0_A
  dsimp only
  sl_unfold_run_names
  exact hl2_core (fun i f => V m c main_arg0 (ix2 i f)) (fun i j => V m c main_arg1 (ix2 i j))
    (fun k f t => V m c main_arg2 (ix3 k f t)) (fun k u => V m c main_arg3 (ix3 k 0 u))
    _ _ _ _ _ _ _ _ _ _ _ _ _ _ _ _ _ _ _ _ _ _ _ _ _ _
    (ldX m c _ _) (ldW m c _ _ 0 _ rfl _) (ldW m c _ _ 1 _ rfl _) (ldW m c _ _ 2 _ rfl _) (ldW m c _ _ 3 _ rfl _)
    v f _ _ _ _ _ _ _ _
    (fun t => (ldAtt _ _ _ 0 _ rfl _ t).trans (blkA1_apply m c t 0)) (fun t => (ldAtt _ _ _ 1 _ rfl _ t).trans (blkA1_apply m c t 1))
    (fun t => (ldAtt _ _ _ 2 _ rfl _ t).trans (blkA1_apply m c t 2)) (fun t => (ldAtt _ _ _ 3 _ rfl _ t).trans (blkA1_apply m c t 3))
    (fun t => (ldAtt _ _ _ 0 _ rfl _ t).trans (blkA2_apply m c t 0)) (fun t => (ldAtt _ _ _ 1 _ rfl _ t).trans (blkA2_apply m c t 1))
    (fun t => (ldAtt _ _ _ 2 _ rfl _ t).trans (blkA2_apply m c t 2)) (fun t => (ldAtt _ _ _ 3 _ rfl _ t).trans (blkA2_apply m c t 3))
    (ldA m c _ _ _ (k0_off1_eq_A _) _)
    (k0_off2_eq_A _) (k0_off4_eq_A _) (k0_off6_eq_A _) (k0_off8_eq_A _)
    (k0_off3_eq_A _) (k0_off5_eq_A _) (k0_off7_eq_A _) (k0_off9_eq_A _)

end Blocks

end Cert.KernelIdeal.Gen.Layer1

end
-- ==== Proof.KValue2.lean ====
import proofs.«135979_g12610023981851_fold_wed_c4_432_5_alg».proof.Proof.Gen.KernelIdeal.Skeleton
import proofs.«135979_g12610023981851_fold_wed_c4_432_5_alg».proof.Proof.Spec
import proofs.«135979_g12610023981851_fold_wed_c4_432_5_alg».proof.Proof.KValue1
import Idealize.ShloMosaic.Lib.ValueLayout
import Idealize.ShloMosaic.Lib.IdealHost
import Idealize.ShloMosaic.PureOps.Ideal.Laws

set_option synthInstance.maxSize 4096

noncomputable section

namespace Cert.KValue2

open Idealize.ShloMosaic Idealize.ShloMosaic.ValueIdx
open Cert.KernelIdeal Cert.KernelIdeal.Gen
open Cert.KernelIdeal.Gen.Layer1 (mm_apply elu_eq)
open scoped BigOperators

section
variable (A : Vec Ideal S1024x1024 .f32) (H : Vec Ideal S1024x128 .f32) (Wo : Vec Ideal S128x1 .f32)
  (sa : Vec Ideal S1024x1 .f32) (sb : Vec Ideal S1x1024 .f32) (a : Vec Ideal S1x1 .f32)

theorem zeroSub_apply : subf (F := Ideal) (broadcast S1x1 (Scalar.ofBits .f32 0x00000000#32)) a (ix2 0 0) = -(a (ix2 0 0)) := by
  show Ideal.ofBits .f32 0x00000000#32 - _ = _
  rw [Ideal.ofBits_zero_f32, zero_sub]

-- The projected feature of a node: its row of hidden features against the weight column.
theorem pay3_apply (i : Fin 1024) :
    k0_pay3 (F := Ideal) H Wo (ix2 i 0) = ∑ u : Fin 128, H (ix2 i u) * Wo (ix2 u 0) :=
  mm_apply dot_S1024x128_S128x1_S1024x1_1_0_0_1_n_n 128 rfl rfl H Wo _ _ _ (fun _ => eq_ix2 _) fun _ => eq_ix2 _

theorem pay4_apply (i : Fin 1024) :
    k0_pay4 (F := Ideal) H Wo a (ix2 i 0) = (∑ u : Fin 128, H (ix2 i u) * Wo (ix2 u 0)) * -(a (ix2 0 0)) := by
  unfold k0_pay4
  rw [shapeCast_self, mulf_apply, pay3_apply, broadcastTo_1b_ab_apply, zeroSub_apply]

-- The negated target score: the product is taken column against row, so its factors are swapped.
theorem pay5_apply (j : Fin 1024) :
    k0_pay5 (F := Ideal) Wo H a (ix2 0 j) = (∑ u : Fin 128, H (ix2 j u) * Wo (ix2 u 0)) * -(a (ix2 0 0)) := by
  unfold k0_pay5
  rw [shapeCast_self, mulf_apply, broadcastTo_apply _ _ _ (ix2 0 0) fun | ⟨0, _⟩ => rfl | ⟨1, _⟩ => rfl, zeroSub_apply,
    mm_apply dot_S128x1_S1024x128_S1x1024_0_1_1_0_n_n 128 rfl rfl Wo H _ (fun c => ix2 c 0) (fun c => ix2 j c)
      (fun _ => eq_ix2 _) fun _ => eq_ix2 _]
  exact congrArg (· * _) (Finset.sum_congr rfl fun _ _ => mul_comm _ _)

theorem pay7_apply (i : Fin 1024) : k0_pay7 (F := Ideal) (ix2 i (0 : Fin 1)) = 1 := by
  unfold k0_pay7
  rw [shapeCast_self]
  exact Ideal.ofBits_one_f32

-- The dense weight of a pair: the source score runs along the row, the target score along the column.
theorem weight_apply (i j : Fin 1024) :
    k0_pay31 (F := Ideal) A sa sb (ix2 i j) = Spec.weightK (sa (ix2 i 0)) (sb (ix2 0 j)) (A (ix2 i j)) :=
  congrArg₂ (Spec.weightK · · (A (ix2 i j)))
    (broadcastTo_apply sa _ (ix2 i j) (ix2 i 0) fun | ⟨0, _⟩ => rfl | ⟨1, _⟩ => rfl) (broadcastTo_1b_ab_apply sb _ i j)

end

-- The output at a node: logistic of `elu` of the weighted mean of the projected features; the column of ones gives the sum of the weights.
theorem outB_apply (A : Vec Ideal S1024x1024 .f32) (H : Vec Ideal S1024x128 .f32) (Wo : Vec Ideal S128x1 .f32)
    (a0 a1 : Vec Ideal S1x1 .f32) (hg : Vec Ideal S1024x128 .f32) (ao : Fin 2 → EReal)
    (ha0 : a0 (ix2 (0 : Fin 1) (0 : Fin 1)) = ao 0) (ha1 : a1 (ix2 (0 : Fin 1) (0 : Fin 1)) = ao 1)
    (h0 : ∀ j : Fin 1024, hg (ix2 j (0 : Fin 128)) = k0_pay6 (F := Ideal) H Wo (ix2 j (0 : Fin 1)))
    (h1 : ∀ j : Fin 1024, hg (ix2 j (1 : Fin 128)) = 1) (i : Fin 1024) :
    k0_pay10 (F := Ideal) A (k0_pay4 (F := Ideal) H Wo a0) (k0_pay5 (F := Ideal) Wo H a1) hg (ix2 i (0 : Fin 1))
      = Spec.outK (fun i j => A (ix2 i j)) (fun u => Wo (ix2 u (0 : Fin 1))) ao (fun i u => H (ix2 i u)) i := by
  have mm := fun u => (mm_apply dot_S1024x1024_S1024x128_S1024x128_1_0_0_1_n_n 1024 rfl rfl
      (k0_pay31 A (k0_pay4 H Wo a0) (k0_pay5 Wo H a1)) hg (ix2 i u) (fun c => ix2 i c) (fun c => ix2 c u)
      (fun _ => eq_ix2 _) fun _ => eq_ix2 _).trans
    (Finset.sum_congr rfl fun j _ => congrArg (· * hg (ix2 j u)) (by rw [weight_apply, pay4_apply, pay5_apply, ha0, ha1]))
  refine congrArg Ideal.logistic ((elu_eq _).trans (congrArg Spec.eluK (congr (congrArg Ideal.div ?_) ?_)))
  · exact (slice2_axis1_apply 0 _ _ i 0 0 rfl).trans ((mm 0).trans (Finset.sum_congr rfl fun j _ =>
      congrArg (_ * ·) ((h0 j).trans ((congrFun (shapeCast_self _ _) _).trans (pay3_apply H Wo j)))))
  · exact (slice2_axis1_apply 1 _ _ i 0 1 rfl).trans ((mm 1).trans (Finset.sum_congr rfl fun j _ => by rw [h1, mul_one]; rfl))

end Cert.KValue2

end
-- ==== Proof.KValue2R.lean ====
import proofs.«135979_g12610023981851_fold_wed_c4_432_5_alg».proof.Proof.KRunB
import proofs.«135979_g12610023981851_fold_wed_c4_432_5_alg».proof.Proof.KValue2
import proofs.«135979_g12610023981851_fold_wed_c4_432_5_alg».proof.Proof.Spec
import Idealize.ShloMosaic.Lib.Pipeline.Value
import Idealize.ShloMosaic.Lib.ValueLayout

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KValue2

variable (m : (ℓ : Loc nD τ sig) → Buf (Elt Ideal) ℓ) (ρ : Dev nD → PrngReg)

theorem hz2 : (![0, 0] : Fin 2 → Nat) = fun _ => 0 := funext fun a => by fin_cases a <;> rfl

theorem ld_ao (x6 : Vec Ideal S1x2 .f32) (u : Fin 2) (inb : ∀ a, (![0, u.val] : Fin 2 → ℕ) a + S1x1.size a ≤ S1x2.size a) :
    View.ld x6 (Rect.unit ![0, u.val] S1x1.size inb) (ix2 (0 : Fin 1) (0 : Fin 1)) = x6 (ix2 (0 : Fin 1) u) :=
  congrArg x6 (funext fun a => Fin.ext (by match a with | ⟨0, _⟩ => rfl | ⟨1, _⟩ => rfl))

-- what is written through the whole array reads back as written
theorem readCov_unit_zero' {sg : RefSig} {κ : Kind} {sp : Space} {S : Shape} {e : EltTy}
    (v : View sg κ sp S e) {off off' : Fin S.rank → Nat} (h : off = fun _ => 0) (h' : off' = fun _ => 0)
    (inb : ∀ a, off a + S.size a ≤ S.size a) (inb' : ∀ a, off' a + S.size a ≤ S.size a) (w : S.Idx → Elt Ideal e) :
    v.readCov [(⟨Rect.unit off S.size inb, w⟩ : View.Piece (Elt Ideal) S e)] (Rect.unit off' S.size inb').toLoadRect = w := by
  subst h; subst h'
  exact View.readCov_unit_zero v rfl _ w

section TwoColumns
variable {sg : RefSig} {κ : Kind} {sp : Space} (v : View sg κ sp S1024x128 .f32) (f0 : v.ty.Contents (Elt Ideal))
  (inb0 : ∀ a, (![0, 0] : Fin 2 → ℕ) a + S1024x1.size a ≤ S1024x128.size a)
  (inb1 : ∀ a, (![0, 1] : Fin 2 → ℕ) a + S1024x1.size a ≤ S1024x128.size a)
  (w0 w1 : Vec Ideal S1024x1 .f32) (j : Fin 1024)

theorem col1_emb : ix2 j (1 : Fin 128) = (Rect.unit (s := S1024x128) ![0, 1] S1024x1.size inb1).emb (ix2 j (0 : Fin 1)) :=
  funext fun a => Fin.ext (by
    match a with
    | ⟨0, _⟩ => show j.val = 0 + 1 * j.val; omega
    | ⟨1, _⟩ => rfl)

theorem col0_emb : ix2 j (0 : Fin 128) = (Rect.unit (s := S1024x128) ![0, 0] S1024x1.size inb0).emb (ix2 j (0 : Fin 1)) :=
  funext fun a => Fin.ext (by
    match a with
    | ⟨0, _⟩ => show j.val = 0 + 1 * j.val; omega
    | ⟨1, _⟩ => rfl)

theorem col0_not_mem : ix2 j (0 : Fin 128) ∉ Finset.univ.map (Rect.unit (s := S1024x128) ![0, 1] S1024x1.size inb1).emb := by
  rw [Rect.map_emb_univ, Rect.mem_set_unit]
  intro h
  have h1 : (1 : ℕ) ≤ 0 := (h 1).1
  omega

-- Two stores into different columns: each column reads back its own payload.
theorem twoCols_read (F : v.ty.Contents (Elt Ideal)) (hF : F = v.writes (Elt Ideal) f0
      [(⟨Rect.unit (s := S1024x128) ![0, 1] S1024x1.size inb1, w1⟩ : View.Piece (Elt Ideal) S1024x128 .f32), ⟨Rect.unit (s := S1024x128) ![0, 0] S1024x1.size inb0, w0⟩]) :
    v.read (Elt Ideal) F (ix2 j (0 : Fin 128)) = w0 (ix2 j (0 : Fin 1)) ∧ v.read (Elt Ideal) F (ix2 j (1 : Fin 128)) = w1 (ix2 j (0 : Fin 1)) := by
  subst hF
  refine ⟨?_, ?_⟩
  · rw [View.writes_cons, View.read_slice_write_of_not_mem _ _ _ _ (col0_not_mem inb1 j), col0_emb inb0 j]
    exact View.read_writes_cons_emb v f0 (Rect.unit (s := S1024x128) ![0, 0] S1024x1.size inb0) w0 [] (ix2 j (0 : Fin 1))
  · rw [col1_emb inb1 j]
    exact View.read_writes_cons_emb v f0 (Rect.unit (s := S1024x128) ![0, 1] S1024x1.size inb1) w1 _ (ix2 j (0 : Fin 1))

end TwoColumns

theorem outB_piece (c : Dev nD) {i : grid0.Coords} {arg1 : Memref sig .tc .vmem S1024x256 .f32} {harg1 : arg1.IsWhole} {arg2 : Memref sig .tc .vmem S4x256x32 .f32} {harg2 : arg2.IsWhole} {arg3 : Memref sig .tc .vmem S32x4 .f32} {harg3 : arg3.IsWhole} {arg4 : Memref sig .tc .vmem S32x4 .f32} {harg4 : arg4.IsWhole} {arg5 : Memref sig .tc .vmem S1024x1024 .f32} {harg5 : arg5.IsWhole} {arg6 : Memref sig .tc .vmem S128x1 .f32} {harg6 : arg6.IsWhole} {arg7 : Memref sig .tc .vmem S1x2 .f32} {harg7 : arg7.IsWhole} {arg8 : Memref sig .tc .vmem S1024x1 .f32} {harg8 : arg8.IsWhole} {arg9 : Memref sig .tc .vmem S1024x512 .f32} {harg9 : arg9.IsWhole} {arg10 : Memref sig .tc .vmem S1024x4 .f32} {harg10 : arg10.IsWhole} {arg11 : Memref sig .tc .vmem S4x1024 .f32} {harg11 : arg11.IsWhole} {arg12 : Memref sig .tc .vmem S1024x128 .f32} {harg12 : arg12.IsWhole} {arg13 : Memref sig .tc .vmem S1024x1 .f32} {harg13 : arg13.IsWhole} {arg14 : Memref sig .tc .vmem S1x1024 .f32} {harg14 : arg14.IsWhole} {arg15 : Memref sig .tc .vmem S1024x128 .f32} {harg15 : arg15.IsWhole} (hc0 : ¬cond0_0 i) (hc1 : cond0_1 i) (hc2 : ¬cond0_2 i) (hc3 : cond0_3 i)
    (x0 : Vec Ideal S1024x256 .f32) (x1 : Vec Ideal S4x256x32 .f32) (x2 x3 : Vec Ideal S32x4 .f32) (x4 : Vec Ideal S1024x1024 .f32) (x5 : Vec Ideal S128x1 .f32) (x6 : Vec Ideal S1x2 .f32) (xs3 : Vec Ideal S1024x128 .f32) (xs15 : Vec Ideal S1024x128 .f32) (v : View sig .tc .vmem S1024x1 .f32) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs3 xs15).1)
      = fun y => Spec.outK (fun i j => x4 (ix2 i j)) (fun u => x5 (ix2 u (0 : Fin 1))) (fun u => x6 (ix2 (0 : Fin 1) u)) (fun i u => xs3 (ix2 i u)) (y 0) := by
  refine (View.read_writes_eq_canon _ _ _ (View.cover_of_tiledL _ S1024x1.size ?_)).trans ?_
  · sl_kernel_rfl
  unfold kernelRun0_B
  dsimp only
  sl_unfold_run_names
  rw [View.canon_unit_zero hz2]
  funext y
  obtain ⟨p, q, rfl⟩ : ∃ (p : Fin 1024) (q : Fin 1), y = ix2 p q := ⟨y 0, y 1, eq_ix2 y⟩
  obtain rfl : q = 0 := Subsingleton.elim _ _
  simp only [readCov_unit_zero' (S := S1024x1) _ hz2 ((k0_off10_eq_B i).trans hz2), View.readCov_unit_zero (S := S1x1024) _ hz2,
    View.readAt_eq_ld, harg5.read_unread, harg6.read_unread, harg7.read_unread, harg12.read_unread,
    View.ld_unit_zero (S := S1024x1024) ((k0_off1_eq_B i).trans hz2), View.ld_unit_zero (S := S1024x128) hz2,
    View.ld_unit_zero (S := S128x1) hz2]
  refine outB_apply x4 xs3 x5 _ _ _ (fun u => x6 (ix2 (0 : Fin 1) u)) ?_ ?_ ?_ ?_ p
  · exact ld_ao x6 0 _
  · exact ld_ao x6 1 _
  · exact fun j => (twoCols_read _ _ _ _ _ _ j _ rfl).1
  · exact fun j => (twoCols_read _ _ _ _ _ _ j _ rfl).2.trans (pay7_apply j)

theorem out_read_of (c : Dev nD) (hc0 : ¬cond0_0 (grid0.coords t0_1)) (hc1 : cond0_1 (grid0.coords t0_1)) (hc2 : ¬cond0_2 (grid0.coords t0_1)) (hc3 : cond0_3 (grid0.coords t0_1))
    (H : Vec Ideal S1024x128 .f32) (xs15 : Vec Ideal S1024x128 .f32) (v : View sig .tc .vmem S1024x1 .f32) (f : v.ty.Contents (Elt Ideal)) :
    v.read (Elt Ideal) (v.writes (Elt Ideal) f (kernelRun0_B (F := Ideal) c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk m c 0 t0_1) (iblk m c 1 t0_1) (iblk m c 2 t0_1) (iblk m c 3 t0_1) (iblk m c 4 t0_1) (iblk m c 5 t0_1) (iblk m c 6 t0_1) H xs15).1)
      = fun y => Spec.outK (fun i j => V m c main_arg1 (ix2 i j)) (fun u => V m c main_arg4 (ix2 u (0 : Fin 1)))
          (fun u => V m c main_arg5 (ix2 (0 : Fin 1) u)) (fun i u => H (ix2 i u)) (y 0) := by
  have e4 : (iblk m c 4 t0_1 : Vec Ideal S1024x1024 .f32) = V m c main_arg1 :=
    Memref.read_access_unit_zero (Elt Ideal) main_arg1 (funext fun a => by fin_cases a <;> decide) _ _
  have e5 : (iblk m c 5 t0_1 : Vec Ideal S128x1 .f32) = V m c main_arg4 :=
    Memref.read_access_unit_zero (Elt Ideal) main_arg4 (funext fun a => by fin_cases a <;> decide) _ _
  have e6 : (iblk m c 6 t0_1 : Vec Ideal S1x2 .f32) = V m c main_arg5 :=
    Memref.read_access_unit_zero (Elt Ideal) main_arg5 (funext fun a => by fin_cases a <;> decide) _ _
  exact (outB_piece c hc0 hc1 hc2 hc3 _ _ _ _ _ _ _ H xs15 v f).trans (by rw [e4, e5, e6])

end Cert.KernelIdeal.Gen

end
-- ==== Proof.KValRunTop.lean ====
import proofs.«135979_g12610023981851_fold_wed_c4_432_5_alg».proof.Proof.KValRun
import proofs.«135979_g12610023981851_fold_wed_c4_432_5_alg».proof.Proof.KValue1Read
import proofs.«135979_g12610023981851_fold_wed_c4_432_5_alg».proof.Proof.KValue2R

set_option maxRecDepth 16384

noncomputable section

namespace Cert.KernelIdeal.Gen

open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem readsHidden : ReadsHidden m := fun c hc0 hc1 hc2 hc3 xs9 v f =>
  (Layer1.hl2_read m c hc0 hc1 hc2 hc3 xs9 v f).trans rfl

theorem readsResult : ReadsResult m := fun c hc0 hc1 hc2 hc3 xs15 v f =>
  (out_read_of m c hc0 hc1 hc2 hc3 (hl2Arr m c) xs15 v f).trans rfl

theorem run_value : θ_run defs (onTc (τ := τ) (main (F := Ideal))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Val.run_value_of m ρ (readsHidden m) (readsResult m)

end Cert.KernelIdeal.Gen

end
-- ==== Proof.RefOps.lean ====
import proofs.«135979_g12610023981851_fold_wed_c4_432_5_alg».proof.Proof.Gen.ReferenceIdeal
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

-- the reference's operations in order, in six consecutive parts, a called function's body listed at its call
noncomputable abbrev ops0 : List (HloOp τ sig (Elt F)) :=
  [ StableHlo.nullary main_cst (constant S_ .f32 0x00000000#32),
    StableHlo.unary main_cst main_v0 (broadcastInDim S1024x1024 ![] bcast_S_S1024x1024),
    StableHlo.binary main_arg1 main_v0 main_v1 (cmpf .une),
    StableHlo.TRef.reshape (.of main_v1 : StableHlo.TRef sig ⟨S1024x1024, .i1⟩) main_call0.v0 rfl shapeCasts_S1024x1024_S1048576,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![1048576] ![1] ![1048575] ![0] x v reduceWindows_S1048576_S1048576_w1048576s1p1048575_0 h_S_),
    StableHlo.nullary main_c (constantI S_ 32 0#32),
    StableHlo.unary main_c main_v3 (broadcastInDim S1048576 ![] bcast_S_S1048576),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S1048576 ![] bcast_S_S1048576),
    StableHlo.TRef.binary main_call1.v1 (.of main_v2 : StableHlo.TRef sig ⟨S1048576, .i32⟩) main_call1.v2 maxsi,
    StableHlo.nullary main_c_1 (constantI S_ 32 0#32),
    StableHlo.unary main_c_1 main_v5 (broadcastInDim S1048576 ![] bcast_S_S1048576),
    StableHlo.binary main_v4 main_v5 main_v6 (cmpi .slt),
    StableHlo.nullary main_c_2 (constantI S_ 32 1048576#32),
    StableHlo.unary main_c_2 main_v7 (broadcastInDim S1048576 ![] bcast_S_S1048576),
    StableHlo.binary main_v4 main_v7 main_v8 addi,
    StableHlo.ternary main_v6 main_v8 main_v4 main_v9 select,
    StableHlo.unary main_v9 main_v10 (broadcastInDim S1048576x1 ![0] bcast_S1048576_S1048576x1_0),
    StableHlo.nullary main_c_3 (constantI S_ 32 1#32),
    StableHlo.unary main_c_3 main_v11 (broadcastInDim S1048576 ![] bcast_S_S1048576),
    StableHlo.ternary main_v3 main_v10 main_v11 main_v12 (fun x i u => Host.scatter scatter_S1048576_S1048576x1_S1048576_n_0_0_1 IntOp.addi x i u),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S1048576, .i32⟩) main_call2.call0.v0 main_call2.call0.v1 (fun x v => Host.reduceWindow IntOp.addi ![1048576] ![1] ![1048575] ![0] x v reduceWindows_S1048576_S1048576_w1048576s1p1048575_0 h_S_),
    StableHlo.nullary main_c_4 (constantI S_ 32 1024#32),
    StableHlo.TRef.unary (.of main_c_4 : StableHlo.TRef sig ⟨S_, .i32⟩) main_call3.v0 (broadcastInDim S1048576 ![] bcast_S_S1048576),
    StableHlo.TRef.binary (.of main_v13 : StableHlo.TRef sig ⟨S1048576, .i32⟩) main_call3.v0 main_call3.v1 Host.divsi,
    StableHlo.TRef.unary (.of main_v13 : StableHlo.TRef sig ⟨S1048576, .i32⟩) main_call3.v2 signi,
    StableHlo.TRef.unary (.of main_c_4 : StableHlo.TRef sig ⟨S_, .i32⟩) main_call3.v3 signi,
    StableHlo.TRef.unary main_call3.v3 main_call3.v4 (broadcastInDim S1048576 ![] bcast_S_S1048576),
    StableHlo.TRef.binary main_call3.v2 main_call3.v4 main_call3.v5 (cmpi .ne),
    StableHlo.TRef.unary (.of main_c_4 : StableHlo.TRef sig ⟨S_, .i32⟩) main_call3.v6 (broadcastInDim S1048576 ![] bcast_S_S1048576),
    StableHlo.TRef.binary (.of main_v13 : StableHlo.TRef sig ⟨S1048576, .i32⟩) main_call3.v6 main_call3.v7 Host.remsi,
    StableHlo.TRef.nullary main_call3.c (constantI S_ 32 0#32),
    StableHlo.TRef.unary main_call3.c main_call3.v8 (broadcastInDim S1048576 ![] bcast_S_S1048576),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S1048576 ![] bcast_S_S1048576),
    StableHlo.TRef.binary main_call3.v1 main_call3.v11 main_call3.v12 subi,
    StableHlo.TRef.ternary main_call3.v10 main_call3.v12 main_call3.v1 main_call3.call0.v0 select,
    StableHlo.nullary main_c_5 (constantI S_ 32 1024#32),
    StableHlo.TRef.unary (.of main_c_5 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S1048576 ![] bcast_S_S1048576),
    StableHlo.TRef.binary (.of main_v14 : StableHlo.TRef sig ⟨S1048576, .i32⟩) main_call4.v3 main_call4.v4 Host.remsi,
    StableHlo.TRef.nullary main_call4.c_1 (constantI S_ 32 0#32),
    StableHlo.TRef.unary main_call4.c_1 main_call4.v5 (broadcastInDim S1048576 ![] bcast_S_S1048576),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S1048576 ![] bcast_S_S1048576),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S1048576 ![] bcast_S_S1048576),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S1048576 ![] bcast_S_S1048576),
    StableHlo.TRef.binary main_call4.v4 main_call4.v13 main_call4.v14 addi,
    StableHlo.TRef.ternary main_call4.v12 main_call4.v14 main_call4.v4 main_call4.v15 select,
    StableHlo.nullary main_c_6 (constantI S_ 32 1#32),
    StableHlo.TRef.unary (.of main_c_6 : StableHlo.TRef sig ⟨S_, .i32⟩) main_call5.v0 (broadcastInDim S1048576 ![] bcast_S_S1048576),
    StableHlo.TRef.binary (.of main_v13 : StableHlo.TRef sig ⟨S1048576, .i32⟩) main_call5.v0 main_call5.v1 Host.divsi,
    StableHlo.TRef.unary (.of main_v13 : StableHlo.TRef sig ⟨S1048576, .i32⟩) main_call5.v2 signi,
    StableHlo.TRef.unary (.of main_c_6 : StableHlo.TRef sig ⟨S_, .i32⟩) main_call5.v3 signi,
    StableHlo.TRef.unary main_call5.v3 main_call5.v4 (broadcastInDim S1048576 ![] bcast_S_S1048576),
    StableHlo.TRef.binary main_call5.v2 main_call5.v4 main_call5.v5 (cmpi .ne),
    StableHlo.TRef.unary (.of main_c_6 : StableHlo.TRef sig ⟨S_, .i32⟩) main_call5.v6 (broadcastInDim S1048576 ![] bcast_S_S1048576),
    StableHlo.TRef.binary (.of main_v13 : StableHlo.TRef sig ⟨S1048576, .i32⟩) main_call5.v6 main_call5.v7 Host.remsi,
    StableHlo.TRef.nullary main_call5.c (constantI S_ 32 0#32),
    StableHlo.TRef.unary main_call5.c main_call5.v8 (broadcastInDim S1048576 ![] bcast_S_S1048576),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S1048576 ![] bcast_S_S1048576),
    StableHlo.TRef.binary main_call5.v1 main_call5.v11 main_call5.v12 subi,
    StableHlo.TRef.ternary main_call5.v10 main_call5.v12 main_call5.v1 main_call5.call0.v0 select,
    StableHlo.nullary main_c_7 (constantI S_ 32 1024#32),
    StableHlo.TRef.unary (.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1048576 ![] bcast_S_S1048576),
    StableHlo.TRef.binary (.of main_v16 : StableHlo.TRef sig ⟨S1048576, .i32⟩) main_call6.v3 main_call6.v4 Host.remsi,
    StableHlo.TRef.nullary main_call6.c_1 (constantI S_ 32 0#32),
    StableHlo.TRef.unary main_call6.c_1 main_call6.v5 (broadcastInDim S1048576 ![] bcast_S_S1048576),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1048576 ![] bcast_S_S1048576),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S1048576 ![] bcast_S_S1048576),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1048576 ![] bcast_S_S1048576),
    StableHlo.TRef.binary main_call6.v4 main_call6.v13 main_call6.v14 addi,
    StableHlo.TRef.ternary main_call6.v12 main_call6.v14 main_call6.v4 main_call6.v15 select,
    StableHlo.nullary main_v18 (iotaInDim S1048576 32 0),
    StableHlo.unary main_v1 main_v19 (extui 32 · natLt_1_32),
    StableHlo.nullary main_c_8 (constantI S_ 32 0#32),
    StableHlo.binary main_v19 main_c_8 main_v20 (fun x v => Host.reduce IntOp.addi x v reducesTo_S1024x1024_S_d0_1 h_S_),
    StableHlo.unary main_v20 main_v21 (broadcastInDim S1048576 ![] bcast_S_S1048576),
    StableHlo.binary main_v18 main_v21 main_v22 (cmpi .sge),
    StableHlo.nullary main_c_9 (constantI S_ 32 1024#32),
    StableHlo.TRef.unary (.of main_c_9 : StableHlo.TRef sig ⟨S_, .i32⟩) main_call7.v0 id,
    StableHlo.TRef.unary main_call7.v0 main_call7.v1 (broadcastInDim S1048576 ![] bcast_S_S1048576),
    StableHlo.TRef.ternary (.of main_v22 : StableHlo.TRef sig ⟨S1048576, .i1⟩) main_call7.v1 (.of main_v15 : StableHlo.TRef sig ⟨S1048576, .i32⟩) main_call7.v2 select,
    StableHlo.nullary main_c_10 (constantI S_ 32 1024#32),
    StableHlo.TRef.unary (.of main_c_10 : StableHlo.TRef sig ⟨S_, .i32⟩) main_call8.v0 id,
    StableHlo.TRef.unary main_call8.v0 main_call8.v1 (broadcastInDim S1048576 ![] bcast_S_S1048576),
    StableHlo.TRef.ternary (.of main_v22 : StableHlo.TRef sig ⟨S1048576, .i1⟩) main_call8.v1 (.of main_v17 : StableHlo.TRef sig ⟨S1048576, .i32⟩) main_call8.v2 select,
    StableHlo.unary main_arg2 main_v25 (extractStridedSlice S1x256x32 ![0, 0, 0] · slices_S4x256x32_S1x256x32_0_0_0),
    StableHlo.reshape main_v25 main_v26 rfl shapeCasts_S1x256x32_S256x32,
    StableHlo.unary main_arg3 main_v27 (extractStridedSlice S1x1x64 ![0, 0, 0] · slices_S4x1x64_S1x1x64_0_0_0),
    StableHlo.reshape main_v27 main_v28 rfl shapeCasts_S1x1x64_S1x64,
    StableHlo.binary main_arg0 main_v26 main_v29 (fun l r => Host.dotGeneral dot_S1024x256_S256x32_S1024x32_1_0_0_1_n_n none l r),
    StableHlo.nullary main_c_11 (constantI S_ 32 0#32),
    StableHlo.unary main_c_11 main_v30 (broadcastInDim S1048576 ![] bcast_S_S1048576),
    StableHlo.binary main_v23 main_v30 main_v31 (cmpi .slt),
    StableHlo.nullary main_c_12 (constantI S_ 32 1024#32),
    StableHlo.unary main_c_12 main_v32 (broadcastInDim S1048576 ![] bcast_S_S1048576),
    StableHlo.binary main_v23 main_v32 main_v33 addi,
    StableHlo.ternary main_v31 main_v33 main_v23 main_v34 select,
    StableHlo.unary main_v34 main_v35 (broadcastInDim S1048576x1 ![0] bcast_S1048576_S1048576x1_0),
    StableHlo.binary main_v29 main_v35 main_v36 (fun x i => Host.gather gather_S1024x32_S1048576x1_S1048576x32_1_0_n_n_0_1_132 x i),
    StableHlo.nullary main_c_13 (constantI S_ 32 0#32),
    StableHlo.unary main_c_13 main_v37 (broadcastInDim S1048576 ![] bcast_S_S1048576),
    StableHlo.binary main_v24 main_v37 main_v38 (cmpi .slt),
    StableHlo.nullary main_c_14 (constantI S_ 32 1024#32),
    StableHlo.unary main_c_14 main_v39 (broadcastInDim S1048576 ![] bcast_S_S1048576),
    StableHlo.binary main_v24 main_v39 main_v40 addi,
    StableHlo.ternary main_v38 main_v40 main_v24 main_v41 select,
    StableHlo.unary main_v41 main_v42 (broadcastInDim S1048576x1 ![0] bcast_S1048576_S1048576x1_0) ]

theorem ops0_sub : (ops0 : List (HloOp τ sig (Elt F))).Forall fun op => op.bufs ⊆ tcRefs τ sig :=
  ⟨nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., binary_bufs_sub .., unary_bufs_sub .., binary_bufs_sub .., nullary_bufs_sub .., unary_bufs_sub ..,
    unary_bufs_sub .., ternary_bufs_sub .., nullary_bufs_sub .., unary_bufs_sub .., unary_bufs_sub .., ternary_bufs_sub ..,
    unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub ..⟩

noncomputable abbrev ops1 : List (HloOp τ sig (Elt F)) :=
  [ StableHlo.binary main_v29 main_v42 main_v43 (fun x i => Host.gather gather_S1024x32_S1048576x1_S1048576x32_1_0_n_n_0_1_132 x i),
    StableHlo.binary main_v36 main_v43 main_v44 (fun a b => concatenate S1048576x64 1 [⟨S1048576x32, a⟩, ⟨S1048576x32, b⟩] concatenates_S1048576x32_S1048576x32_S1048576x64_d1),
    StableHlo.unary main_v44 main_v45 (transpose S64x1048576 [1, 0] · transposes_S1048576x64_S64x1048576_1_0),
    StableHlo.binary main_v28 main_v45 main_v46 (fun l r => Host.dotGeneral dot_S1x64_S64x1048576_S1x1048576_1_0_0_1_n_n none l r),
    StableHlo.reshape main_v46 main_v47 rfl shapeCasts_S1x1048576_S1048576,
    StableHlo.nullary main_cst_15 (constant S_ .f32 0x3E4CCCCD#32),
    StableHlo.TRef.nullary main_call9.cst (constant S_ .f32 0x00000000#32),
    StableHlo.TRef.unary main_call9.cst main_call9.v0 (broadcastInDim S1048576 ![] bcast_S_S1048576),
    StableHlo.TRef.binary (.of main_v47 : StableHlo.TRef sig ⟨S1048576, .f32⟩) main_call9.v0 main_call9.v1 (cmpf .oge),
    StableHlo.TRef.unary (.of main_cst_15 : StableHlo.TRef sig ⟨S_, .f32⟩) main_call9.v2 id,
    StableHlo.TRef.unary main_call9.v2 main_call9.v3 (broadcastInDim S1048576 ![] bcast_S_S1048576),
    StableHlo.TRef.binary main_call9.v3 (.of main_v47 : StableHlo.TRef sig ⟨S1048576, .f32⟩) main_call9.v4 mulf,
    StableHlo.TRef.ternary main_call9.v1 (.of main_v47 : StableHlo.TRef sig ⟨S1048576, .f32⟩) main_call9.v4 main_call9.call0.v0 select,
    StableHlo.unary main_v48 main_v49 Host.negf,
    StableHlo.unary main_v49 main_v50 Host.exp,
    StableHlo.nullary main_cst_16 (constant S_ .f32 0x00000000#32),
    StableHlo.unary main_cst_16 main_v51 (broadcastInDim S1024 ![] bcast_S_S1024),
    StableHlo.unary main_v23 main_v52 (broadcastInDim S1048576x1 ![0] bcast_S1048576_S1048576x1_0),
    StableHlo.ternary main_v51 main_v52 main_v50 main_v53 (fun x i u => Host.scatterAdd scatter_S1024_S1048576x1_S1048576_n_0_0_1 x i u),
    StableHlo.unary main_v53 main_v54 (broadcastInDim S1024x1 ![0] bcast_S1024_S1024x1_0),
    StableHlo.unary main_v50 main_v55 (broadcastInDim S1048576x1 ![0] bcast_S1048576_S1048576x1_0),
    StableHlo.nullary main_c_17 (constantI S_ 32 0#32),
    StableHlo.unary main_c_17 main_v56 (broadcastInDim S1048576 ![] bcast_S_S1048576),
    StableHlo.binary main_v24 main_v56 main_v57 (cmpi .slt),
    StableHlo.nullary main_c_18 (constantI S_ 32 1024#32),
    StableHlo.unary main_c_18 main_v58 (broadcastInDim S1048576 ![] bcast_S_S1048576),
    StableHlo.binary main_v24 main_v58 main_v59 addi,
    StableHlo.ternary main_v57 main_v59 main_v24 main_v60 select,
    StableHlo.unary main_v60 main_v61 (broadcastInDim S1048576x1 ![0] bcast_S1048576_S1048576x1_0),
    StableHlo.binary main_v29 main_v61 main_v62 (fun x i => Host.gather gather_S1024x32_S1048576x1_S1048576x32_1_0_n_n_0_1_132 x i),
    StableHlo.unary main_v55 main_v63 (broadcastInDim S1048576x32 ![0, 1] bcast_S1048576x1_S1048576x32_0_1),
    StableHlo.binary main_v63 main_v62 main_v64 mulf,
    StableHlo.nullary main_cst_19 (constant S_ .f32 0x00000000#32),
    StableHlo.unary main_cst_19 main_v65 (broadcastInDim S1024x32 ![] bcast_S_S1024x32),
    StableHlo.unary main_v23 main_v66 (broadcastInDim S1048576x1 ![0] bcast_S1048576_S1048576x1_0),
    StableHlo.ternary main_v65 main_v66 main_v64 main_v67 (fun x i u => Host.scatterAdd scatter_S1024x32_S1048576x1_S1048576x32_1_0_0_1 x i u),
    StableHlo.unary main_v54 main_v68 (broadcastInDim S1024x32 ![0, 1] bcast_S1024x1_S1024x32_0_1),
    StableHlo.binary main_v67 main_v68 main_v69 Host.divf,
    StableHlo.TRef.nullary main_call10.cst (constant S_ .f32 0x00000000#32),
    StableHlo.TRef.unary main_call10.cst main_call10.v0 (broadcastInDim S1024x32 ![] bcast_S_S1024x32),
    StableHlo.TRef.binary (.of main_v69 : StableHlo.TRef sig ⟨S1024x32, .f32⟩) main_call10.v0 main_call10.v1 (cmpf .ogt),
    StableHlo.TRef.nullary main_call10.cst_0 (constant S_ .f32 0x00000000#32),
    StableHlo.TRef.unary main_call10.cst_0 main_call10.v2 (broadcastInDim S1024x32 ![] bcast_S_S1024x32),
    StableHlo.TRef.binary (.of main_v69 : StableHlo.TRef sig ⟨S1024x32, .f32⟩) main_call10.v2 main_call10.v3 (cmpf .ogt),
    StableHlo.TRef.nullary main_call10.cst_1 (constant S_ .f32 0x00000000#32),
    StableHlo.TRef.unary main_call10.cst_1 main_call10.call0.v0 id,
    StableHlo.TRef.unary main_call10.call0.v0 main_call10.call0.v1 (broadcastInDim S1024x32 ![] bcast_S_S1024x32),
    StableHlo.TRef.ternary main_call10.v3 main_call10.call0.v1 (.of main_v69 : StableHlo.TRef sig ⟨S1024x32, .f32⟩) main_call10.call0.v2 select,
    StableHlo.TRef.unary main_call10.call0.v2 main_call10.v5 Host.expm1,
    StableHlo.TRef.nullary main_call10.cst_2 (constant S_ .f32 0x3F800000#32),
    StableHlo.TRef.unary main_call10.cst_2 main_call10.v6 (broadcastInDim S1024x32 ![] bcast_S_S1024x32),
    StableHlo.TRef.binary main_call10.v6 main_call10.v5 main_call10.v7 mulf,
    StableHlo.TRef.ternary main_call10.v1 (.of main_v69 : StableHlo.TRef sig ⟨S1024x32, .f32⟩) main_call10.v7 main_call10.call1.v0 select,
    StableHlo.unary main_arg2 main_v71 (extractStridedSlice S1x256x32 ![1, 0, 0] · slices_S4x256x32_S1x256x32_1_0_0),
    StableHlo.reshape main_v71 main_v72 rfl shapeCasts_S1x256x32_S256x32,
    StableHlo.unary main_arg3 main_v73 (extractStridedSlice S1x1x64 ![1, 0, 0] · slices_S4x1x64_S1x1x64_1_0_0),
    StableHlo.reshape main_v73 main_v74 rfl shapeCasts_S1x1x64_S1x64,
    StableHlo.binary main_arg0 main_v72 main_v75 (fun l r => Host.dotGeneral dot_S1024x256_S256x32_S1024x32_1_0_0_1_n_n none l r),
    StableHlo.nullary main_c_20 (constantI S_ 32 0#32),
    StableHlo.unary main_c_20 main_v76 (broadcastInDim S1048576 ![] bcast_S_S1048576),
    StableHlo.binary main_v23 main_v76 main_v77 (cmpi .slt),
    StableHlo.nullary main_c_21 (constantI S_ 32 1024#32),
    StableHlo.unary main_c_21 main_v78 (broadcastInDim S1048576 ![] bcast_S_S1048576),
    StableHlo.binary main_v23 main_v78 main_v79 addi,
    StableHlo.ternary main_v77 main_v79 main_v23 main_v80 select,
    StableHlo.unary main_v80 main_v81 (broadcastInDim S1048576x1 ![0] bcast_S1048576_S1048576x1_0),
    StableHlo.binary main_v75 main_v81 main_v82 (fun x i => Host.gather gather_S1024x32_S1048576x1_S1048576x32_1_0_n_n_0_1_132 x i),
    StableHlo.nullary main_c_22 (constantI S_ 32 0#32),
    StableHlo.unary main_c_22 main_v83 (broadcastInDim S1048576 ![] bcast_S_S1048576),
    StableHlo.binary main_v24 main_v83 main_v84 (cmpi .slt),
    StableHlo.nullary main_c_23 (constantI S_ 32 1024#32),
    StableHlo.unary main_c_23 main_v85 (broadcastInDim S1048576 ![] bcast_S_S1048576),
    StableHlo.binary main_v24 main_v85 main_v86 addi,
    StableHlo.ternary main_v84 main_v86 main_v24 main_v87 select,
    StableHlo.unary main_v87 main_v88 (broadcastInDim S1048576x1 ![0] bcast_S1048576_S1048576x1_0),
    StableHlo.binary main_v75 main_v88 main_v89 (fun x i => Host.gather gather_S1024x32_S1048576x1_S1048576x32_1_0_n_n_0_1_132 x i),
    StableHlo.binary main_v82 main_v89 main_v90 (fun a b => concatenate S1048576x64 1 [⟨S1048576x32, a⟩, ⟨S1048576x32, b⟩] concatenates_S1048576x32_S1048576x32_S1048576x64_d1),
    StableHlo.unary main_v90 main_v91 (transpose S64x1048576 [1, 0] · transposes_S1048576x64_S64x1048576_1_0),
    StableHlo.binary main_v74 main_v91 main_v92 (fun l r => Host.dotGeneral dot_S1x64_S64x1048576_S1x1048576_1_0_0_1_n_n none l r),
    StableHlo.reshape main_v92 main_v93 rfl shapeCasts_S1x1048576_S1048576 ]

theorem ops1_sub : (ops1 : List (HloOp τ sig (Elt F))).Forall fun op => op.bufs ⊆ tcRefs τ sig :=
  ⟨binary_bufs_sub .., binary_bufs_sub .., unary_bufs_sub .., binary_bufs_sub .., reshape_bufs_sub .., nullary_bufs_sub ..,
    nullary_bufs_sub .., unary_bufs_sub .., binary_bufs_sub .., unary_bufs_sub .., unary_bufs_sub .., binary_bufs_sub ..,
    ternary_bufs_sub .., unary_bufs_sub .., unary_bufs_sub .., nullary_bufs_sub .., unary_bufs_sub .., unary_bufs_sub ..,
    ternary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    reshape_bufs_sub .., unary_bufs_sub .., reshape_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., reshape_bufs_sub ..⟩

noncomputable abbrev ops2 : List (HloOp τ sig (Elt F)) :=
  [ StableHlo.nullary main_cst_24 (constant S_ .f32 0x3E4CCCCD#32),
    StableHlo.TRef.nullary main_call11.cst (constant S_ .f32 0x00000000#32),
    StableHlo.TRef.unary main_call11.cst main_call11.v0 (broadcastInDim S1048576 ![] bcast_S_S1048576),
    StableHlo.TRef.binary (.of main_v93 : StableHlo.TRef sig ⟨S1048576, .f32⟩) main_call11.v0 main_call11.v1 (cmpf .oge),
    StableHlo.TRef.unary (.of main_cst_24 : StableHlo.TRef sig ⟨S_, .f32⟩) main_call11.v2 id,
    StableHlo.TRef.unary main_call11.v2 main_call11.v3 (broadcastInDim S1048576 ![] bcast_S_S1048576),
    StableHlo.TRef.binary main_call11.v3 (.of main_v93 : StableHlo.TRef sig ⟨S1048576, .f32⟩) main_call11.v4 mulf,
    StableHlo.TRef.ternary main_call11.v1 (.of main_v93 : StableHlo.TRef sig ⟨S1048576, .f32⟩) main_call11.v4 main_call11.call0.v0 select,
    StableHlo.unary main_v94 main_v95 Host.negf,
    StableHlo.unary main_v95 main_v96 Host.exp,
    StableHlo.nullary main_cst_25 (constant S_ .f32 0x00000000#32),
    StableHlo.unary main_cst_25 main_v97 (broadcastInDim S1024 ![] bcast_S_S1024),
    StableHlo.unary main_v23 main_v98 (broadcastInDim S1048576x1 ![0] bcast_S1048576_S1048576x1_0),
    StableHlo.ternary main_v97 main_v98 main_v96 main_v99 (fun x i u => Host.scatterAdd scatter_S1024_S1048576x1_S1048576_n_0_0_1 x i u),
    StableHlo.unary main_v99 main_v100 (broadcastInDim S1024x1 ![0] bcast_S1024_S1024x1_0),
    StableHlo.unary main_v96 main_v101 (broadcastInDim S1048576x1 ![0] bcast_S1048576_S1048576x1_0),
    StableHlo.nullary main_c_26 (constantI S_ 32 0#32),
    StableHlo.unary main_c_26 main_v102 (broadcastInDim S1048576 ![] bcast_S_S1048576),
    StableHlo.binary main_v24 main_v102 main_v103 (cmpi .slt),
    StableHlo.nullary main_c_27 (constantI S_ 32 1024#32),
    StableHlo.unary main_c_27 main_v104 (broadcastInDim S1048576 ![] bcast_S_S1048576),
    StableHlo.binary main_v24 main_v104 main_v105 addi,
    StableHlo.ternary main_v103 main_v105 main_v24 main_v106 select,
    StableHlo.unary main_v106 main_v107 (broadcastInDim S1048576x1 ![0] bcast_S1048576_S1048576x1_0),
    StableHlo.binary main_v75 main_v107 main_v108 (fun x i => Host.gather gather_S1024x32_S1048576x1_S1048576x32_1_0_n_n_0_1_132 x i),
    StableHlo.unary main_v101 main_v109 (broadcastInDim S1048576x32 ![0, 1] bcast_S1048576x1_S1048576x32_0_1),
    StableHlo.binary main_v109 main_v108 main_v110 mulf,
    StableHlo.nullary main_cst_28 (constant S_ .f32 0x00000000#32),
    StableHlo.unary main_cst_28 main_v111 (broadcastInDim S1024x32 ![] bcast_S_S1024x32),
    StableHlo.unary main_v23 main_v112 (broadcastInDim S1048576x1 ![0] bcast_S1048576_S1048576x1_0),
    StableHlo.ternary main_v111 main_v112 main_v110 main_v113 (fun x i u => Host.scatterAdd scatter_S1024x32_S1048576x1_S1048576x32_1_0_0_1 x i u),
    StableHlo.unary main_v100 main_v114 (broadcastInDim S1024x32 ![0, 1] bcast_S1024x1_S1024x32_0_1),
    StableHlo.binary main_v113 main_v114 main_v115 Host.divf,
    StableHlo.TRef.nullary main_call12.cst (constant S_ .f32 0x00000000#32),
    StableHlo.TRef.unary main_call12.cst main_call12.v0 (broadcastInDim S1024x32 ![] bcast_S_S1024x32),
    StableHlo.TRef.binary (.of main_v115 : StableHlo.TRef sig ⟨S1024x32, .f32⟩) main_call12.v0 main_call12.v1 (cmpf .ogt),
    StableHlo.TRef.nullary main_call12.cst_0 (constant S_ .f32 0x00000000#32),
    StableHlo.TRef.unary main_call12.cst_0 main_call12.v2 (broadcastInDim S1024x32 ![] bcast_S_S1024x32),
    StableHlo.TRef.binary (.of main_v115 : StableHlo.TRef sig ⟨S1024x32, .f32⟩) main_call12.v2 main_call12.v3 (cmpf .ogt),
    StableHlo.TRef.nullary main_call12.cst_1 (constant S_ .f32 0x00000000#32),
    StableHlo.TRef.unary main_call12.cst_1 main_call12.call0.v0 id,
    StableHlo.TRef.unary main_call12.call0.v0 main_call12.call0.v1 (broadcastInDim S1024x32 ![] bcast_S_S1024x32),
    StableHlo.TRef.ternary main_call12.v3 main_call12.call0.v1 (.of main_v115 : StableHlo.TRef sig ⟨S1024x32, .f32⟩) main_call12.call0.v2 select,
    StableHlo.TRef.unary main_call12.call0.v2 main_call12.v5 Host.expm1,
    StableHlo.TRef.nullary main_call12.cst_2 (constant S_ .f32 0x3F800000#32),
    StableHlo.TRef.unary main_call12.cst_2 main_call12.v6 (broadcastInDim S1024x32 ![] bcast_S_S1024x32),
    StableHlo.TRef.binary main_call12.v6 main_call12.v5 main_call12.v7 mulf,
    StableHlo.TRef.ternary main_call12.v1 (.of main_v115 : StableHlo.TRef sig ⟨S1024x32, .f32⟩) main_call12.v7 main_call12.call1.v0 select,
    StableHlo.unary main_arg2 main_v117 (extractStridedSlice S1x256x32 ![2, 0, 0] · slices_S4x256x32_S1x256x32_2_0_0),
    StableHlo.reshape main_v117 main_v118 rfl shapeCasts_S1x256x32_S256x32,
    StableHlo.unary main_arg3 main_v119 (extractStridedSlice S1x1x64 ![2, 0, 0] · slices_S4x1x64_S1x1x64_2_0_0),
    StableHlo.reshape main_v119 main_v120 rfl shapeCasts_S1x1x64_S1x64,
    StableHlo.binary main_arg0 main_v118 main_v121 (fun l r => Host.dotGeneral dot_S1024x256_S256x32_S1024x32_1_0_0_1_n_n none l r),
    StableHlo.nullary main_c_29 (constantI S_ 32 0#32),
    StableHlo.unary main_c_29 main_v122 (broadcastInDim S1048576 ![] bcast_S_S1048576),
    StableHlo.binary main_v23 main_v122 main_v123 (cmpi .slt),
    StableHlo.nullary main_c_30 (constantI S_ 32 1024#32),
    StableHlo.unary main_c_30 main_v124 (broadcastInDim S1048576 ![] bcast_S_S1048576),
    StableHlo.binary main_v23 main_v124 main_v125 addi,
    StableHlo.ternary main_v123 main_v125 main_v23 main_v126 select,
    StableHlo.unary main_v126 main_v127 (broadcastInDim S1048576x1 ![0] bcast_S1048576_S1048576x1_0),
    StableHlo.binary main_v121 main_v127 main_v128 (fun x i => Host.gather gather_S1024x32_S1048576x1_S1048576x32_1_0_n_n_0_1_132 x i),
    StableHlo.nullary main_c_31 (constantI S_ 32 0#32),
    StableHlo.unary main_c_31 main_v129 (broadcastInDim S1048576 ![] bcast_S_S1048576),
    StableHlo.binary main_v24 main_v129 main_v130 (cmpi .slt),
    StableHlo.nullary main_c_32 (constantI S_ 32 1024#32),
    StableHlo.unary main_c_32 main_v131 (broadcastInDim S1048576 ![] bcast_S_S1048576),
    StableHlo.binary main_v24 main_v131 main_v132 addi,
    StableHlo.ternary main_v130 main_v132 main_v24 main_v133 select,
    StableHlo.unary main_v133 main_v134 (broadcastInDim S1048576x1 ![0] bcast_S1048576_S1048576x1_0),
    StableHlo.binary main_v121 main_v134 main_v135 (fun x i => Host.gather gather_S1024x32_S1048576x1_S1048576x32_1_0_n_n_0_1_132 x i),
    StableHlo.binary main_v128 main_v135 main_v136 (fun a b => concatenate S1048576x64 1 [⟨S1048576x32, a⟩, ⟨S1048576x32, b⟩] concatenates_S1048576x32_S1048576x32_S1048576x64_d1),
    StableHlo.unary main_v136 main_v137 (transpose S64x1048576 [1, 0] · transposes_S1048576x64_S64x1048576_1_0),
    StableHlo.binary main_v120 main_v137 main_v138 (fun l r => Host.dotGeneral dot_S1x64_S64x1048576_S1x1048576_1_0_0_1_n_n none l r),
    StableHlo.reshape main_v138 main_v139 rfl shapeCasts_S1x1048576_S1048576,
    StableHlo.nullary main_cst_33 (constant S_ .f32 0x3E4CCCCD#32),
    StableHlo.TRef.nullary main_call13.cst (constant S_ .f32 0x00000000#32),
    StableHlo.TRef.unary main_call13.cst main_call13.v0 (broadcastInDim S1048576 ![] bcast_S_S1048576),
    StableHlo.TRef.binary (.of main_v139 : StableHlo.TRef sig ⟨S1048576, .f32⟩) main_call13.v0 main_call13.v1 (cmpf .oge),
    StableHlo.TRef.unary (.of main_cst_33 : StableHlo.TRef sig ⟨S_, .f32⟩) main_call13.v2 id,
    StableHlo.TRef.unary main_call13.v2 main_call13.v3 (broadcastInDim S1048576 ![] bcast_S_S1048576),
    StableHlo.TRef.binary main_call13.v3 (.of main_v139 : StableHlo.TRef sig ⟨S1048576, .f32⟩) main_call13.v4 mulf,
    StableHlo.TRef.ternary main_call13.v1 (.of main_v139 : StableHlo.TRef sig ⟨S1048576, .f32⟩) main_call13.v4 main_call13.call0.v0 select,
    StableHlo.unary main_v140 main_v141 Host.negf,
    StableHlo.unary main_v141 main_v142 Host.exp,
    StableHlo.nullary main_cst_34 (constant S_ .f32 0x00000000#32) ]

theorem ops2_sub : (ops2 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub .., unary_bufs_sub .., unary_bufs_sub .., nullary_bufs_sub .., unary_bufs_sub ..,
    unary_bufs_sub .., ternary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., binary_bufs_sub .., reshape_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., nullary_bufs_sub ..⟩

noncomputable abbrev ops3 : List (HloOp τ sig (Elt F)) :=
  [ StableHlo.unary main_cst_34 main_v143 (broadcastInDim S1024 ![] bcast_S_S1024),
    StableHlo.unary main_v23 main_v144 (broadcastInDim S1048576x1 ![0] bcast_S1048576_S1048576x1_0),
    StableHlo.ternary main_v143 main_v144 main_v142 main_v145 (fun x i u => Host.scatterAdd scatter_S1024_S1048576x1_S1048576_n_0_0_1 x i u),
    StableHlo.unary main_v145 main_v146 (broadcastInDim S1024x1 ![0] bcast_S1024_S1024x1_0),
    StableHlo.unary main_v142 main_v147 (broadcastInDim S1048576x1 ![0] bcast_S1048576_S1048576x1_0),
    StableHlo.nullary main_c_35 (constantI S_ 32 0#32),
    StableHlo.unary main_c_35 main_v148 (broadcastInDim S1048576 ![] bcast_S_S1048576),
    StableHlo.binary main_v24 main_v148 main_v149 (cmpi .slt),
    StableHlo.nullary main_c_36 (constantI S_ 32 1024#32),
    StableHlo.unary main_c_36 main_v150 (broadcastInDim S1048576 ![] bcast_S_S1048576),
    StableHlo.binary main_v24 main_v150 main_v151 addi,
    StableHlo.ternary main_v149 main_v151 main_v24 main_v152 select,
    StableHlo.unary main_v152 main_v153 (broadcastInDim S1048576x1 ![0] bcast_S1048576_S1048576x1_0),
    StableHlo.binary main_v121 main_v153 main_v154 (fun x i => Host.gather gather_S1024x32_S1048576x1_S1048576x32_1_0_n_n_0_1_132 x i),
    StableHlo.unary main_v147 main_v155 (broadcastInDim S1048576x32 ![0, 1] bcast_S1048576x1_S1048576x32_0_1),
    StableHlo.binary main_v155 main_v154 main_v156 mulf,
    StableHlo.nullary main_cst_37 (constant S_ .f32 0x00000000#32),
    StableHlo.unary main_cst_37 main_v157 (broadcastInDim S1024x32 ![] bcast_S_S1024x32),
    StableHlo.unary main_v23 main_v158 (broadcastInDim S1048576x1 ![0] bcast_S1048576_S1048576x1_0),
    StableHlo.ternary main_v157 main_v158 main_v156 main_v159 (fun x i u => Host.scatterAdd scatter_S1024x32_S1048576x1_S1048576x32_1_0_0_1 x i u),
    StableHlo.unary main_v146 main_v160 (broadcastInDim S1024x32 ![0, 1] bcast_S1024x1_S1024x32_0_1),
    StableHlo.binary main_v159 main_v160 main_v161 Host.divf,
    StableHlo.TRef.nullary main_call14.cst (constant S_ .f32 0x00000000#32),
    StableHlo.TRef.unary main_call14.cst main_call14.v0 (broadcastInDim S1024x32 ![] bcast_S_S1024x32),
    StableHlo.TRef.binary (.of main_v161 : StableHlo.TRef sig ⟨S1024x32, .f32⟩) main_call14.v0 main_call14.v1 (cmpf .ogt),
    StableHlo.TRef.nullary main_call14.cst_0 (constant S_ .f32 0x00000000#32),
    StableHlo.TRef.unary main_call14.cst_0 main_call14.v2 (broadcastInDim S1024x32 ![] bcast_S_S1024x32),
    StableHlo.TRef.binary (.of main_v161 : StableHlo.TRef sig ⟨S1024x32, .f32⟩) main_call14.v2 main_call14.v3 (cmpf .ogt),
    StableHlo.TRef.nullary main_call14.cst_1 (constant S_ .f32 0x00000000#32),
    StableHlo.TRef.unary main_call14.cst_1 main_call14.call0.v0 id,
    StableHlo.TRef.unary main_call14.call0.v0 main_call14.call0.v1 (broadcastInDim S1024x32 ![] bcast_S_S1024x32),
    StableHlo.TRef.ternary main_call14.v3 main_call14.call0.v1 (.of main_v161 : StableHlo.TRef sig ⟨S1024x32, .f32⟩) main_call14.call0.v2 select,
    StableHlo.TRef.unary main_call14.call0.v2 main_call14.v5 Host.expm1,
    StableHlo.TRef.nullary main_call14.cst_2 (constant S_ .f32 0x3F800000#32),
    StableHlo.TRef.unary main_call14.cst_2 main_call14.v6 (broadcastInDim S1024x32 ![] bcast_S_S1024x32),
    StableHlo.TRef.binary main_call14.v6 main_call14.v5 main_call14.v7 mulf,
    StableHlo.TRef.ternary main_call14.v1 (.of main_v161 : StableHlo.TRef sig ⟨S1024x32, .f32⟩) main_call14.v7 main_call14.call1.v0 select,
    StableHlo.unary main_arg2 main_v163 (extractStridedSlice S1x256x32 ![3, 0, 0] · slices_S4x256x32_S1x256x32_3_0_0),
    StableHlo.reshape main_v163 main_v164 rfl shapeCasts_S1x256x32_S256x32,
    StableHlo.unary main_arg3 main_v165 (extractStridedSlice S1x1x64 ![3, 0, 0] · slices_S4x1x64_S1x1x64_3_0_0),
    StableHlo.reshape main_v165 main_v166 rfl shapeCasts_S1x1x64_S1x64,
    StableHlo.binary main_arg0 main_v164 main_v167 (fun l r => Host.dotGeneral dot_S1024x256_S256x32_S1024x32_1_0_0_1_n_n none l r),
    StableHlo.nullary main_c_38 (constantI S_ 32 0#32),
    StableHlo.unary main_c_38 main_v168 (broadcastInDim S1048576 ![] bcast_S_S1048576),
    StableHlo.binary main_v23 main_v168 main_v169 (cmpi .slt),
    StableHlo.nullary main_c_39 (constantI S_ 32 1024#32),
    StableHlo.unary main_c_39 main_v170 (broadcastInDim S1048576 ![] bcast_S_S1048576),
    StableHlo.binary main_v23 main_v170 main_v171 addi,
    StableHlo.ternary main_v169 main_v171 main_v23 main_v172 select,
    StableHlo.unary main_v172 main_v173 (broadcastInDim S1048576x1 ![0] bcast_S1048576_S1048576x1_0),
    StableHlo.binary main_v167 main_v173 main_v174 (fun x i => Host.gather gather_S1024x32_S1048576x1_S1048576x32_1_0_n_n_0_1_132 x i),
    StableHlo.nullary main_c_40 (constantI S_ 32 0#32),
    StableHlo.unary main_c_40 main_v175 (broadcastInDim S1048576 ![] bcast_S_S1048576),
    StableHlo.binary main_v24 main_v175 main_v176 (cmpi .slt),
    StableHlo.nullary main_c_41 (constantI S_ 32 1024#32),
    StableHlo.unary main_c_41 main_v177 (broadcastInDim S1048576 ![] bcast_S_S1048576),
    StableHlo.binary main_v24 main_v177 main_v178 addi,
    StableHlo.ternary main_v176 main_v178 main_v24 main_v179 select,
    StableHlo.unary main_v179 main_v180 (broadcastInDim S1048576x1 ![0] bcast_S1048576_S1048576x1_0),
    StableHlo.binary main_v167 main_v180 main_v181 (fun x i => Host.gather gather_S1024x32_S1048576x1_S1048576x32_1_0_n_n_0_1_132 x i),
    StableHlo.binary main_v174 main_v181 main_v182 (fun a b => concatenate S1048576x64 1 [⟨S1048576x32, a⟩, ⟨S1048576x32, b⟩] concatenates_S1048576x32_S1048576x32_S1048576x64_d1),
    StableHlo.unary main_v182 main_v183 (transpose S64x1048576 [1, 0] · transposes_S1048576x64_S64x1048576_1_0),
    StableHlo.binary main_v166 main_v183 main_v184 (fun l r => Host.dotGeneral dot_S1x64_S64x1048576_S1x1048576_1_0_0_1_n_n none l r),
    StableHlo.reshape main_v184 main_v185 rfl shapeCasts_S1x1048576_S1048576,
    StableHlo.nullary main_cst_42 (constant S_ .f32 0x3E4CCCCD#32),
    StableHlo.TRef.nullary main_call15.cst (constant S_ .f32 0x00000000#32),
    StableHlo.TRef.unary main_call15.cst main_call15.v0 (broadcastInDim S1048576 ![] bcast_S_S1048576),
    StableHlo.TRef.binary (.of main_v185 : StableHlo.TRef sig ⟨S1048576, .f32⟩) main_call15.v0 main_call15.v1 (cmpf .oge),
    StableHlo.TRef.unary (.of main_cst_42 : StableHlo.TRef sig ⟨S_, .f32⟩) main_call15.v2 id,
    StableHlo.TRef.unary main_call15.v2 main_call15.v3 (broadcastInDim S1048576 ![] bcast_S_S1048576),
    StableHlo.TRef.binary main_call15.v3 (.of main_v185 : StableHlo.TRef sig ⟨S1048576, .f32⟩) main_call15.v4 mulf,
    StableHlo.TRef.ternary main_call15.v1 (.of main_v185 : StableHlo.TRef sig ⟨S1048576, .f32⟩) main_call15.v4 main_call15.call0.v0 select,
    StableHlo.unary main_v186 main_v187 Host.negf,
    StableHlo.unary main_v187 main_v188 Host.exp,
    StableHlo.nullary main_cst_43 (constant S_ .f32 0x00000000#32),
    StableHlo.unary main_cst_43 main_v189 (broadcastInDim S1024 ![] bcast_S_S1024),
    StableHlo.unary main_v23 main_v190 (broadcastInDim S1048576x1 ![0] bcast_S1048576_S1048576x1_0),
    StableHlo.ternary main_v189 main_v190 main_v188 main_v191 (fun x i u => Host.scatterAdd scatter_S1024_S1048576x1_S1048576_n_0_0_1 x i u),
    StableHlo.unary main_v191 main_v192 (broadcastInDim S1024x1 ![0] bcast_S1024_S1024x1_0),
    StableHlo.unary main_v188 main_v193 (broadcastInDim S1048576x1 ![0] bcast_S1048576_S1048576x1_0) ]

theorem ops3_sub : (ops3 : List (HloOp τ sig (Elt F))).Forall fun op => op.bufs ⊆ tcRefs τ sig :=
  ⟨unary_bufs_sub .., unary_bufs_sub .., ternary_bufs_sub .., unary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., unary_bufs_sub .., reshape_bufs_sub .., unary_bufs_sub .., reshape_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., binary_bufs_sub .., reshape_bufs_sub .., nullary_bufs_sub .., nullary_bufs_sub ..,
    unary_bufs_sub .., binary_bufs_sub .., unary_bufs_sub .., unary_bufs_sub .., binary_bufs_sub .., ternary_bufs_sub ..,
    unary_bufs_sub .., unary_bufs_sub .., nullary_bufs_sub .., unary_bufs_sub .., unary_bufs_sub .., ternary_bufs_sub ..,
    unary_bufs_sub .., unary_bufs_sub ..⟩

noncomputable abbrev ops4 : List (HloOp τ sig (Elt F)) :=
  [ StableHlo.nullary main_c_44 (constantI S_ 32 0#32),
    StableHlo.unary main_c_44 main_v194 (broadcastInDim S1048576 ![] bcast_S_S1048576),
    StableHlo.binary main_v24 main_v194 main_v195 (cmpi .slt),
    StableHlo.nullary main_c_45 (constantI S_ 32 1024#32),
    StableHlo.unary main_c_45 main_v196 (broadcastInDim S1048576 ![] bcast_S_S1048576),
    StableHlo.binary main_v24 main_v196 main_v197 addi,
    StableHlo.ternary main_v195 main_v197 main_v24 main_v198 select,
    StableHlo.unary main_v198 main_v199 (broadcastInDim S1048576x1 ![0] bcast_S1048576_S1048576x1_0),
    StableHlo.binary main_v167 main_v199 main_v200 (fun x i => Host.gather gather_S1024x32_S1048576x1_S1048576x32_1_0_n_n_0_1_132 x i),
    StableHlo.unary main_v193 main_v201 (broadcastInDim S1048576x32 ![0, 1] bcast_S1048576x1_S1048576x32_0_1),
    StableHlo.binary main_v201 main_v200 main_v202 mulf,
    StableHlo.nullary main_cst_46 (constant S_ .f32 0x00000000#32),
    StableHlo.unary main_cst_46 main_v203 (broadcastInDim S1024x32 ![] bcast_S_S1024x32),
    StableHlo.unary main_v23 main_v204 (broadcastInDim S1048576x1 ![0] bcast_S1048576_S1048576x1_0),
    StableHlo.ternary main_v203 main_v204 main_v202 main_v205 (fun x i u => Host.scatterAdd scatter_S1024x32_S1048576x1_S1048576x32_1_0_0_1 x i u),
    StableHlo.unary main_v192 main_v206 (broadcastInDim S1024x32 ![0, 1] bcast_S1024x1_S1024x32_0_1),
    StableHlo.binary main_v205 main_v206 main_v207 Host.divf,
    StableHlo.TRef.nullary main_call16.cst (constant S_ .f32 0x00000000#32),
    StableHlo.TRef.unary main_call16.cst main_call16.v0 (broadcastInDim S1024x32 ![] bcast_S_S1024x32),
    StableHlo.TRef.binary (.of main_v207 : StableHlo.TRef sig ⟨S1024x32, .f32⟩) main_call16.v0 main_call16.v1 (cmpf .ogt),
    StableHlo.TRef.nullary main_call16.cst_0 (constant S_ .f32 0x00000000#32),
    StableHlo.TRef.unary main_call16.cst_0 main_call16.v2 (broadcastInDim S1024x32 ![] bcast_S_S1024x32),
    StableHlo.TRef.binary (.of main_v207 : StableHlo.TRef sig ⟨S1024x32, .f32⟩) main_call16.v2 main_call16.v3 (cmpf .ogt),
    StableHlo.TRef.nullary main_call16.cst_1 (constant S_ .f32 0x00000000#32),
    StableHlo.TRef.unary main_call16.cst_1 main_call16.call0.v0 id,
    StableHlo.TRef.unary main_call16.call0.v0 main_call16.call0.v1 (broadcastInDim S1024x32 ![] bcast_S_S1024x32),
    StableHlo.TRef.ternary main_call16.v3 main_call16.call0.v1 (.of main_v207 : StableHlo.TRef sig ⟨S1024x32, .f32⟩) main_call16.call0.v2 select,
    StableHlo.TRef.unary main_call16.call0.v2 main_call16.v5 Host.expm1,
    StableHlo.TRef.nullary main_call16.cst_2 (constant S_ .f32 0x3F800000#32),
    StableHlo.TRef.unary main_call16.cst_2 main_call16.v6 (broadcastInDim S1024x32 ![] bcast_S_S1024x32),
    StableHlo.TRef.binary main_call16.v6 main_call16.v5 main_call16.v7 mulf,
    StableHlo.TRef.ternary main_call16.v1 (.of main_v207 : StableHlo.TRef sig ⟨S1024x32, .f32⟩) main_call16.v7 main_call16.call1.v0 select,
    StableHlo.nary ![main_v70, main_v116, main_v162, main_v208] main_v209 (fun u => concatenate S1024x128 1 [⟨S1024x32, u 0⟩, ⟨S1024x32, u 1⟩, ⟨S1024x32, u 2⟩, ⟨S1024x32, u 3⟩] concatenates_S1024x32_S1024x32_S1024x32_S1024x32_S1024x128_d1),
    StableHlo.binary main_v209 main_arg4 main_v210 (fun l r => Host.dotGeneral dot_S1024x128_S128x1_S1024x1_1_0_0_1_n_n none l r),
    StableHlo.nullary main_c_47 (constantI S_ 32 0#32),
    StableHlo.unary main_c_47 main_v211 (broadcastInDim S1048576 ![] bcast_S_S1048576),
    StableHlo.binary main_v23 main_v211 main_v212 (cmpi .slt),
    StableHlo.nullary main_c_48 (constantI S_ 32 1024#32),
    StableHlo.unary main_c_48 main_v213 (broadcastInDim S1048576 ![] bcast_S_S1048576),
    StableHlo.binary main_v23 main_v213 main_v214 addi,
    StableHlo.ternary main_v212 main_v214 main_v23 main_v215 select,
    StableHlo.unary main_v215 main_v216 (broadcastInDim S1048576x1 ![0] bcast_S1048576_S1048576x1_0),
    StableHlo.binary main_v210 main_v216 main_v217 (fun x i => Host.gather gather_S1024x1_S1048576x1_S1048576x1_1_0_n_n_0_1_11 x i),
    StableHlo.nullary main_c_49 (constantI S_ 32 0#32),
    StableHlo.unary main_c_49 main_v218 (broadcastInDim S1048576 ![] bcast_S_S1048576),
    StableHlo.binary main_v24 main_v218 main_v219 (cmpi .slt),
    StableHlo.nullary main_c_50 (constantI S_ 32 1024#32),
    StableHlo.unary main_c_50 main_v220 (broadcastInDim S1048576 ![] bcast_S_S1048576),
    StableHlo.binary main_v24 main_v220 main_v221 addi,
    StableHlo.ternary main_v219 main_v221 main_v24 main_v222 select,
    StableHlo.unary main_v222 main_v223 (broadcastInDim S1048576x1 ![0] bcast_S1048576_S1048576x1_0),
    StableHlo.binary main_v210 main_v223 main_v224 (fun x i => Host.gather gather_S1024x1_S1048576x1_S1048576x1_1_0_n_n_0_1_11 x i),
    StableHlo.binary main_v217 main_v224 main_v225 (fun a b => concatenate S1048576x2 1 [⟨S1048576x1, a⟩, ⟨S1048576x1, b⟩] concatenates_S1048576x1_S1048576x1_S1048576x2_d1),
    StableHlo.unary main_v225 main_v226 (transpose S2x1048576 [1, 0] · transposes_S1048576x2_S2x1048576_1_0),
    StableHlo.binary main_arg5 main_v226 main_v227 (fun l r => Host.dotGeneral dot_S1x2_S2x1048576_S1x1048576_1_0_0_1_n_n none l r),
    StableHlo.reshape main_v227 main_v228 rfl shapeCasts_S1x1048576_S1048576,
    StableHlo.nullary main_cst_51 (constant S_ .f32 0x3E4CCCCD#32),
    StableHlo.TRef.nullary main_call17.cst (constant S_ .f32 0x00000000#32),
    StableHlo.TRef.unary main_call17.cst main_call17.v0 (broadcastInDim S1048576 ![] bcast_S_S1048576),
    StableHlo.TRef.binary (.of main_v228 : StableHlo.TRef sig ⟨S1048576, .f32⟩) main_call17.v0 main_call17.v1 (cmpf .oge),
    StableHlo.TRef.unary (.of main_cst_51 : StableHlo.TRef sig ⟨S_, .f32⟩) main_call17.v2 id,
    StableHlo.TRef.unary main_call17.v2 main_call17.v3 (broadcastInDim S1048576 ![] bcast_S_S1048576),
    StableHlo.TRef.binary main_call17.v3 (.of main_v228 : StableHlo.TRef sig ⟨S1048576, .f32⟩) main_call17.v4 mulf,
    StableHlo.TRef.ternary main_call17.v1 (.of main_v228 : StableHlo.TRef sig ⟨S1048576, .f32⟩) main_call17.v4 main_call17.call0.v0 select,
    StableHlo.unary main_v229 main_v230 Host.negf,
    StableHlo.unary main_v230 main_v231 Host.exp,
    StableHlo.nullary main_cst_52 (constant S_ .f32 0x00000000#32),
    StableHlo.unary main_cst_52 main_v232 (broadcastInDim S1024 ![] bcast_S_S1024),
    StableHlo.unary main_v23 main_v233 (broadcastInDim S1048576x1 ![0] bcast_S1048576_S1048576x1_0),
    StableHlo.ternary main_v232 main_v233 main_v231 main_v234 (fun x i u => Host.scatterAdd scatter_S1024_S1048576x1_S1048576_n_0_0_1 x i u),
    StableHlo.unary main_v234 main_v235 (broadcastInDim S1024x1 ![0] bcast_S1024_S1024x1_0),
    StableHlo.unary main_v231 main_v236 (broadcastInDim S1048576x1 ![0] bcast_S1048576_S1048576x1_0),
    StableHlo.nullary main_c_53 (constantI S_ 32 0#32),
    StableHlo.unary main_c_53 main_v237 (broadcastInDim S1048576 ![] bcast_S_S1048576),
    StableHlo.binary main_v24 main_v237 main_v238 (cmpi .slt),
    StableHlo.nullary main_c_54 (constantI S_ 32 1024#32),
    StableHlo.unary main_c_54 main_v239 (broadcastInDim S1048576 ![] bcast_S_S1048576),
    StableHlo.binary main_v24 main_v239 main_v240 addi,
    StableHlo.ternary main_v238 main_v240 main_v24 main_v241 select,
    StableHlo.unary main_v241 main_v242 (broadcastInDim S1048576x1 ![0] bcast_S1048576_S1048576x1_0) ]

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., nary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., reshape_bufs_sub .., nullary_bufs_sub .., nullary_bufs_sub .., unary_bufs_sub .., binary_bufs_sub ..,
    unary_bufs_sub .., unary_bufs_sub .., binary_bufs_sub .., ternary_bufs_sub .., unary_bufs_sub .., unary_bufs_sub ..,
    nullary_bufs_sub .., unary_bufs_sub .., unary_bufs_sub .., ternary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub ..⟩

noncomputable abbrev ops5 : List (HloOp τ sig (Elt F)) :=
  [ StableHlo.binary main_v210 main_v242 main_v243 (fun x i => Host.gather gather_S1024x1_S1048576x1_S1048576x1_1_0_n_n_0_1_11 x i),
    StableHlo.binary main_v236 main_v243 main_v244 mulf,
    StableHlo.nullary main_cst_55 (constant S_ .f32 0x00000000#32),
    StableHlo.unary main_cst_55 main_v245 (broadcastInDim S1024x1 ![] bcast_S_S1024x1),
    StableHlo.unary main_v23 main_v246 (broadcastInDim S1048576x1 ![0] bcast_S1048576_S1048576x1_0),
    StableHlo.ternary main_v245 main_v246 main_v244 main_v247 (fun x i u => Host.scatterAdd scatter_S1024x1_S1048576x1_S1048576x1_1_0_0_1 x i u),
    StableHlo.binary main_v247 main_v235 main_v248 Host.divf,
    StableHlo.TRef.nullary main_call18.cst (constant S_ .f32 0x00000000#32),
    StableHlo.TRef.unary main_call18.cst main_call18.v0 (broadcastInDim S1024x1 ![] bcast_S_S1024x1),
    StableHlo.TRef.binary (.of main_v248 : StableHlo.TRef sig ⟨S1024x1, .f32⟩) main_call18.v0 main_call18.v1 (cmpf .ogt),
    StableHlo.TRef.nullary main_call18.cst_0 (constant S_ .f32 0x00000000#32),
    StableHlo.TRef.unary main_call18.cst_0 main_call18.v2 (broadcastInDim S1024x1 ![] bcast_S_S1024x1),
    StableHlo.TRef.binary (.of main_v248 : StableHlo.TRef sig ⟨S1024x1, .f32⟩) main_call18.v2 main_call18.v3 (cmpf .ogt),
    StableHlo.TRef.nullary main_call18.cst_1 (constant S_ .f32 0x00000000#32),
    StableHlo.TRef.unary main_call18.cst_1 main_call18.call0.v0 id,
    StableHlo.TRef.unary main_call18.call0.v0 main_call18.call0.v1 (broadcastInDim S1024x1 ![] bcast_S_S1024x1),
    StableHlo.TRef.ternary main_call18.v3 main_call18.call0.v1 (.of main_v248 : StableHlo.TRef sig ⟨S1024x1, .f32⟩) main_call18.call0.v2 select,
    StableHlo.TRef.unary main_call18.call0.v2 main_call18.v5 Host.expm1,
    StableHlo.TRef.nullary main_call18.cst_2 (constant S_ .f32 0x3F800000#32),
    StableHlo.TRef.unary main_call18.cst_2 main_call18.v6 (broadcastInDim S1024x1 ![] bcast_S_S1024x1),
    StableHlo.TRef.binary main_call18.v6 main_call18.v5 main_call18.v7 mulf,
    StableHlo.TRef.ternary main_call18.v1 (.of main_v248 : StableHlo.TRef sig ⟨S1024x1, .f32⟩) main_call18.v7 main_call18.call1.v0 select,
    StableHlo.unary main_v249 main_v250 Host.negf,
    StableHlo.unary main_v250 main_v251 Host.exp,
    StableHlo.nullary main_cst_56 (constant S_ .f32 0x3F800000#32),
    StableHlo.unary main_cst_56 main_v252 (broadcastInDim S1024x1 ![] bcast_S_S1024x1),
    StableHlo.binary main_v252 main_v251 main_v253 addf,
    StableHlo.nullary main_cst_57 (constant S_ .f32 0x3F800000#32),
    StableHlo.unary main_cst_57 main_v254 (broadcastInDim S1024x1 ![] bcast_S_S1024x1),
    StableHlo.binary main_v254 main_v253 main_v255 Host.divf ]

theorem ops5_sub : (ops5 : List (HloOp τ sig (Elt F))).Forall fun op => op.bufs ⊆ tcRefs τ sig :=
  ⟨binary_bufs_sub .., binary_bufs_sub .., nullary_bufs_sub .., unary_bufs_sub .., unary_bufs_sub .., ternary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., unary_bufs_sub ..,
    nullary_bufs_sub .., unary_bufs_sub .., binary_bufs_sub .., nullary_bufs_sub .., unary_bufs_sub .., binary_bufs_sub ..⟩

set_option maxRecDepth 65536 in
theorem part0_eq (c : Dev nD) : main_part0 (F := F) c = seq ops0 := rfl
set_option maxRecDepth 65536 in
theorem part1_eq (c : Dev nD) : main_part1 (F := F) c = seq ops1 := rfl
set_option maxRecDepth 65536 in
theorem part2_eq (c : Dev nD) : main_part2 (F := F) c = seq ops2 := rfl
set_option maxRecDepth 65536 in
theorem part3_eq (c : Dev nD) : main_part3 (F := F) c = seq ops3 := rfl
set_option maxRecDepth 65536 in
theorem part4_eq (c : Dev nD) : main_part4 (F := F) c = seq ops4 := rfl
set_option maxRecDepth 65536 in
theorem part5_eq (c : Dev nD) : main_part5 (F := F) c = seq ops5 := rfl

noncomputable abbrev ops : List (HloOp τ sig (Elt F)) := ops0 ++ (ops1 ++ (ops2 ++ (ops3 ++ (ops4 ++ ops5))))

-- operations `a`, …, `a + n - 1` of @main (counted from 0)
noncomputable def seg (a n : ℕ) : List (HloOp τ sig (Elt F)) := (ops.drop a).take n

theorem main_eq (c : Dev nD) : main (F := F) c = seq ops := by
  unfold main
  simp only [seq_append, part0_eq, part1_eq, part2_eq, part3_eq, part4_eq, part5_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, List.forall_append.mpr ⟨ops4_sub, ops5_sub⟩⟩⟩⟩⟩

-- every operation determines its result
theorem ops0_fresh : ∀ op ∈ (ops0 : List (HloOp τ sig (Elt F))), op.fresh = ∅ :=
  List.forall_iff_forall_mem.1 (show List.Forall (fun op : HloOp τ sig (Elt F) => op.fresh = ∅) ops0 from
   ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩)
theorem ops1_fresh : ∀ op ∈ (ops1 : List (HloOp τ sig (Elt F))), op.fresh = ∅ :=
  List.forall_iff_forall_mem.1 (show List.Forall (fun op : HloOp τ sig (Elt F) => op.fresh = ∅) ops1 from
   ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩)
theorem ops2_fresh : ∀ op ∈ (ops2 : List (HloOp τ sig (Elt F))), op.fresh = ∅ :=
  List.forall_iff_forall_mem.1 (show List.Forall (fun op : HloOp τ sig (Elt F) => op.fresh = ∅) ops2 from
   ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩)
theorem ops3_fresh : ∀ op ∈ (ops3 : List (HloOp τ sig (Elt F))), op.fresh = ∅ :=
  List.forall_iff_forall_mem.1 (show List.Forall (fun op : HloOp τ sig (Elt F) => op.fresh = ∅) ops3 from
   ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩)
theorem ops4_fresh : ∀ op ∈ (ops4 : List (HloOp τ sig (Elt F))), op.fresh = ∅ :=
  List.forall_iff_forall_mem.1 (show List.Forall (fun op : HloOp τ sig (Elt F) => op.fresh = ∅) ops4 from
   ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩)
theorem ops5_fresh : ∀ op ∈ (ops5 : List (HloOp τ sig (Elt F))), op.fresh = ∅ :=
  List.forall_iff_forall_mem.1 (show List.Forall (fun op : HloOp τ sig (Elt F) => op.fresh = ∅) ops5 from
   ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl⟩)

theorem ops_fresh : ∀ op ∈ (ops : List (HloOp τ sig (Elt F))), op.fresh = ∅ := by
  intro op h
  simp only [List.mem_append] at h
  rcases h with h | h | h | h | h | h
  · exact ops0_fresh op h
  · exact ops1_fresh op h
  · exact ops2_fresh op h
  · exact ops3_fresh op h
  · exact ops4_fresh op h
  · exact ops5_fresh op h

-- every fair run ends, each buffer at the fold of the operations over what the buffers held at the start
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

end Cert.ReferenceIdeal.Run

end
-- ==== Proof.LibEnum.lean ====
import Mathlib.Data.Finset.Card
import Mathlib.Data.Finset.Max
import Mathlib.Data.Nat.Nth
import Mathlib.Algebra.BigOperators.Group.Finset.Basic
import proofs.«135979_g12610023981851_fold_wed_c4_432_5_alg».proof.Proof.Spec

namespace Cert.Spec

open Finset

section Enum
variable (M : ℕ) (msk : ℕ → Prop) [DecidablePred msk]

theorem nnz_eq : nnz M msk = Nat.count msk M := (Nat.count_eq_card_filter_range msk M).symm

theorem nnz_le : nnz M msk ≤ M := (card_filter_le _ _).trans_eq (card_range M)

theorem flat_le (k : ℕ) : flat M msk k ≤ M := (card_filter_le _ _).trans_eq (card_range M)

theorem lt_card {k : ℕ} (hk : k < nnz M msk) (hf : (Set.ofPred msk).Finite) : k < #hf.toFinset :=
  hk.trans_le ((nnz_eq M msk).trans_le (Nat.count_le_card hf M))

-- Below the number of marked positions, `flat` is the `k`-th marked position: the running count is at most `k` exactly before it.
theorem flat_eq_nth {k : ℕ} (hk : k < nnz M msk) : flat M msk k = Nat.nth msk k := by
  have hc := lt_card M msk hk
  rw [flat, ← card_range (Nat.nth msk k)]
  congr 1
  ext p
  rw [mem_filter, mem_range, mem_range]
  show p < M ∧ nnz (p + 1) msk ≤ k ↔ _
  rw [nnz_eq]
  constructor
  · rintro ⟨_, h⟩
    by_contra hn
    have := Nat.count_monotone msk (Nat.add_le_add_right (not_lt.1 hn) 1)
    rw [Nat.count_succ, Nat.count_nth hc, if_pos (Nat.nth_mem k hc)] at this
    omega
  · intro h
    exact ⟨h.trans (Nat.nth_lt_of_lt_count (nnz_eq M msk ▸ hk)), Nat.le_nth_of_count_le h⟩

theorem flat_lt {k : ℕ} (hk : k < nnz M msk) : flat M msk k < M := by
  rw [flat_eq_nth M msk hk]
  exact Nat.nth_lt_of_lt_count (nnz_eq M msk ▸ hk)

theorem nnz_lt_nnz {p : ℕ} (hp : p < M) (h : msk p) : nnz p msk < nnz M msk := by
  rw [nnz_eq, nnz_eq]
  exact Nat.count_strict_mono h hp

theorem flat_nnz {p : ℕ} (hp : p < M) (h : msk p) : flat M msk (nnz p msk) = p := by
  rw [flat_eq_nth M msk (nnz_lt_nnz M msk hp h), nnz_eq]
  exact Nat.nth_count h

theorem sum_flat {A : Type*} [AddCommMonoid A] (g : ℕ → A) (Q : ℕ → Prop) [DecidablePred Q] :
    ∑ k ∈ (Finset.range M).filter (fun k => k < nnz M msk ∧ Q (flat M msk k)), g (flat M msk k)
      = ∑ p ∈ (Finset.range M).filter (fun p => msk p ∧ Q p), g p := by
  refine sum_nbij' (fun k => flat M msk k) (fun p => nnz p msk) ?_ ?_ ?_ ?_ fun _ _ => rfl
  · intro k hk
    simp only [mem_filter, mem_range] at hk ⊢
    refine ⟨flat_lt M msk hk.2.1, ?_, hk.2.2⟩
    rw [flat_eq_nth M msk hk.2.1]
    exact Nat.nth_mem k (lt_card M msk hk.2.1)
  · intro p hp
    simp only [mem_filter, mem_range] at hp ⊢
    have hk := nnz_lt_nnz M msk hp.1 hp.2.1
    refine ⟨hk.trans_le (nnz_le M msk), hk, ?_⟩
    rw [flat_nnz M msk hp.1 hp.2.1]
    exact hp.2.2
  · intro k hk
    simp only [mem_filter, mem_range] at hk
    rw [flat_eq_nth M msk hk.2.1, nnz_eq]
    exact Nat.count_nth (lt_card M msk hk.2.1)
  · intro p hp
    simp only [mem_filter, mem_range] at hp
    exact flat_nnz M msk hp.1 hp.2.1

end Enum

end Cert.Spec
-- ==== Proof.RefIndexA.lean ====
import Idealize.ShloMosaic.PureOps.Ideal.Laws
import Idealize.ShloMosaic.PureOps.Reduce
import Idealize.ShloMosaic.Lib.ValueIdx
import Idealize.ShloMosaic.Lib.WordArith
import Idealize.ShloMosaic.Lib.StableHlo.Predicate
import Idealize.ShloMosaic.Lib.Pipeline.Value
import Mathlib.Algebra.BigOperators.Fin
import Mathlib.Algebra.BigOperators.Intervals
import Mathlib.Data.BitVec

noncomputable section

namespace Cert.RefIndex

open Idealize.ShloMosaic

theorem foldl_addi_ofNat {ι : Type} (l : List ι) (T : ι → ℕ) (c : ℕ) :
    l.foldl (fun r n => IntOp.addi r (BitVec.ofNat 32 (T n))) (BitVec.ofNat 32 c)
      = BitVec.ofNat 32 (c + (l.map T).sum) := by
  induction l generalizing c with
  | nil => simp
  | cons a l ih =>
    rw [List.foldl_cons, List.map_cons, List.sum_cons]
    have h : IntOp.addi (BitVec.ofNat 32 c) (BitVec.ofNat 32 (T a)) = BitVec.ofNat 32 (c + T a) := by
      unfold IntOp.addi; rw [BitVec.ofNat_add]
    rw [h, ih, Nat.add_assoc]

theorem foldl_finRange_addi_ofNat (N : ℕ) (T : ℕ → ℕ) :
    (List.finRange N).foldl (fun r (n : Fin N) => IntOp.addi r (BitVec.ofNat 32 (T n.val))) 0#32
      = BitVec.ofNat 32 (∑ n ∈ Finset.range N, T n) := by
  have h := foldl_addi_ofNat (List.finRange N) (fun n : Fin N => T n.val) 0
  rw [Nat.zero_add] at h
  rw [← Fin.sum_univ_eq_sum_range, Fin.sum_univ_def]
  exact h

theorem sum_window (N k : ℕ) (hk : k < N) (g : ℕ → ℕ) :
    ∑ n ∈ Finset.range N, (if N - 1 ≤ k + n then g (k + n - (N - 1)) else 0) = ∑ q ∈ Finset.range (k + 1), g q := by
  obtain ⟨m, rfl⟩ : ∃ m, N = m + (k + 1) := ⟨N - (k + 1), by omega⟩
  rw [Finset.sum_range_add, Finset.sum_eq_zero fun n hn => if_neg (by have := Finset.mem_range.1 hn; omega), zero_add]
  exact Finset.sum_congr rfl fun q _ => by rw [if_pos (by omega)]; congr 1; omega

theorem foldl_step_apply {ι κ α : Type} [DecidableEq κ] (f : α → α → α) (tgt : ι → Option κ) (u : ι → α)
    (step : (κ → α) → ι → κ → α)
    (hstep : ∀ r n i, step r n i = if tgt n = some i then f (r i) (u n) else r i)
    (l : List ι) (x : κ → α) (i : κ) :
    (l.foldl step x) i = l.foldl (fun acc n => if tgt n = some i then f acc (u n) else acc) (x i) := by
  induction l generalizing x with
  | nil => rfl
  | cons a l ih => rw [List.foldl_cons, List.foldl_cons, ih, hstep]

theorem foldl_finRange_count (N : ℕ) (P : ℕ → Prop) [DecidablePred P] :
    (List.finRange N).foldl (fun acc (n : Fin N) => if P n.val then IntOp.addi acc 1#32 else acc) 0#32
      = BitVec.ofNat 32 ((Finset.range N).filter P).card := by
  rw [Finset.card_filter, ← foldl_finRange_addi_ofNat]
  congr 1
  funext acc n
  by_cases hp : P n.val
  · rw [if_pos hp, if_pos hp]
  · rw [if_neg hp, if_neg hp]; exact (BitVec.add_zero acc).symm

open ValueIdx

theorem symm_one_val {d : Fin 1 → ℕ} (n : Fin (⟨1, d⟩ : Shape).numel) (a : Fin 1) :
    ((⟨1, d⟩ : Shape).rowMajor.symm n a).val = n.val := by
  obtain rfl : a = 0 := Subsingleton.elim _ _
  have h := Shape.rowMajor_val_one ((⟨1, d⟩ : Shape).rowMajor.symm n)
  rw [Equiv.apply_symm_apply] at h
  exact h.symm

theorem numel_one (N : ℕ) : (⟨1, ![N]⟩ : Shape).numel = N := by simp [Shape.numel]

theorem ix1_val {N : ℕ} (k : Fin N) (a : Fin 1) : ((ix1 k : (⟨1, ![N]⟩ : Shape).Idx) a).val = k.val := by
  obtain rfl : a = 0 := Subsingleton.elim _ _; rfl

theorem reduceWindow_cumsum (N M : ℕ) (hN : M + 1 = N) {u : Shape} (x : IVec ⟨1, ![N]⟩ 32) (init : u.Idx → BitVec 32)
    (h : (⟨1, ![N]⟩ : Shape).ReduceWindows ![N] ![1] ![M] ![0] ⟨1, ![N]⟩) (hu : 0 < u.numel)
    (hinit : init (Shape.Idx.first hu) = 0#32) (g : ℕ → ℕ)
    (hx : ∀ (q : ℕ) (hq : q < N), x (ix1 ⟨q, hq⟩) = BitVec.ofNat 32 (g q)) (k : Fin N) :
    Host.reduceWindow IntOp.addi ![N] ![1] ![M] ![0] x init h hu (ix1 k)
      = BitVec.ofNat 32 (∑ q ∈ Finset.range (k.val + 1), g q) := by
  unfold Host.reduceWindow
  dsimp only
  rw [hinit]
  have hk := k.isLt
  refine Eq.trans (List.foldl_ext _ (fun r (n : Fin (⟨1, ![N]⟩ : Shape).numel) =>
      IntOp.addi r (BitVec.ofNat 32 (if M ≤ k.val + n.val then g (k.val + n.val - M) else 0))) _ (fun r n _ => ?_)) ?_
  · congr 1
    have hn : n.val < N := lt_of_lt_of_eq n.isLt (numel_one N)
    have hp : ((ix1 k : (⟨1, ![N]⟩ : Shape).Idx) ((0 : Fin 1).cast h.1.symm)).val * (![1] : Fin 1 → ℕ) 0
        + ((⟨1, ![N]⟩ : Shape).rowMajor.symm n 0).val = k.val + n.val := by
      rw [symm_one_val, ix1_val]; simp
    by_cases hc : M ≤ k.val + n.val
    · rw [if_pos hc, dif_pos (by
        intro a
        obtain rfl : a = 0 := Subsingleton.elim _ _
        rw [hp]
        exact ⟨hc, by show k.val + n.val - M < N; omega⟩), ← hx (k.val + n.val - M) (by omega)]
      congr 1
      funext a
      obtain rfl : a = 0 := Subsingleton.elim _ _
      exact Fin.ext (by show _ - M = k.val + n.val - M; rw [hp])
    · rw [if_neg hc, dif_neg fun hall => hc (by have := (hall 0).1; rwa [hp] at this)]
  · rw [foldl_finRange_addi_ofNat ((⟨1, ![N]⟩ : Shape).numel) (fun n => if M ≤ k.val + n then g (k.val + n - M) else 0),
      numel_one]
    have hM : M = N - 1 := by omega
    subst hM
    rw [sum_window N k.val hk g]

section Scatter
variable {N : ℕ} (d : ScatterDims ⟨1, ![N]⟩ ⟨2, ![N, 1]⟩ ⟨1, ![N]⟩)
  (huw : d.updateWindowDims = []) (hiw : d.insertedWindowDims = [0])
  (hsd : d.scatterDimsToOperandDims = [0]) (hivd : d.indexVectorDim = 1)
include huw hiw hsd hivd

theorem start_add_window {w : ℕ} (idx : IVec ⟨2, ![N, 1]⟩ w) (p : Fin N) (a : Fin 1) :
    d.start (ix1 p) idx a + (d.window (ix1 p) a : ℤ) = (idx (StableHlo.Predicate.ixP p)).toInt := by
  obtain rfl : a = 0 := Subsingleton.elim _ _
  have hm : (0 : Fin 1) ∈ d.scatterDimsToOperandDims := by rw [hsd]; exact List.mem_singleton.mpr rfl
  have hk : (0 : Fin 1) ∉ d.sKept := by
    show (0 : Fin 1) ∉ Shape.kept _ d.insertedWindowDims
    rw [hiw]; simp [Shape.kept]
  unfold ScatterDims.start ScatterDims.window
  rw [dif_pos hm, dif_neg hk, Nat.cast_zero, add_zero]
  congr 2
  funext b
  match b with
  | ⟨0, _⟩ =>
    unfold ScatterDims.siIdx
    rw [dif_neg (by rw [hivd]; simp)]
    unfold ScatterDims.siCoord
    apply Fin.ext
    simp only [Fin.val_cast]
    exact ix1_val p _
  | ⟨1, _⟩ =>
    unfold ScatterDims.siIdx
    rw [dif_pos (by rw [hivd])]
    apply Fin.ext
    show List.idxOf (0 : Fin 1) d.scatterDimsToOperandDims = 0
    rw [hsd]; simp

theorem resultIdx_iff (idx : IVec ⟨2, ![N, 1]⟩ 32) (p : Fin N) (c : ℕ) (hc : c < 2 ^ 31)
    (hidx : idx (StableHlo.Predicate.ixP p) = BitVec.ofNat 32 c) (i : (⟨1, ![N]⟩ : Shape).Idx) :
    d.resultIdx? (ix1 p) idx = some i ↔ c = (i 0).val := by
  have hkey : ∀ a, d.start (ix1 p) idx a + (d.window (ix1 p) a : ℤ) = (c : ℤ) := fun a => by
    rw [start_add_window d huw hiw hsd hivd idx p a, hidx, StableHlo.Predicate.toInt_ofNat_small c hc]
  unfold ScatterDims.resultIdx?
  split
  · rw [Option.some.injEq]
    constructor
    · intro e
      have h0 := congrArg Fin.val (congrFun e 0)
      simp only [hkey] at h0
      omega
    · intro e
      funext a
      obtain rfl : a = 0 := Subsingleton.elim _ _
      apply Fin.ext
      simp only [hkey]
      omega
  · rename_i hin
    refine ⟨nofun, fun e => (hin fun a => ?_).elim⟩
    obtain rfl : a = 0 := Subsingleton.elim _ _
    rw [hkey, e]
    exact ⟨Int.natCast_nonneg _, by exact_mod_cast (i 0).isLt⟩

theorem scatter_hist (x : IVec ⟨1, ![N]⟩ 32) (idx : IVec ⟨2, ![N, 1]⟩ 32) (upd : IVec ⟨1, ![N]⟩ 32)
    (hx : ∀ i, x i = 0#32) (hupd : ∀ i, upd i = 1#32) (c : ℕ → ℕ) (hc : ∀ p, p < N → c p < 2 ^ 31)
    (hidx : ∀ p : Fin N, idx (StableHlo.Predicate.ixP p) = BitVec.ofNat 32 (c p.val)) (v : Fin N) :
    Host.scatter d IntOp.addi x idx upd (ix1 v)
      = BitVec.ofNat 32 ((Finset.range N).filter (fun p => c p = v.val)).card := by
  unfold Host.scatter
  refine (foldl_step_apply IntOp.addi
    (fun n => d.resultIdx? ((⟨1, ![N]⟩ : Shape).rowMajor.symm n) idx)
    (fun n => upd ((⟨1, ![N]⟩ : Shape).rowMajor.symm n)) _ (fun r n i => ?_) _ x (ix1 v)).trans ?_
  · beta_reduce
    cases hres : d.resultIdx? ((⟨1, ![N]⟩ : Shape).rowMajor.symm n) idx with
    | none =>
      show r i = _
      rw [if_neg (fun e => by cases e)]
    | some i0 =>
      show (if i = i0 then IntOp.addi (r i0) (upd ((⟨1, ![N]⟩ : Shape).rowMajor.symm n)) else r i) = _
      by_cases hi : i = i0
      · subst hi; rw [if_pos rfl, if_pos rfl]
      · rw [if_neg hi, if_neg (fun e => hi (Option.some.inj e).symm)]
  · rw [hx]
    refine Eq.trans (List.foldl_ext _ (fun acc (n : Fin (⟨1, ![N]⟩ : Shape).numel) =>
        if c n.val = v.val then IntOp.addi acc 1#32 else acc) _ (fun acc n _ => ?_)) ?_
    · rw [hupd]
      have hn : n.val < N := lt_of_lt_of_eq n.isLt (numel_one N)
      have hsymm : (⟨1, ![N]⟩ : Shape).rowMajor.symm n = ix1 ⟨n.val, hn⟩ := by
        funext a; apply Fin.ext; rw [symm_one_val, ix1_val]
      rw [hsymm]
      exact if_congr (resultIdx_iff d huw hiw hsd hivd idx ⟨n.val, hn⟩ (c n.val) (hc _ hn) (hidx ⟨n.val, hn⟩) (ix1 v)) rfl rfl
    · rw [foldl_finRange_count ((⟨1, ![N]⟩ : Shape).numel) (fun p => c p = v.val), numel_one]

end Scatter

theorem toNat_ofNat_small (c : ℕ) (hc : c < 2 ^ 31) : (BitVec.ofNat 32 c).toNat = c := by
  rw [BitVec.toNat_ofNat]; exact Nat.mod_eq_of_lt (by omega)

theorem msb_ofNat_small (c : ℕ) (hc : c < 2 ^ 31) : (BitVec.ofNat 32 c).msb = false :=
  BitVec.msb_eq_false_iff_two_mul_lt.mpr (by rw [toNat_ofNat_small c hc]; omega)

theorem ofNat_ne_zero (c : ℕ) (hc : c < 2 ^ 31) (h0 : c ≠ 0) : BitVec.ofNat 32 c ≠ 0 := fun h =>
  h0 ((toNat_ofNat_small c hc).symm.trans (congrArg BitVec.toNat h))

theorem slt_zero_ofNat (c : ℕ) (hc : c < 2 ^ 31) : (BitVec.ofNat 32 c).slt 0#32 = false := by
  rw [BitVec.slt, StableHlo.Predicate.toInt_ofNat_small c hc, show (0#32 : BitVec 32).toInt = 0 from by decide]
  exact decide_eq_false (by omega)

theorem maxsi_zero_ofNat (c : ℕ) (hc : c < 2 ^ 31) : IntOp.maxsi 0#32 (BitVec.ofNat 32 c) = BitVec.ofNat 32 c := by
  unfold IntOp.maxsi
  rw [slt_zero_ofNat c hc]
  rfl

theorem cmpi_slt_zero_ofNat (c : ℕ) (hc : c < 2 ^ 31) : IntOp.cmpi .slt (BitVec.ofNat 32 c) 0#32 = 0#1 :=
  congrArg BitVec.ofBool (slt_zero_ofNat c hc)

theorem select_zero {α : Type} (a b : α) : Scalar.select 0#1 a b = b := if_neg (by decide)

theorem select_one {α : Type} (a b : α) : Scalar.select 1#1 a b = a := if_pos (by decide)

theorem select_andi_zero {α : Type} (x : BitVec 1) (a b : α) : Scalar.select (IntOp.andi 0#1 x) a b = b := by
  rw [show IntOp.andi 0#1 x = 0#1 from BitVec.zero_and, select_zero]

def sg (x : BitVec 32) : BitVec 32 := if x = 0 then 0 else if x.msb then -1 else 1

theorem sg_ofNat (c : ℕ) (hc : c < 2 ^ 31) (h0 : c ≠ 0) : sg (BitVec.ofNat 32 c) = 1#32 := by
  rw [sg, if_neg (ofNat_ne_zero c hc h0), msb_ofNat_small c hc]; rfl

-- Signed division and remainder of small naturals, the divisor positive, are those of naturals.
theorem divrem_ofNat (Q D : ℕ) (hQ : Q < 2 ^ 31) (hD0 : 0 < D) (hD : D < 2 ^ 31) :
    IntOp.divsi .host (BitVec.ofNat 32 Q) (BitVec.ofNat 32 D) = BitVec.ofNat 32 (Q / D)
      ∧ IntOp.remsi .host (BitVec.ofNat 32 Q) (BitVec.ofNat 32 D) = BitVec.ofNat 32 (Q % D) := by
  have hc : ¬ IntOp.SDivCorner (BitVec.ofNat 32 Q) (BitVec.ofNat 32 D) := by
    rintro (hc | ⟨_, hc⟩)
    · exact ofNat_ne_zero D hD (by omega) hc
    · have := congrArg BitVec.toNat hc
      rw [toNat_ofNat_small D hD, show (-1 : BitVec 32).toNat = 4294967295 from by decide] at this
      omega
  constructor <;> apply BitVec.eq_of_toNat_eq <;>
    simp only [IntOp.divsi, IntOp.remsi, if_neg hc, BitVec.sdiv_eq, BitVec.srem_eq, msb_ofNat_small Q hQ, msb_ofNat_small D hD,
      BitVec.udiv_eq, BitVec.umod_eq, BitVec.toNat_udiv, BitVec.toNat_umod, toNat_ofNat_small Q hQ, toNat_ofNat_small D hD,
      toNat_ofNat_small _ (lt_of_le_of_lt (Nat.div_le_self Q D) hQ), toNat_ofNat_small _ (lt_of_le_of_lt (Nat.mod_le Q D) hQ)]

def floorDiv (x d : BitVec 32) : BitVec 32 :=
  Scalar.select (IntOp.andi (IntOp.cmpi .ne (sg x) (sg d)) (IntOp.cmpi .ne (IntOp.remsi .host x d) 0#32))
    (IntOp.subi (IntOp.divsi .host x d) 1#32) (IntOp.divsi .host x d)

theorem floordiv_ofNat (x : BitVec 32) (Q D : ℕ) (hx : x = BitVec.ofNat 32 Q) (hQ : Q < 2 ^ 31) (hD0 : 0 < D)
    (hD : D < 2 ^ 31) : floorDiv x (BitVec.ofNat 32 D) = BitVec.ofNat 32 (Q / D) := by
  subst hx
  rw [floorDiv, (divrem_ofNat Q D hQ hD0 hD).1, (divrem_ofNat Q D hQ hD0 hD).2, sg_ofNat D hD (by omega)]
  by_cases h0 : Q = 0
  · subst h0; rw [Nat.zero_mod]; rfl
  · rw [sg_ofNat Q hQ h0]; exact select_andi_zero _ _ _

def floorRem (x d : BitVec 32) : BitVec 32 :=
  Scalar.select (IntOp.andi (IntOp.cmpi .ne (IntOp.cmpi .slt (IntOp.remsi .host x d) 0#32) (IntOp.cmpi .slt d 0#32))
      (IntOp.cmpi .ne (IntOp.remsi .host x d) 0#32))
    (IntOp.addi (IntOp.remsi .host x d) d) (IntOp.remsi .host x d)

theorem remainder_ofNat (x : BitVec 32) (X D : ℕ) (hx : x = BitVec.ofNat 32 X) (hX : X < 2 ^ 31) (hD0 : 0 < D)
    (hD : D < 2 ^ 31) : floorRem x (BitVec.ofNat 32 D) = BitVec.ofNat 32 (X % D) := by
  subst hx
  rw [floorRem, (divrem_ofNat X D hX hD0 hD).2, cmpi_slt_zero_ofNat _ (lt_of_le_of_lt (Nat.mod_le X D) hX),
    cmpi_slt_zero_ofNat D hD]
  exact select_andi_zero _ _ _

theorem sum_hist (M : ℕ) (c : ℕ → ℕ) (k : ℕ) :
    ∑ v ∈ Finset.range (k + 1), ((Finset.range M).filter (fun p => c p = v)).card
      = ((Finset.range M).filter (fun p => c p ≤ k)).card := by
  rw [Finset.sum_card_fiberwise_eq_card_filter]
  simp only [Finset.mem_range, Nat.lt_succ_iff]

end Cert.RefIndex

end
-- ==== Proof.RefIndex.lean ====
import proofs.«135979_g12610023981851_fold_wed_c4_432_5_alg».proof.Proof.Gen.ReferenceIdeal
import proofs.«135979_g12610023981851_fold_wed_c4_432_5_alg».proof.Proof.Spec
import proofs.«135979_g12610023981851_fold_wed_c4_432_5_alg».proof.Proof.LibEnum
import proofs.«135979_g12610023981851_fold_wed_c4_432_5_alg».proof.Proof.RefIndexA
import Idealize.ShloMosaic.PureOps.Ideal.Laws
import Idealize.ShloMosaic.PureOps.Reduce
import Idealize.ShloMosaic.Lib.ValueIdx
import Idealize.ShloMosaic.Lib.WordArith
import Idealize.ShloMosaic.Lib.StableHlo.Predicate
import Idealize.ShloMosaic.Lib.Pipeline.Value
import Mathlib.Algebra.BigOperators.Fin
import Mathlib.Algebra.BigOperators.Intervals
import Mathlib.Data.BitVec

noncomputable section

namespace Cert.RefIndex

open Idealize.ShloMosaic Cert.ReferenceIdeal Cert.ReferenceIdeal.Facts₀ Cert.ReferenceIdeal.Facts

variable [Cert.ReferenceIdeal.Facts]

abbrev bc {α : Type} (v : S_.Idx → α) : S1048576.Idx → α := broadcastInDim S1048576 ![] bcast_S_S1048576 v

abbrev kI (c : BitVec 32) : IVec S_ 32 := constantI S_ 32 c

def cumsum_1 (x : IVec S1048576 32) : IVec S1048576 32 :=
  Host.reduceWindow IntOp.addi ![1048576] ![1] ![1048575] ![0] x (broadcastInDim S_ ![] bcast_S_S_ (kI 0#32))
    reduceWindows_S1048576_S1048576_w1048576s1p1048575_0 h_S_

def cumsum (m : IVec S1024x1024 1) : IVec S1048576 32 :=
  cumsum_1 (extui 32 (shapeCast S1048576 m shapeCasts_S1024x1024_S1048576) natLt_1_32)

def clip (x : IVec S1048576 32) (lo : IVec S_ 32) : IVec S1048576 32 := maxsi (bc lo) x

def floor_divide (x : IVec S1048576 32) (d : IVec S_ 32) : IVec S1048576 32 := fun i => floorDiv (x i) (bc d i)

def remainder (x : IVec S1048576 32) (d : IVec S_ 32) : IVec S1048576 32 :=
  fun i => floorRem (x i) (bc (select (cmpi .eq d (kI 0#32)) (kI 1#32) d) i)

def where_3 (m : IVec S1048576 1) (c : IVec S_ 32) (x : IVec S1048576 32) : IVec S1048576 32 := select m (bc c) x

section Stages
variable {F : FTy → Type} [FloatOps F] (adj : FVec F S1024x1024 .f32)

def maskOf : IVec S1024x1024 1 :=
  cmpf .une adj (broadcastInDim S1024x1024 ![] bcast_S_S1024x1024 (constant S_ .f32 0x00000000#32))

def fixed : IVec S1048576 32 :=
  let w : IVec S1048576 32 := clip (cumsum (maskOf adj)) (kI 0#32)
  select (cmpi .slt w (bc (kI 0#32))) (addi w (bc (kI 1048576#32))) w

def histo : IVec S1048576 32 :=
  Host.scatter scatter_S1048576_S1048576x1_S1048576_n_0_0_1 IntOp.addi (bc (kI 0#32))
    (broadcastInDim S1048576x1 ![0] bcast_S1048576_S1048576x1_0 (fixed adj)) (bc (kI 1#32))

def total : IVec S_ 32 :=
  Host.reduce IntOp.addi (extui 32 (maskOf adj) natLt_1_32) (kI 0#32) reducesTo_S1024x1024_S_d0_1 h_S_

def padMask : IVec S1048576 1 := cmpi .sge (iotaInDim S1048576 32 0) (bc (total adj))

def idxWords : IVec S1048576 32 × IVec S1048576 32 :=
  (where_3 (padMask adj) (kI 1024#32) (remainder (floor_divide (cumsum_1 (histo adj)) (kI 1024#32)) (kI 1024#32)),
   where_3 (padMask adj) (kI 1024#32) (remainder (floor_divide (cumsum_1 (histo adj)) (kI 1#32)) (kI 1024#32)))

end Stages

section AtIdeal
open ValueIdx Cert.Spec

variable (A : FVec Ideal S1024x1024 .f32)

abbrev adjM : Fin 1024 → Fin 1024 → EReal := fun i j => A (ix2 i j)

theorem mask_apply (p : ℕ) (hp : p < 1048576) :
    (maskOf A (ix2 ⟨p / 1024, by omega⟩ ⟨p % 1024, Nat.mod_lt _ (by decide)⟩)).setWidth 32
      = BitVec.ofNat 32 (if nz (adjM A) p then 1 else 0) := by
  show (Ideal.cmp .une (A _) (Ideal.ofBits .f32 0x00000000#32)).setWidth 32 = _
  rw [Ideal.ofBits_zero_f32]
  show (BitVec.ofBool (decide (A _ ≠ 0))).setWidth 32 = _
  by_cases h : nz (adjM A) p
  · rw [if_pos h, decide_eq_true h.2]; rfl
  · rw [if_neg h, decide_eq_false fun h' => h ⟨hp, h'⟩]; rfl

theorem maskWords_apply (p : ℕ) (hp : p < 1048576) :
    extui 32 (shapeCast S1048576 (maskOf A) shapeCasts_S1024x1024_S1048576) natLt_1_32 (ix1 ⟨p, hp⟩)
      = BitVec.ofNat 32 (if nz (adjM A) p then 1 else 0) := by
  show (shapeCast S1048576 (maskOf A) shapeCasts_S1024x1024_S1048576 (ix1 ⟨p, hp⟩)).setWidth 32 = _
  rw [shapeCast_apply (maskOf A) shapeCasts_S1024x1024_S1048576 (ix1 ⟨p, hp⟩)
    (ix2 ⟨p / 1024, by omega⟩ ⟨p % 1024, Nat.mod_lt _ (by decide)⟩) (by
      rw [Shape.rowMajor_val_two, Shape.rowMajor_val_one]
      show p / 1024 * 1024 + p % 1024 = p
      omega), mask_apply A p hp]

theorem cnt_lt (msk : ℕ → Prop) [DecidablePred msk] (k : ℕ) (hk : k < 1048576) : cnt msk k < 2 ^ 31 :=
  lt_of_le_of_lt (Finset.card_filter_le _ _) (by rw [Finset.card_range]; omega)

theorem cumsum_apply (k : Fin 1048576) : cumsum (maskOf A) (ix1 k) = BitVec.ofNat 32 (cnt (nz (adjM A)) k.val) := by
  rw [cumsum, cumsum_1, reduceWindow_cumsum 1048576 1048575 rfl _ _ _ h_S_ rfl (fun q => if nz (adjM A) q then 1 else 0)
    (maskWords_apply A) k, cnt, Finset.card_filter]

theorem fixed_apply (k : Fin 1048576) : fixed A (ix1 k) = BitVec.ofNat 32 (cnt (nz (adjM A)) k.val) := by
  have hc := cnt_lt (nz (adjM A)) k.val k.isLt
  show Scalar.select (IntOp.cmpi .slt (IntOp.maxsi 0#32 (cumsum (maskOf A) (ix1 k))) 0#32)
    (IntOp.addi (IntOp.maxsi 0#32 (cumsum (maskOf A) (ix1 k))) 1048576#32) (IntOp.maxsi 0#32 (cumsum (maskOf A) (ix1 k))) = _
  rw [cumsum_apply, maxsi_zero_ofNat _ hc, cmpi_slt_zero_ofNat _ hc, select_zero]

theorem histo_apply (v : Fin 1048576) :
    histo A (ix1 v) = BitVec.ofNat 32 ((Finset.range 1048576).filter (fun p => cnt (nz (adjM A)) p = v.val)).card :=
  scatter_hist scatter_S1048576_S1048576x1_S1048576_n_0_0_1 rfl rfl rfl rfl _ _ _ (fun _ => rfl) (fun _ => rfl)
    (fun p => cnt (nz (adjM A)) p) (cnt_lt _)
    (fun p => (StableHlo.Predicate.bcast_col1 bcast_S1048576_S1048576x1_0 (fixed A) p).trans
      ((congrArg (fixed A) (eq_ix1 _)).trans (fixed_apply A _))) v

theorem q_apply (k : Fin 1048576) :
    cumsum_1 (histo A) (ix1 k) = BitVec.ofNat 32 (flat 1048576 (nz (adjM A)) k.val) :=
  (reduceWindow_cumsum 1048576 1048575 rfl _ _ _ h_S_ rfl
    (fun v => ((Finset.range 1048576).filter (fun p => cnt (nz (adjM A)) p = v)).card)
    (fun q hq => histo_apply A ⟨q, hq⟩) k).trans (congrArg _ (sum_hist _ _ _))

theorem flat_lt31 (k : ℕ) : flat 1048576 (nz (adjM A)) k < 2 ^ 31 :=
  lt_of_le_of_lt (flat_le 1048576 (nz (adjM A)) k) (by norm_num)

theorem symm_two (n : Fin S1024x1024.numel) :
    S1024x1024.rowMajor.symm n
      = ix2 ⟨n.val / 1024, by have := n.isLt; change _ < 1048576 at this; omega⟩ ⟨n.val % 1024, Nat.mod_lt _ (by decide)⟩ := by
  rw [Equiv.symm_apply_eq]
  apply Fin.ext
  rw [Shape.rowMajor_val_two]
  show n.val = n.val / 1024 * 1024 + n.val % 1024
  omega

theorem total_apply (j : S_.Idx) : total A j = BitVec.ofNat 32 (nnz 1048576 (nz (adjM A))) := by
  rw [nnz, Finset.card_filter, show 1048576 = S1024x1024.numel from by decide, ← foldl_finRange_addi_ofNat]
  unfold total Host.reduce
  rw [List.filter_eq_self.2 fun n _ => decide_eq_true (funext fun a => a.elim0)]
  refine List.foldl_ext _ _ _ fun r n _ => congrArg _ ?_
  show (maskOf A (S1024x1024.rowMajor.symm n)).setWidth 32 = _
  rw [symm_two, mask_apply A n.val n.isLt]

theorem padMask_apply (k : Fin 1048576) :
    padMask A (ix1 k) = if nnz 1048576 (nz (adjM A)) ≤ k.val then 1#1 else 0#1 := by
  have h := StableHlo.Predicate.sle_ofNat_iff (nnz 1048576 (nz (adjM A))) k.val
    (lt_of_le_of_lt (nnz_le 1048576 (nz (adjM A))) (by norm_num)) (lt_trans k.isLt (by norm_num))
  show IntOp.cmpi .sge (BitVec.ofNat 32 k.val) (total A _) = _
  rw [total_apply]
  by_cases hle : nnz 1048576 (nz (adjM A)) ≤ k.val
  · rw [if_pos hle]; exact h.2 hle
  · rw [if_neg hle]; exact (BitVec.eq_zero_or_eq_one _).resolve_right fun e => hle (h.1 e)

theorem word_apply (D : ℕ) (hD0 : 0 < D) (hD : D < 2 ^ 31) (e : Fin 1048576) :
    where_3 (padMask A) (kI 1024#32)
        (remainder (floor_divide (cumsum_1 (histo A)) (kI (BitVec.ofNat 32 D))) (kI 1024#32)) (ix1 e)
      = BitVec.ofNat 32
        (if e.val < nnz 1048576 (nz (adjM A)) then flat 1048576 (nz (adjM A)) e.val / D % 1024 else 1024) := by
  have hf := flat_lt31 A e.val
  have hq : floor_divide (cumsum_1 (histo A)) (kI (BitVec.ofNat 32 D)) (ix1 e)
      = BitVec.ofNat 32 (flat 1048576 (nz (adjM A)) e.val / D) := floordiv_ofNat _ _ D (q_apply A e) hf hD0 hD
  have hr : remainder (floor_divide (cumsum_1 (histo A)) (kI (BitVec.ofNat 32 D))) (kI 1024#32) (ix1 e)
      = BitVec.ofNat 32 (flat 1048576 (nz (adjM A)) e.val / D % 1024) :=
    remainder_ofNat _ _ 1024 hq (lt_of_le_of_lt (Nat.div_le_self _ _) hf) (by norm_num) (by norm_num)
  show Scalar.select (padMask A (ix1 e)) 1024#32 _ = _
  rw [hr, padMask_apply]
  by_cases h : nnz 1048576 (nz (adjM A)) ≤ e.val
  · rw [if_pos h, if_neg (by omega), select_one]
  · rw [if_neg h, if_pos (by omega), select_zero]

theorem idxWords_src (e : Fin 1048576) :
    (idxWords A).1 (ix1 e) = BitVec.ofNat 32 (srcN (fun i j => A (ix2 i j)) e.val) :=
  (word_apply A 1024 (by norm_num) (by norm_num) e).trans (congrArg _ (if_ctx_congr Iff.rfl
    (fun h => Nat.mod_eq_of_lt (by have := flat_lt 1048576 (nz (adjM A)) h; omega)) fun _ => rfl))

theorem idxWords_dst (e : Fin 1048576) :
    (idxWords A).2 (ix1 e) = BitVec.ofNat 32 (dstN (fun i j => A (ix2 i j)) e.val) :=
  (word_apply A 1 (by norm_num) (by norm_num) e).trans (by rw [Nat.div_one]; rfl)

end AtIdeal

end Cert.RefIndex

end
-- ==== Proof.RefValueIdx.lean ====
import proofs.«135979_g12610023981851_fold_wed_c4_432_5_alg».proof.Proof.RefOps
import proofs.«135979_g12610023981851_fold_wed_c4_432_5_alg».proof.Proof.RefIndex
import Idealize.ShloMosaic.Lib.Pipeline.Frame
import Idealize.ShloMosaic.Lib.Tactic

set_option Elab.async false

noncomputable section

namespace Cert.ReferenceIdeal.Run

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

-- the stretch that lists the nonzero positions of the adjacency matrix, cut at the results of its calls
def sA : List (HloOp τ sig (Elt F)) := seg 0 3
def sB : List (HloOp τ sig (Elt F)) := seg 3 5
def sC : List (HloOp τ sig (Elt F)) := seg 8 13

noncomputable def sD : List (HloOp τ sig (Elt F)) :=
  [ StableHlo.unary main_v9 main_v10 (broadcastInDim S1048576x1 ![0] bcast_S1048576_S1048576x1_0),
    StableHlo.nullary main_c_3 (constantI S_ 32 1#32),
    StableHlo.unary main_c_3 main_v11 (broadcastInDim S1048576 ![] bcast_S_S1048576),
    StableHlo.ternary main_v3 main_v10 main_v11 main_v12 (fun x i u => Host.scatter scatter_S1048576_S1048576x1_S1048576_n_0_0_1 IntOp.addi x i u) ]

def sE : List (HloOp τ sig (Elt F)) := seg 25 3
def sF : List (HloOp τ sig (Elt F)) := seg 28 17
def sG : List (HloOp τ sig (Elt F)) := seg 45 22
def sH : List (HloOp τ sig (Elt F)) := seg 67 17
def sI : List (HloOp τ sig (Elt F)) := seg 84 22

noncomputable def sJ : List (HloOp τ sig (Elt F)) :=
  [ StableHlo.nullary main_v18 (iotaInDim S1048576 32 0),
    StableHlo.unary main_v1 main_v19 (extui 32 · natLt_1_32),
    StableHlo.nullary main_c_8 (constantI S_ 32 0#32),
    StableHlo.binary main_v19 main_c_8 main_v20 (fun x v => Host.reduce IntOp.addi x v reducesTo_S1024x1024_S_d0_1 h_S_),
    StableHlo.unary main_v20 main_v21 (broadcastInDim S1048576 ![] bcast_S_S1048576),
    StableHlo.binary main_v18 main_v21 main_v22 (cmpi .sge) ]

def sK : List (HloOp τ sig (Elt F)) := seg 112 4
def sL : List (HloOp τ sig (Elt F)) := seg 116 4

def sIdx : List (HloOp τ sig (Elt F)) :=
  sA ++ (sB ++ (sC ++ (sD ++ (sE ++ (sF ++ (sG ++ (sH ++ (sI ++ (sJ ++ (sK ++ sL))))))))))

theorem iA (W : Valuation τ sig (Elt F)) : after sA W (main_v1 : DevRef τ sig)
    = cmpf .une (W (main_arg1 : DevRef τ sig) : FVec F S1024x1024 .f32) (broadcastInDim S1024x1024 ![] bcast_S_S1024x1024 (constant S_ .f32 0x00000000#32)) := by sl_kernel_rfl
theorem iB (W : Valuation τ sig (Elt F)) : after sB W (main_v2 : DevRef τ sig)
    = Cert.RefIndex.cumsum (W (main_v1 : DevRef τ sig)) := by sl_kernel_rfl
theorem iC3 (W : Valuation τ sig (Elt F)) : after sC W (main_v3 : DevRef τ sig)
    = (broadcastInDim S1048576 ![] bcast_S_S1048576 (constantI S_ 32 0#32) : IVec S1048576 32) := by sl_kernel_rfl
theorem iC9 (W : Valuation τ sig (Elt F)) : after sC W (main_v9 : DevRef τ sig)
    = (let v4 : IVec S1048576 32 := Cert.RefIndex.clip (W (main_v2 : DevRef τ sig)) (constantI S_ 32 0#32)
       let c_1 : IVec S_ 32 := constantI S_ 32 0#32
       let v5 : IVec S1048576 32 := broadcastInDim S1048576 ![] bcast_S_S1048576 c_1
       let v6 : IVec S1048576 1 := cmpi .slt v4 v5
       let c_2 : IVec S_ 32 := constantI S_ 32 1048576#32
       let v7 : IVec S1048576 32 := broadcastInDim S1048576 ![] bcast_S_S1048576 c_2
       let v8 : IVec S1048576 32 := addi v4 v7
       let v9 : IVec S1048576 32 := select v6 v8 v4
       v9) := by sl_kernel_rfl
theorem iD (W : Valuation τ sig (Elt F)) : after sD W (main_v12 : DevRef τ sig)
    = (let v3 : IVec S1048576 32 := W (main_v3 : DevRef τ sig)
       let v9 : IVec S1048576 32 := W (main_v9 : DevRef τ sig)
       let v10 : IVec S1048576x1 32 := broadcastInDim S1048576x1 ![0] bcast_S1048576_S1048576x1_0 v9
       let c_3 : IVec S_ 32 := constantI S_ 32 1#32
       let v11 : IVec S1048576 32 := broadcastInDim S1048576 ![] bcast_S_S1048576 c_3
       let v12 : IVec S1048576 32 := Host.scatter scatter_S1048576_S1048576x1_S1048576_n_0_0_1 IntOp.addi v3 v10 v11
       v12) := by
  unfold sD
  after_results_simp
theorem iE (W : Valuation τ sig (Elt F)) : after sE W (main_v13 : DevRef τ sig)
    = Cert.RefIndex.cumsum_1 (W (main_v12 : DevRef τ sig)) := by sl_kernel_rfl
theorem iF (W : Valuation τ sig (Elt F)) : after sF W (main_v14 : DevRef τ sig)
    = Cert.RefIndex.floor_divide (W (main_v13 : DevRef τ sig)) (constantI S_ 32 1024#32) := by sl_kernel_rfl
theorem iG (W : Valuation τ sig (Elt F)) : after sG W (main_v15 : DevRef τ sig)
    = Cert.RefIndex.remainder (W (main_v14 : DevRef τ sig)) (constantI S_ 32 1024#32) := by sl_kernel_rfl
theorem iH (W : Valuation τ sig (Elt F)) : after sH W (main_v16 : DevRef τ sig)
    = Cert.RefIndex.floor_divide (W (main_v13 : DevRef τ sig)) (constantI S_ 32 1#32) := by sl_kernel_rfl
theorem iI (W : Valuation τ sig (Elt F)) : after sI W (main_v17 : DevRef τ sig)
    = Cert.RefIndex.remainder (W (main_v16 : DevRef τ sig)) (constantI S_ 32 1024#32) := by sl_kernel_rfl
theorem iJ (W : Valuation τ sig (Elt F)) : after sJ W (main_v22 : DevRef τ sig)
    = (let v1 : IVec S1024x1024 1 := W (main_v1 : DevRef τ sig)
       let v18 : IVec S1048576 32 := iotaInDim S1048576 32 0
       let v19 : IVec S1024x1024 32 := extui 32 v1 natLt_1_32
       let c_8 : IVec S_ 32 := constantI S_ 32 0#32
       let v20 : IVec S_ 32 := Host.reduce IntOp.addi v19 c_8 reducesTo_S1024x1024_S_d0_1 h_S_
       let v21 : IVec S1048576 32 := broadcastInDim S1048576 ![] bcast_S_S1048576 v20
       let v22 : IVec S1048576 1 := cmpi .sge v18 v21
       v22) := by
  unfold sJ
  after_results_simp
theorem iK (W : Valuation τ sig (Elt F)) : after sK W (main_v23 : DevRef τ sig)
    = Cert.RefIndex.where_3 (W (main_v22 : DevRef τ sig)) (constantI S_ 32 1024#32) (W (main_v15 : DevRef τ sig)) := by sl_kernel_rfl
theorem iL (W : Valuation τ sig (Elt F)) : after sL W (main_v24 : DevRef τ sig)
    = Cert.RefIndex.where_3 (W (main_v22 : DevRef τ sig)) (constantI S_ 32 1024#32) (W (main_v17 : DevRef τ sig)) := by sl_kernel_rfl

-- a buffer a later piece reads is left as it was
theorem kB_v1 (W : Valuation τ sig (Elt F)) : after sB W (main_v1 : DevRef τ sig) = W (main_v1 : DevRef τ sig) := by sl_kernel_rfl
theorem kC_v1 (W : Valuation τ sig (Elt F)) : after sC W (main_v1 : DevRef τ sig) = W (main_v1 : DevRef τ sig) := by sl_kernel_rfl
theorem kD_v1 (W : Valuation τ sig (Elt F)) : after sD W (main_v1 : DevRef τ sig) = W (main_v1 : DevRef τ sig) := by sl_kernel_rfl
theorem kE_v1 (W : Valuation τ sig (Elt F)) : after sE W (main_v1 : DevRef τ sig) = W (main_v1 : DevRef τ sig) := by sl_kernel_rfl
theorem kF_v1 (W : Valuation τ sig (Elt F)) : after sF W (main_v1 : DevRef τ sig) = W (main_v1 : DevRef τ sig) := by sl_kernel_rfl
theorem kF_v13 (W : Valuation τ sig (Elt F)) : after sF W (main_v13 : DevRef τ sig) = W (main_v13 : DevRef τ sig) := by sl_kernel_rfl
theorem kG_v1 (W : Valuation τ sig (Elt F)) : after sG W (main_v1 : DevRef τ sig) = W (main_v1 : DevRef τ sig) := by sl_kernel_rfl
theorem kG_v13 (W : Valuation τ sig (Elt F)) : after sG W (main_v13 : DevRef τ sig) = W (main_v13 : DevRef τ sig) := by sl_kernel_rfl
theorem kH_v1 (W : Valuation τ sig (Elt F)) : after sH W (main_v1 : DevRef τ sig) = W (main_v1 : DevRef τ sig) := by sl_kernel_rfl
theorem kH_v15 (W : Valuation τ sig (Elt F)) : after sH W (main_v15 : DevRef τ sig) = W (main_v15 : DevRef τ sig) := by sl_kernel_rfl
theorem kI_v1 (W : Valuation τ sig (Elt F)) : after sI W (main_v1 : DevRef τ sig) = W (main_v1 : DevRef τ sig) := by sl_kernel_rfl
theorem kI_v15 (W : Valuation τ sig (Elt F)) : after sI W (main_v15 : DevRef τ sig) = W (main_v15 : DevRef τ sig) := by sl_kernel_rfl
theorem kJ_v15 (W : Valuation τ sig (Elt F)) : after sJ W (main_v15 : DevRef τ sig) = W (main_v15 : DevRef τ sig) := by sl_kernel_rfl
theorem kJ_v17 (W : Valuation τ sig (Elt F)) : after sJ W (main_v17 : DevRef τ sig) = W (main_v17 : DevRef τ sig) := by sl_kernel_rfl
theorem kK_v17 (W : Valuation τ sig (Elt F)) : after sK W (main_v17 : DevRef τ sig) = W (main_v17 : DevRef τ sig) := by sl_kernel_rfl
theorem kK_v22 (W : Valuation τ sig (Elt F)) : after sK W (main_v22 : DevRef τ sig) = W (main_v22 : DevRef τ sig) := by sl_kernel_rfl
theorem kL_v23 (W : Valuation τ sig (Elt F)) : after sL W (main_v23 : DevRef τ sig) = W (main_v23 : DevRef τ sig) := by sl_kernel_rfl

-- the two index arrays after the stretch: the rows and the columns of the edges
theorem idx_s (W : Valuation τ sig (Elt F)) : after sIdx W (main_v23 : DevRef τ sig) = (Cert.RefIndex.idxWords (W (main_arg1 : DevRef τ sig))).1 := by
  unfold sIdx
  simp only [StableHlo.after_append]
  rw [kL_v23, iK, iJ, kJ_v15, kI_v1, kI_v15, kH_v1, kH_v15, kG_v1, iG, kF_v1, iF, kE_v1, iE, kD_v1, iD, kC_v1, iC3, iC9,
    kB_v1, iB, iA]
  sl_kernel_rfl

theorem idx_d (W : Valuation τ sig (Elt F)) : after sIdx W (main_v24 : DevRef τ sig) = (Cert.RefIndex.idxWords (W (main_arg1 : DevRef τ sig))).2 := by
  unfold sIdx
  simp only [StableHlo.after_append]
  rw [iL, kK_v22, kK_v17, iJ, kJ_v17, kI_v1, iI, kH_v1, iH, kG_v1, kG_v13, kF_v1, kF_v13, kE_v1, iE, kD_v1, iD, kC_v1, iC3, iC9,
    kB_v1, iB, iA]
  sl_kernel_rfl

theorem idx_arg0 (W : Valuation τ sig (Elt F)) : after sIdx W (main_arg0 : DevRef τ sig) = W (main_arg0 : DevRef τ sig) := by sl_kernel_rfl
theorem idx_arg2 (W : Valuation τ sig (Elt F)) : after sIdx W (main_arg2 : DevRef τ sig) = W (main_arg2 : DevRef τ sig) := by sl_kernel_rfl
theorem idx_arg3 (W : Valuation τ sig (Elt F)) : after sIdx W (main_arg3 : DevRef τ sig) = W (main_arg3 : DevRef τ sig) := by sl_kernel_rfl
theorem idx_arg4 (W : Valuation τ sig (Elt F)) : after sIdx W (main_arg4 : DevRef τ sig) = W (main_arg4 : DevRef τ sig) := by sl_kernel_rfl
theorem idx_arg5 (W : Valuation τ sig (Elt F)) : after sIdx W (main_arg5 : DevRef τ sig) = W (main_arg5 : DevRef τ sig) := by sl_kernel_rfl

end Cert.ReferenceIdeal.Run

end
-- ==== Proof.RefLayer1.lean ====
import proofs.«135979_g12610023981851_fold_wed_c4_432_5_alg».proof.Proof.Gen.ReferenceIdeal
import proofs.«135979_g12610023981851_fold_wed_c4_432_5_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember
import Idealize.ShloMosaic.Lib.IdealHost

noncomputable section

namespace Cert.RefLayer1

open Idealize.ShloMosaic Idealize.ShloMosaic.ValueIdx
open Cert.ReferenceIdeal Cert.ReferenceIdeal.Facts₀ Cert.ReferenceIdeal.Facts

def head32 {F : FTy → Type} [FloatOps F] [Cert.ReferenceIdeal.Facts] (x : FVec F S1024x256 .f32) (Wk : FVec F S256x32 .f32)
    (ak : FVec F S1x64 .f32) (s d : IVec S1048576 32) : FVec F S1024x32 .f32 :=
  let v29 : FVec F S1024x32 .f32 := ((fun l r => Host.dotGeneral dot_S1024x256_S256x32_S1024x32_1_0_0_1_n_n none l r) : (⟨S1024x256, .f32⟩ : BufTy).Contents (Elt F) → (⟨S256x32, .f32⟩ : BufTy).Contents (Elt F) → (⟨S1024x32, .f32⟩ : BufTy).Contents (Elt F)) x Wk
  let c_11 : IVec S_ 32 := (constantI S_ 32 0#32)
  let v30 : IVec S1048576 32 := (broadcastInDim S1048576 ![] bcast_S_S1048576 : (⟨S_, .i32⟩ : BufTy).Contents (Elt F) → (⟨S1048576, .i32⟩ : BufTy).Contents (Elt F)) c_11
  let v31 : IVec S1048576 1 := (cmpi .slt : (⟨S1048576, .i32⟩ : BufTy).Contents (Elt F) → (⟨S1048576, .i32⟩ : BufTy).Contents (Elt F) → (⟨S1048576, .i1⟩ : BufTy).Contents (Elt F)) s v30
  let c_12 : IVec S_ 32 := (constantI S_ 32 1024#32)
  let v32 : IVec S1048576 32 := (broadcastInDim S1048576 ![] bcast_S_S1048576 : (⟨S_, .i32⟩ : BufTy).Contents (Elt F) → (⟨S1048576, .i32⟩ : BufTy).Contents (Elt F)) c_12
  let v33 : IVec S1048576 32 := (addi : (⟨S1048576, .i32⟩ : BufTy).Contents (Elt F) → (⟨S1048576, .i32⟩ : BufTy).Contents (Elt F) → (⟨S1048576, .i32⟩ : BufTy).Contents (Elt F)) s v32
  let v34 : IVec S1048576 32 := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v31 v33 s
  let v35 : IVec S1048576x1 32 := (broadcastInDim S1048576x1 ![0] bcast_S1048576_S1048576x1_0 : (⟨S1048576, .i32⟩ : BufTy).Contents (Elt F) → (⟨S1048576x1, .i32⟩ : BufTy).Contents (Elt F)) v34
  let v36 : FVec F S1048576x32 .f32 := ((fun x i => Host.gather gather_S1024x32_S1048576x1_S1048576x32_1_0_n_n_0_1_132 x i) : (⟨S1024x32, .f32⟩ : BufTy).Contents (Elt F) → (⟨S1048576x1, .i32⟩ : BufTy).Contents (Elt F) → (⟨S1048576x32, .f32⟩ : BufTy).Contents (Elt F)) v29 v35
  let c_13 : IVec S_ 32 := (constantI S_ 32 0#32)
  let v37 : IVec S1048576 32 := (broadcastInDim S1048576 ![] bcast_S_S1048576 : (⟨S_, .i32⟩ : BufTy).Contents (Elt F) → (⟨S1048576, .i32⟩ : BufTy).Contents (Elt F)) c_13
  let v38 : IVec S1048576 1 := (cmpi .slt : (⟨S1048576, .i32⟩ : BufTy).Contents (Elt F) → (⟨S1048576, .i32⟩ : BufTy).Contents (Elt F) → (⟨S1048576, .i1⟩ : BufTy).Contents (Elt F)) d v37
  let c_14 : IVec S_ 32 := (constantI S_ 32 1024#32)
  let v39 : IVec S1048576 32 := (broadcastInDim S1048576 ![] bcast_S_S1048576 : (⟨S_, .i32⟩ : BufTy).Contents (Elt F) → (⟨S1048576, .i32⟩ : BufTy).Contents (Elt F)) c_14
  let v40 : IVec S1048576 32 := (addi : (⟨S1048576, .i32⟩ : BufTy).Contents (Elt F) → (⟨S1048576, .i32⟩ : BufTy).Contents (Elt F) → (⟨S1048576, .i32⟩ : BufTy).Contents (Elt F)) d v39
  let v41 : IVec S1048576 32 := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v38 v40 d
  let v42 : IVec S1048576x1 32 := (broadcastInDim S1048576x1 ![0] bcast_S1048576_S1048576x1_0 : (⟨S1048576, .i32⟩ : BufTy).Contents (Elt F) → (⟨S1048576x1, .i32⟩ : BufTy).Contents (Elt F)) v41
  let v43 : FVec F S1048576x32 .f32 := ((fun x i => Host.gather gather_S1024x32_S1048576x1_S1048576x32_1_0_n_n_0_1_132 x i) : (⟨S1024x32, .f32⟩ : BufTy).Contents (Elt F) → (⟨S1048576x1, .i32⟩ : BufTy).Contents (Elt F) → (⟨S1048576x32, .f32⟩ : BufTy).Contents (Elt F)) v29 v42
  let v44 : FVec F S1048576x64 .f32 := ((fun a b => concatenate S1048576x64 1 [⟨S1048576x32, a⟩, ⟨S1048576x32, b⟩] concatenates_S1048576x32_S1048576x32_S1048576x64_d1) : (⟨S1048576x32, .f32⟩ : BufTy).Contents (Elt F) → (⟨S1048576x32, .f32⟩ : BufTy).Contents (Elt F) → (⟨S1048576x64, .f32⟩ : BufTy).Contents (Elt F)) v36 v43
  let v45 : FVec F S64x1048576 .f32 := ((transpose S64x1048576 [1, 0] · transposes_S1048576x64_S64x1048576_1_0) : (⟨S1048576x64, .f32⟩ : BufTy).Contents (Elt F) → (⟨S64x1048576, .f32⟩ : BufTy).Contents (Elt F)) v44
  let v46 : FVec F S1x1048576 .f32 := ((fun l r => Host.dotGeneral dot_S1x64_S64x1048576_S1x1048576_1_0_0_1_n_n none l r) : (⟨S1x64, .f32⟩ : BufTy).Contents (Elt F) → (⟨S64x1048576, .f32⟩ : BufTy).Contents (Elt F) → (⟨S1x1048576, .f32⟩ : BufTy).Contents (Elt F)) ak v45
  let v47 : FVec F S1048576 .f32 := shapeCast S1048576 v46 shapeCasts_S1x1048576_S1048576
  let cst_15 : FVec F S_ .f32 := (constant S_ .f32 0x3E4CCCCD#32)
  let lr_cst : FVec F S_ .f32 := (constant S_ .f32 0x00000000#32)
  let lr_v0 : FVec F S1048576 .f32 := (broadcastInDim S1048576 ![] bcast_S_S1048576 : FVec F S_ .f32 → FVec F S1048576 .f32) lr_cst
  let lr_v1 : IVec S1048576 1 := (cmpf .oge : FVec F S1048576 .f32 → FVec F S1048576 .f32 → IVec S1048576 1) v47 lr_v0
  let lr_v2 : FVec F S_ .f32 := (id : FVec F S_ .f32 → FVec F S_ .f32) cst_15
  let lr_v3 : FVec F S1048576 .f32 := (broadcastInDim S1048576 ![] bcast_S_S1048576 : FVec F S_ .f32 → FVec F S1048576 .f32) lr_v2
  let lr_v4 : FVec F S1048576 .f32 := (mulf : FVec F S1048576 .f32 → FVec F S1048576 .f32 → FVec F S1048576 .f32) lr_v3 v47
  let v48 : FVec F S1048576 .f32 := (select : IVec S1048576 1 → FVec F S1048576 .f32 → FVec F S1048576 .f32 → FVec F S1048576 .f32) lr_v1 v47 lr_v4
  let v49 : FVec F S1048576 .f32 := (Host.negf : (⟨S1048576, .f32⟩ : BufTy).Contents (Elt F) → (⟨S1048576, .f32⟩ : BufTy).Contents (Elt F)) v48
  let v50 : FVec F S1048576 .f32 := (Host.exp : (⟨S1048576, .f32⟩ : BufTy).Contents (Elt F) → (⟨S1048576, .f32⟩ : BufTy).Contents (Elt F)) v49
  let cst_16 : FVec F S_ .f32 := (constant S_ .f32 0x00000000#32)
  let v51 : FVec F S1024 .f32 := (broadcastInDim S1024 ![] bcast_S_S1024 : (⟨S_, .f32⟩ : BufTy).Contents (Elt F) → (⟨S1024, .f32⟩ : BufTy).Contents (Elt F)) cst_16
  let v52 : IVec S1048576x1 32 := (broadcastInDim S1048576x1 ![0] bcast_S1048576_S1048576x1_0 : (⟨S1048576, .i32⟩ : BufTy).Contents (Elt F) → (⟨S1048576x1, .i32⟩ : BufTy).Contents (Elt F)) s
  let v53 : FVec F S1024 .f32 := ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)) v51 v52 v50
  let v54 : FVec F S1024x1 .f32 := (broadcastInDim S1024x1 ![0] bcast_S1024_S1024x1_0 : (⟨S1024, .f32⟩ : BufTy).Contents (Elt F) → (⟨S1024x1, .f32⟩ : BufTy).Contents (Elt F)) v53
  let v55 : FVec F S1048576x1 .f32 := (broadcastInDim S1048576x1 ![0] bcast_S1048576_S1048576x1_0 : (⟨S1048576, .f32⟩ : BufTy).Contents (Elt F) → (⟨S1048576x1, .f32⟩ : BufTy).Contents (Elt F)) v50
  let c_17 : IVec S_ 32 := (constantI S_ 32 0#32)
  let v56 : IVec S1048576 32 := (broadcastInDim S1048576 ![] bcast_S_S1048576 : (⟨S_, .i32⟩ : BufTy).Contents (Elt F) → (⟨S1048576, .i32⟩ : BufTy).Contents (Elt F)) c_17
  let v57 : IVec S1048576 1 := (cmpi .slt : (⟨S1048576, .i32⟩ : BufTy).Contents (Elt F) → (⟨S1048576, .i32⟩ : BufTy).Contents (Elt F) → (⟨S1048576, .i1⟩ : BufTy).Contents (Elt F)) d v56
  let c_18 : IVec S_ 32 := (constantI S_ 32 1024#32)
  let v58 : IVec S1048576 32 := (broadcastInDim S1048576 ![] bcast_S_S1048576 : (⟨S_, .i32⟩ : BufTy).Contents (Elt F) → (⟨S1048576, .i32⟩ : BufTy).Contents (Elt F)) c_18
  let v59 : IVec S1048576 32 := (addi : (⟨S1048576, .i32⟩ : BufTy).Contents (Elt F) → (⟨S1048576, .i32⟩ : BufTy).Contents (Elt F) → (⟨S1048576, .i32⟩ : BufTy).Contents (Elt F)) d v58
  let v60 : IVec S1048576 32 := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v57 v59 d
  let v61 : IVec S1048576x1 32 := (broadcastInDim S1048576x1 ![0] bcast_S1048576_S1048576x1_0 : (⟨S1048576, .i32⟩ : BufTy).Contents (Elt F) → (⟨S1048576x1, .i32⟩ : BufTy).Contents (Elt F)) v60
  let v62 : FVec F S1048576x32 .f32 := ((fun x i => Host.gather gather_S1024x32_S1048576x1_S1048576x32_1_0_n_n_0_1_132 x i) : (⟨S1024x32, .f32⟩ : BufTy).Contents (Elt F) → (⟨S1048576x1, .i32⟩ : BufTy).Contents (Elt F) → (⟨S1048576x32, .f32⟩ : BufTy).Contents (Elt F)) v29 v61
  let v63 : FVec F S1048576x32 .f32 := (broadcastInDim S1048576x32 ![0, 1] bcast_S1048576x1_S1048576x32_0_1 : (⟨S1048576x1, .f32⟩ : BufTy).Contents (Elt F) → (⟨S1048576x32, .f32⟩ : BufTy).Contents (Elt F)) v55
  let v64 : FVec F S1048576x32 .f32 := (mulf : (⟨S1048576x32, .f32⟩ : BufTy).Contents (Elt F) → (⟨S1048576x32, .f32⟩ : BufTy).Contents (Elt F) → (⟨S1048576x32, .f32⟩ : BufTy).Contents (Elt F)) v63 v62
  let cst_19 : FVec F S_ .f32 := (constant S_ .f32 0x00000000#32)
  let v65 : FVec F S1024x32 .f32 := (broadcastInDim S1024x32 ![] bcast_S_S1024x32 : (⟨S_, .f32⟩ : BufTy).Contents (Elt F) → (⟨S1024x32, .f32⟩ : BufTy).Contents (Elt F)) cst_19
  let v66 : IVec S1048576x1 32 := (broadcastInDim S1048576x1 ![0] bcast_S1048576_S1048576x1_0 : (⟨S1048576, .i32⟩ : BufTy).Contents (Elt F) → (⟨S1048576x1, .i32⟩ : BufTy).Contents (Elt F)) s
  let v67 : FVec F S1024x32 .f32 := ((fun x i u => Host.scatterAdd scatter_S1024x32_S1048576x1_S1048576x32_1_0_0_1 x i u) : (⟨S1024x32, .f32⟩ : BufTy).Contents (Elt F) → (⟨S1048576x1, .i32⟩ : BufTy).Contents (Elt F) → (⟨S1048576x32, .f32⟩ : BufTy).Contents (Elt F) → (⟨S1024x32, .f32⟩ : BufTy).Contents (Elt F)) v65 v66 v64
  let v68 : FVec F S1024x32 .f32 := (broadcastInDim S1024x32 ![0, 1] bcast_S1024x1_S1024x32_0_1 : (⟨S1024x1, .f32⟩ : BufTy).Contents (Elt F) → (⟨S1024x32, .f32⟩ : BufTy).Contents (Elt F)) v54
  let v69 : FVec F S1024x32 .f32 := (Host.divf : (⟨S1024x32, .f32⟩ : BufTy).Contents (Elt F) → (⟨S1024x32, .f32⟩ : BufTy).Contents (Elt F) → (⟨S1024x32, .f32⟩ : BufTy).Contents (Elt F)) v67 v68
  let e_cst : FVec F S_ .f32 := (constant S_ .f32 0x00000000#32)
  let e_v0 : FVec F S1024x32 .f32 := (broadcastInDim S1024x32 ![] bcast_S_S1024x32 : FVec F S_ .f32 → FVec F S1024x32 .f32) e_cst
  let e_v1 : IVec S1024x32 1 := (cmpf .ogt : FVec F S1024x32 .f32 → FVec F S1024x32 .f32 → IVec S1024x32 1) v69 e_v0
  let e_cst_0 : FVec F S_ .f32 := (constant S_ .f32 0x00000000#32)
  let e_v2 : FVec F S1024x32 .f32 := (broadcastInDim S1024x32 ![] bcast_S_S1024x32 : FVec F S_ .f32 → FVec F S1024x32 .f32) e_cst_0
  let e_v3 : IVec S1024x32 1 := (cmpf .ogt : FVec F S1024x32 .f32 → FVec F S1024x32 .f32 → IVec S1024x32 1) v69 e_v2
  let e_cst_1 : FVec F S_ .f32 := (constant S_ .f32 0x00000000#32)
  let w5_v0 : FVec F S_ .f32 := (id : FVec F S_ .f32 → FVec F S_ .f32) e_cst_1
  let w5_v1 : FVec F S1024x32 .f32 := (broadcastInDim S1024x32 ![] bcast_S_S1024x32 : FVec F S_ .f32 → FVec F S1024x32 .f32) w5_v0
  let w5_v2 : FVec F S1024x32 .f32 := (select : IVec S1024x32 1 → FVec F S1024x32 .f32 → FVec F S1024x32 .f32 → FVec F S1024x32 .f32) e_v3 w5_v1 v69
  let e_v5 : FVec F S1024x32 .f32 := (Host.expm1 : FVec F S1024x32 .f32 → FVec F S1024x32 .f32) w5_v2
  let e_cst_2 : FVec F S_ .f32 := (constant S_ .f32 0x3F800000#32)
  let e_v6 : FVec F S1024x32 .f32 := (broadcastInDim S1024x32 ![] bcast_S_S1024x32 : FVec F S_ .f32 → FVec F S1024x32 .f32) e_cst_2
  let e_v7 : FVec F S1024x32 .f32 := (mulf : FVec F S1024x32 .f32 → FVec F S1024x32 .f32 → FVec F S1024x32 .f32) e_v6 e_v5
  (select : IVec S1024x32 1 → FVec F S1024x32 .f32 → FVec F S1024x32 .f32 → FVec F S1024x32 .f32) e_v1 v69 e_v7

theorem flat_le (adj : Fin 1024 → Fin 1024 → EReal) (k : ℕ) : Cert.Spec.flat 1048576 (Cert.Spec.nz adj) k ≤ 1048576 :=
  (Finset.card_filter_le _ _).trans_eq (Finset.card_range _)

theorem srcN_le (adj : Fin 1024 → Fin 1024 → EReal) (e : ℕ) : Cert.Spec.srcN adj e ≤ 1024 := by
  unfold Cert.Spec.srcN
  have := flat_le adj e
  split <;> omega

theorem dstN_le (adj : Fin 1024 → Fin 1024 → EReal) (e : ℕ) : Cert.Spec.dstN adj e ≤ 1024 := by
  unfold Cert.Spec.dstN
  split <;> omega

theorem scatterAdd_apply {s si u : Shape} {w : ℕ} {φ : FTy} (D : ScatterDims s si u) (x : FVec Ideal s φ) (idx : IVec si w)
    (upd : FVec Ideal u φ) (i : s.Idx) :
    Host.scatterAdd D x idx upd i = x i + ∑ j ∈ Finset.univ.filter (fun j => D.resultIdx? j idx = some i), upd j := rfl

theorem select_ofBool {α : Type} (p : Prop) [Decidable p] (a b : α) :
    Scalar.select (BitVec.ofBool (decide p)) a b = if p then a else b := by
  by_cases h : p <;> simp [h, Scalar.select]

theorem resultIdx_eq_some_iff {s si u : Shape} (D : ScatterDims s si u) {w : ℕ} (j : u.Idx) (idx : IVec si w) (i : s.Idx) :
    D.resultIdx? j idx = some i ↔ ∀ a, D.start j idx a + (D.window j a : Int) = ((i a).val : Int) := by
  unfold ScatterDims.resultIdx?
  split
  · next h =>
    rw [Option.some.injEq, funext_iff]
    exact forall_congr' fun a => Fin.ext_iff.trans (by show (_ : ℤ).toNat = _ ↔ _; have := (h a).1; omega)
  · next h =>
    exact iff_of_false (by simp) fun H => h fun a => by rw [H a]; have := (i a).isLt; omega

-- An accumulating scatter from zero whose landing updates are the rows `r e` with `p e`: the sum over those `e`.
theorem scatter_rows {s si u : Shape} {w N : ℕ} (D : ScatterDims s si u) (h0 : S_.BroadcastsInDim s ![]) (idx : IVec si w)
    (upd : FVec Ideal u .f32) (i : s.Idx) (r : Fin N → u.Idx) (hr : Function.Injective r) {p : ℕ → Prop} {dp : DecidablePred p}
    (hq : ∀ j, D.resultIdx? j idx = some i ↔ ∃ e, p e.val ∧ r e = j) (G : ℕ → EReal) (hg : ∀ e, upd (r e) = G e.val) :
    Host.scatterAdd D (broadcastInDim s ![] h0 (constant (F := Ideal) S_ .f32 0x00000000#32)) idx upd i
      = 0 + ∑ e ∈ @Finset.filter _ p dp (Finset.range N), G e := by
  refine (scatterAdd_apply _ _ _ _ _).trans (congr (congrArg _ ((broadcastInDim_scalar_apply h0 _ i).trans Ideal.ofBits_zero_f32))
    (Finset.sum_bij (fun e he => r ⟨e, Finset.mem_range.mp (Finset.mem_filter.mp he).1⟩) ?_ ?_ ?_ ?_).symm)
  · exact fun e he => Finset.mem_filter.mpr ⟨Finset.mem_univ _, (hq _).mpr ⟨_, (Finset.mem_filter.mp he).2, rfl⟩⟩
  · exact fun e _ e' _ h => congrArg Fin.val (hr h)
  · exact fun j hj => let ⟨e, hp, h⟩ := (hq j).mp (Finset.mem_filter.mp hj).2
      ⟨e, Finset.mem_filter.mpr ⟨Finset.mem_range.mpr e.isLt, hp⟩, h⟩
  · exact fun e he => (hg ⟨e, Finset.mem_range.mp (Finset.mem_filter.mp he).1⟩).symm

theorem bcast2_apply {α : Type} {n m : ℕ} (h1 : (⟨1, ![n]⟩ : Shape).BroadcastsInDim ⟨2, ![n, 1]⟩ ![0])
    (h2 : (⟨2, ![n, 1]⟩ : Shape).BroadcastsInDim ⟨2, ![n, m]⟩ ![0, 1]) (v : (⟨1, ![n]⟩ : Shape).Idx → α) (e : Fin n) (t : Fin m) :
    broadcastInDim ⟨2, ![n, m]⟩ ![0, 1] h2 (broadcastInDim ⟨2, ![n, 1]⟩ ![0] h1 v) (ix2 e t) = v (ix1 e) :=
  have h : e.val = if n = 1 then 0 else e.val := by split <;> omega
  Eq.trans (broadcastInDim_apply _ _ _ _ (ix2 e (0 : Fin 1)) fun a => match a with | ⟨0, _⟩ => h | ⟨1, _⟩ => rfl)
    (broadcastInDim_apply _ _ v _ _ fun a => match a with | ⟨0, _⟩ => h)

theorem weight_read {s : Shape} (z c0 sl : FVec Ideal s .f32) (j : s.Idx) (R : EReal) (hz : z j = R) (h0 : c0 j = 0)
    (hsl : sl j = Cert.Spec.slope) :
    Host.exp (Host.negf (select (cmpf .oge z c0) z (mulf sl z))) j = Cert.Spec.weightR R := by
  show Ideal.exp (-(Scalar.select (BitVec.ofBool (decide (c0 j ≤ z j))) (z j) (sl j * z j))) = _
  rw [h0, hsl, hz, select_ofBool]
  rfl

theorem elu_read {s : Shape} (v c0 c0' c1 : FVec Ideal s .f32) (j : s.Idx) (h0 : c0 j = 0) (h0' : c0' j = 0) (h1 : c1 j = 1) :
    select (cmpf .ogt v c0) v (mulf c1 (Host.expm1 (select (cmpf .ogt v c0) c0' v))) j = Cert.Spec.eluR (v j) := by
  show Scalar.select (BitVec.ofBool (decide (c0 j < v j))) (v j)
    (c1 j * (Ideal.exp (Scalar.select (BitVec.ofBool (decide (c0 j < v j))) (c0' j) (v j)) - 1)) = _
  rw [h0, h0', h1, select_ofBool, select_ofBool]
  rfl

variable [Cert.ReferenceIdeal.Facts]

section Words
variable {s : IVec S1048576 32} {f : ℕ → ℕ} (hf : ∀ e, f e ≤ 1024) (hs : ∀ e : Fin 1048576, s (ix1 e) = BitVec.ofNat 32 (f e.val))
include hf hs

-- The word of list entry `e`, read signed, is the number `f e`.
theorem word_toInt (e : Fin 1048576) : (s (ix1 e)).toInt = (f e.val : ℤ) := by
  have := hf e.val
  rw [hs, BitVec.toInt_eq_toNat_of_lt (by rw [BitVec.toNat_ofNat]; omega), BitVec.toNat_ofNat]
  omega

theorem word_at (k : S1048576x1.Idx) (e : Fin 1048576) (hk : (k 0).val = e.val) :
    (broadcastInDim S1048576x1 ![0] bcast_S1048576_S1048576x1_0 s k).toInt = (f e.val : ℤ) := by
  rw [show broadcastInDim S1048576x1 ![0] bcast_S1048576_S1048576x1_0 s k = s (ix1 e) from
    broadcastInDim_apply _ _ s k _ fun a => match a with | ⟨0, _⟩ => hk.symm, word_toInt hf hs]

theorem fix_eq : select (cmpi .slt s (broadcastInDim S1048576 ![] bcast_S_S1048576 (constantI S_ 32 0#32)))
    (addi s (broadcastInDim S1048576 ![] bcast_S_S1048576 (constantI S_ 32 1024#32))) s = s := by
  funext j
  obtain ⟨e, rfl⟩ : ∃ e : Fin 1048576, j = ix1 e := ⟨j 0, eq_ix1 j⟩
  show Scalar.select (BitVec.ofBool (decide ((s (ix1 e)).toInt < (0#32).toInt))) _ _ = _
  rw [select_ofBool, if_neg (by rw [word_toInt hf hs]; exact not_lt.mpr (Int.natCast_nonneg _))]

theorem gather_word_apply {α : Type} (v : S1024x32.Idx → α) (e : Fin 1048576) (t : Fin 32) :
    Host.gather gather_S1024x32_S1048576x1_S1048576x32_1_0_n_n_0_1_132 v (broadcastInDim S1048576x1 ![0] bcast_S1048576_S1048576x1_0 s) (ix2 e t) = v (ix2 (Cert.Spec.cl (f e.val)) t) := by
  refine congrArg v (funext fun a => Fin.ext ?_)
  match a with
  | ⟨0, _⟩ =>
    show min (broadcastInDim S1048576x1 ![0] bcast_S1048576_S1048576x1_0 s _).toInt.toNat 1023 = min (f e.val) 1023
    rw [word_at hf hs _ e rfl]
    rfl
  | ⟨1, _⟩ => exact Nat.zero_add _

theorem den_lands (j : S1048576.Idx) (i : Fin 1024) :
    scatter_S1024_S1048576x1_S1048576_n_0_0_1.resultIdx? j (broadcastInDim S1048576x1 ![0] bcast_S1048576_S1048576x1_0 s) = some (ix1 i) ↔ f (j 0).val = i.val := by
  rw [resultIdx_eq_some_iff, Fin.forall_fin_one]
  show (broadcastInDim S1048576x1 ![0] bcast_S1048576_S1048576x1_0 s _).toInt + ((0 : ℕ) : ℤ) = (i.val : ℤ) ↔ _
  rw [word_at hf hs _ (j 0) rfl]
  omega

theorem num_lands (j : S1048576x32.Idx) (i : Fin 1024) (t : Fin 32) :
    scatter_S1024x32_S1048576x1_S1048576x32_1_0_0_1.resultIdx? j (broadcastInDim S1048576x1 ![0] bcast_S1048576_S1048576x1_0 s) = some (ix2 i t) ↔ f (j 0).val = i.val ∧ (j 1).val = t.val := by
  rw [resultIdx_eq_some_iff, Fin.forall_fin_two]
  show (broadcastInDim S1048576x1 ![0] bcast_S1048576_S1048576x1_0 s _).toInt + ((0 : ℕ) : ℤ) = (i.val : ℤ) ∧ (0 : ℤ) + (((j 1).val : ℕ) : ℤ) = (t.val : ℤ) ↔ _
  rw [word_at hf hs _ (j 0) rfl]
  omega

end Words

variable (x : FVec Ideal S1024x256 .f32) (Wk : FVec Ideal S256x32 .f32) (ak : FVec Ideal S1x64 .f32)
  (s d : IVec S1048576 32) (adj : Fin 1024 → Fin 1024 → EReal)
  (hs : ∀ e : Fin 1048576, s (ix1 e) = BitVec.ofNat 32 (Cert.Spec.srcN adj e.val))
  (hd : ∀ e : Fin 1048576, d (ix1 e) = BitVec.ofNat 32 (Cert.Spec.dstN adj e.val))

theorem proj_apply (i : Fin 1024) (t : Fin 32) :
    Host.dotGeneral dot_S1024x256_S256x32_S1024x32_1_0_0_1_n_n none x Wk (ix2 i t)
      = ∑ f : Fin 256, x (ix2 i f) * Wk (ix2 f t) :=
  StackMember.dotGeneral_plain_apply none x Wk i t

include hs hd

-- The score of list entry `e`: the attention vector against the projected features of its clamped source, then target.
theorem score_entry (P : FVec Ideal S1024x32 .f32) (X : Fin 1024 → Fin 256 → EReal) (W : Fin 256 → Fin 32 → EReal)
    (hP : ∀ i t, P (ix2 i t) = Cert.Spec.proj1 X W i t) (e : Fin 1048576) :
    shapeCast S1048576 (Host.dotGeneral dot_S1x64_S64x1048576_S1x1048576_1_0_0_1_n_n none ak (transpose S64x1048576 [1, 0]
        (concatenate S1048576x64 1 [⟨S1048576x32, Host.gather gather_S1024x32_S1048576x1_S1048576x32_1_0_n_n_0_1_132 P (broadcastInDim S1048576x1 ![0] bcast_S1048576_S1048576x1_0 s)⟩,
          ⟨S1048576x32, Host.gather gather_S1024x32_S1048576x1_S1048576x32_1_0_n_n_0_1_132 P (broadcastInDim S1048576x1 ![0] bcast_S1048576_S1048576x1_0 d)⟩] concatenates_S1048576x32_S1048576x32_S1048576x64_d1) transposes_S1048576x64_S64x1048576_1_0)) shapeCasts_S1x1048576_S1048576 (ix1 e)
      = Cert.Spec.scoreR1 X adj W (fun u => ak (ix2 (0 : Fin 1) u)) e.val := by
  rw [shapeCast_1a_a_apply]
  refine (StackMember.dotGeneral_plain_apply none ak _ 0 e).trans (Finset.sum_congr rfl fun u _ => congrArg (ak (ix2 0 u) * ·) ?_)
  rw [transpose_ix2_apply]
  by_cases h : u.val < 32
  · rw [dif_pos h]
    refine (concatenate_pair_apply_left (s₁ := S1048576x32) (s₂ := S1048576x32) 1 _ _ _ (ix2 e u) rfl (ix2 e ⟨u.val, h⟩)
      fun c => match c with | ⟨0, _⟩ => rfl | ⟨1, _⟩ => rfl).trans ?_
    rw [gather_word_apply (srcN_le adj) hs, hP]
  · rw [dif_neg h]
    refine (concatenate_pair_apply_right (s₁ := S1048576x32) (s₂ := S1048576x32) 1 _ _ _ (ix2 e u) rfl rfl (ix2 e ⟨u.val - 32, by omega⟩)
      (fun c hc => match c with | ⟨0, _⟩ => rfl | ⟨1, _⟩ => absurd (Fin.ext rfl) hc)
      (by show (u.val - 32) + 32 = u.val; omega)).trans ?_
    rw [gather_word_apply (dstN_le adj) hd, hP]

theorem head32_apply (i : Fin 1024) (t : Fin 32) :
    head32 x Wk ak s d (ValueIdx.ix2 i t)
      = Cert.Spec.hidR1 (fun i f => x (ValueIdx.ix2 i f)) adj (fun f t => Wk (ValueIdx.ix2 f t)) (fun u => ak (ValueIdx.ix2 0 u)) i t := by
  unfold head32 Cert.Spec.hidR1 Cert.Spec.numR1 Cert.Spec.denR1
  dsimp only
  rw [fix_eq (srcN_le adj) hs, fix_eq (dstN_le adj) hd]
  refine (elu_read _ _ _ _ _ Ideal.ofBits_zero_f32 Ideal.ofBits_zero_f32 Ideal.ofBits_one_f32).trans (congrArg Cert.Spec.eluR ?_)
  rw [hostDivf_apply, bcast2_apply]
  refine congr (congrArg Ideal.div ?_) ?_
  · refine scatter_rows (N := 1048576) _ _ _ _ _ (ix2 · t) (fun _ _ h => congrFun h 0) (fun j => (num_lands (srcN_le adj) hs j i t).trans
      ⟨fun H => ⟨j 0, H.1, Shape.idx_ext₂ rfl H.2.symm⟩, fun ⟨e, H, h⟩ => h ▸ ⟨H, rfl⟩⟩) _ fun e => ?_
    rw [mulf_apply, bcast2_apply, weight_read _ _ _ _ _ (score_entry ak s d adj hs hd _ _ _ (proj_apply x Wk) e) Ideal.ofBits_zero_f32 rfl,
      gather_word_apply (dstN_le adj) hd, proj_apply]
    rfl
  · exact scatter_rows (N := 1048576) _ _ _ _ _ ix1 (fun _ _ h => congrFun h 0) (fun j => (den_lands (srcN_le adj) hs j i).trans
      ⟨fun H => ⟨j 0, H, (eq_ix1 j).symm⟩, fun ⟨e, H, h⟩ => h ▸ H⟩) _
      fun e => weight_read _ _ _ _ _ (score_entry ak s d adj hs hd _ _ _ (proj_apply x Wk) e) Ideal.ofBits_zero_f32 rfl

end Cert.RefLayer1

end
-- ==== Proof.RefLayer2.lean ====
import proofs.«135979_g12610023981851_fold_wed_c4_432_5_alg».proof.Proof.Gen.ReferenceIdeal
import proofs.«135979_g12610023981851_fold_wed_c4_432_5_alg».proof.Proof.Spec
import Idealize.ShloMosaic.PureOps
import Idealize.ShloMosaic.PureOps.Ideal.Laws
import Idealize.ShloMosaic.Lib.ValueIdx
import Idealize.ShloMosaic.Lib.ValueIdxRank1
import Idealize.ShloMosaic.Lib.ValueIdxCoords
import Idealize.ShloMosaic.Lib.ValueLayout
import Idealize.ShloMosaic.Lib.IdealHost
import Idealize.ShloMosaic.Lib.Pipeline.Value
import Idealize.ShloMosaic.Lib.StableHlo.Predicate

noncomputable section

namespace Cert.RefLayer2

open Idealize.ShloMosaic Idealize.ShloMosaic.ValueIdx
open Cert.ReferenceIdeal
open Cert.ReferenceIdeal.Facts₀ Cert.ReferenceIdeal.Facts

variable {F : FTy → Type} [FloatOps F] [Cert.ReferenceIdeal.Facts]

def proj (h0 h1 h2 h3 : FVec F S1024x32 .f32) (Wo : FVec F S128x1 .f32) : FVec F S1024x1 .f32 :=
  Host.dotGeneral dot_S1024x128_S128x1_S1024x1_1_0_0_1_n_n none
    (concatenate S1024x128 1 [⟨S1024x32, h0⟩, ⟨S1024x32, h1⟩, ⟨S1024x32, h2⟩, ⟨S1024x32, h3⟩]
      concatenates_S1024x32_S1024x32_S1024x32_S1024x32_S1024x128_d1) Wo

def fixup (w : IVec S1048576 32) : IVec S1048576x1 32 :=
  broadcastInDim S1048576x1 ![0] bcast_S1048576_S1048576x1_0
    (select (cmpi .slt w (broadcastInDim S1048576 ![] bcast_S_S1048576 (constantI S_ 32 0#32)))
      (addi w (broadcastInDim S1048576 ![] bcast_S_S1048576 (constantI S_ 32 1024#32))) w)

def score (g : FVec F S1024x1 .f32) (ao : FVec F S1x2 .f32) (is id : IVec S1048576x1 32) : FVec F S1048576 .f32 :=
  shapeCast S1048576 (Host.dotGeneral dot_S1x2_S2x1048576_S1x1048576_1_0_0_1_n_n none ao
    (transpose S2x1048576 [1, 0] (concatenate S1048576x2 1
      [⟨S1048576x1, Host.gather gather_S1024x1_S1048576x1_S1048576x1_1_0_n_n_0_1_11 g is⟩, ⟨S1048576x1, Host.gather gather_S1024x1_S1048576x1_S1048576x1_1_0_n_n_0_1_11 g id⟩]
      concatenates_S1048576x1_S1048576x1_S1048576x2_d1) transposes_S1048576x2_S2x1048576_1_0))
    shapeCasts_S1x1048576_S1048576

def lrelu (x : FVec F S1048576 .f32) : FVec F S1048576 .f32 :=
  select (cmpf .oge x (broadcastInDim S1048576 ![] bcast_S_S1048576 (constant S_ .f32 0x00000000#32))) x
    (mulf (broadcastInDim S1048576 ![] bcast_S_S1048576 (constant S_ .f32 0x3E4CCCCD#32)) x)

def weight (x : FVec F S1048576 .f32) : FVec F S1048576 .f32 := Host.exp (Host.negf x)

def den (s : IVec S1048576 32) (w : FVec F S1048576 .f32) : FVec F S1024x1 .f32 :=
  broadcastInDim S1024x1 ![0] bcast_S1024_S1024x1_0
    (Host.scatterAdd scatter_S1024_S1048576x1_S1048576_n_0_0_1 (broadcastInDim S1024 ![] bcast_S_S1024 (constant S_ .f32 0x00000000#32))
      (broadcastInDim S1048576x1 ![0] bcast_S1048576_S1048576x1_0 s) w)

def num (g : FVec F S1024x1 .f32) (s : IVec S1048576 32) (id : IVec S1048576x1 32) (w : FVec F S1048576 .f32) :
    FVec F S1024x1 .f32 :=
  Host.scatterAdd scatter_S1024x1_S1048576x1_S1048576x1_1_0_0_1 (broadcastInDim S1024x1 ![] bcast_S_S1024x1 (constant S_ .f32 0x00000000#32))
    (broadcastInDim S1048576x1 ![0] bcast_S1048576_S1048576x1_0 s)
    (mulf (broadcastInDim S1048576x1 ![0] bcast_S1048576_S1048576x1_0 w) (Host.gather gather_S1024x1_S1048576x1_S1048576x1_1_0_n_n_0_1_11 g id))

def elu7 (x : FVec F S1024x1 .f32) : FVec F S1024x1 .f32 :=
  let z : FVec F S1024x1 .f32 := broadcastInDim S1024x1 ![] bcast_S_S1024x1 (constant S_ .f32 0x00000000#32)
  select (cmpf .ogt x z) x (mulf (broadcastInDim S1024x1 ![] bcast_S_S1024x1 (constant S_ .f32 0x3F800000#32))
    (Host.expm1 (select (cmpf .ogt x z) z x)))

def logit (x : FVec F S1024x1 .f32) : FVec F S1024x1 .f32 :=
  let one : FVec F S1024x1 .f32 := broadcastInDim S1024x1 ![] bcast_S_S1024x1 (constant S_ .f32 0x3F800000#32)
  Host.divf one (addf one (Host.exp (Host.negf x)))

def tail (h0 h1 h2 h3 : FVec F S1024x32 .f32) (Wo : FVec F S128x1 .f32) (ao : FVec F S1x2 .f32)
    (s d : IVec S1048576 32) : FVec F S1024x1 .f32 :=
  let g := proj h0 h1 h2 h3 Wo
  let w := weight (lrelu (score g ao (fixup s) (fixup d)))
  logit (elu7 (Host.divf (num g s (fixup d) w) (den s w)))

section Lemmas
variable [Cert.ReferenceIdeal.Facts]

open Idealize.ShloMosaic.StableHlo.Predicate (toInt_ofNat_small slt_ofNat_iff)

theorem cat4_apply (h0 h1 h2 h3 : FVec Ideal S1024x32 .f32) (i : Fin 1024) (u : Fin 128) :
    concatenate S1024x128 1 [⟨S1024x32, h0⟩, ⟨S1024x32, h1⟩, ⟨S1024x32, h2⟩, ⟨S1024x32, h3⟩]
      concatenates_S1024x32_S1024x32_S1024x32_S1024x32_S1024x128_d1 (ix2 i u)
    = Cert.Spec.cat4 (fun i t => h0 (ix2 i t)) (fun i t => h1 (ix2 i t)) (fun i t => h2 (ix2 i t))
        (fun i t => h3 (ix2 i t)) i u := by
  refine (concatenate_ofFn_apply (N := 4) 1 ![h0, h1, h2, h3] concatenates_S1024x32_S1024x32_S1024x32_S1024x32_S1024x128_d1
    rfl 32 rfl (ix2 i u) ⟨u.val / 32, by omega⟩ rfl (ix2 i ⟨u.val % 32, Nat.mod_lt _ (by decide)⟩) rfl
    fun b hb => match b, hb with | ⟨0, _⟩, _ => rfl | ⟨1, _⟩, hb => absurd rfl hb).trans ?_
  unfold Cert.Spec.cat4
  generalize (⟨u.val / 32, _⟩ : Fin 4) = k
  fin_cases k <;> rfl

-- A matrix product read at (i, c): the sum over the shared index of row i of the left factor against column c of the right.
theorem dot2_apply {M K N : ℕ} (D : DotDims ⟨2, ![M, K]⟩ ⟨2, ![K, N]⟩ ⟨2, ![M, N]⟩) (hr : D.contr.rank = 1)
    (hs : D.contr.size ⟨0, by omega⟩ = K) (hl : D.lhsContracting = [1]) (hrc : D.rhsContracting = [0])
    (h0 : ∀ j k, (D.lhsIdx j k 0).val = (j 0).val) (h1 : ∀ j k, (D.rhsIdx j k 1).val = (j 1).val)
    (A : FVec Ideal ⟨2, ![M, K]⟩ .f32) (B : FVec Ideal ⟨2, ![K, N]⟩ .f32) (i : Fin M) (c : Fin N) :
    Host.dotGeneral (F := Ideal) D none A B (ix2 i c) = ∑ u : Fin K, A (ix2 i u) * B (ix2 u c) := by
  show FloatOps.dotGeneral D none .single A B (ix2 i c) = _
  rw [Ideal.dotGeneral_apply, ← Equiv.sum_comp (contrEquiv1 D K hr hs).symm]
  refine Finset.sum_congr rfl fun u _ => ?_
  have hk := contrEquiv1_symm_val D K hr hs u
  congr 2 <;> refine (eq_ix2 _).trans (congrArg₂ ix2 (Fin.ext ?_) (Fin.ext ?_))
  · exact h0 _ _
  · exact (DotDims.lhsIdx_val_of_single D hl _ _).trans hk
  · exact (DotDims.rhsIdx_val_of_single D hrc _ _).trans hk
  · exact h1 _ _

theorem col_apply {α : Type} (w : S1048576.Idx → α) (e : Fin 1048576) :
    broadcastInDim S1048576x1 ![0] bcast_S1048576_S1048576x1_0 w (ix2 e 0) = w (ix1 e) :=
  broadcastInDim_apply _ _ _ (ix2 e 0) (ix1 e) fun a => match a with | ⟨0, _⟩ => rfl

theorem fixup_apply (w : IVec S1048576 32) (e : Fin 1048576) (n : ℕ) (hn : n ≤ 1024)
    (hw : w (ix1 e) = BitVec.ofNat 32 n) : fixup w (ix2 e 0) = BitVec.ofNat 32 n := by
  unfold fixup
  rw [col_apply]
  show Scalar.select (IntOp.cmpi .slt (w (ix1 e)) 0#32) (IntOp.addi (w (ix1 e)) 1024#32) (w (ix1 e)) = _
  rw [hw, (eq_zero_of_ne_one fun h => absurd ((slt_ofNat_iff n 0 (by omega) (by decide)).mp h) (Nat.not_lt_zero n) :
    IntOp.cmpi .slt (BitVec.ofNat 32 n) 0#32 = 0#1), select_zero]

theorem gather_row {α : Type} (x : S1024x1.Idx → α) (idx : IVec S1048576x1 32) (e : Fin 1048576) (n : ℕ) (hn : n ≤ 1024)
    (hidx : idx (ix2 e 0) = BitVec.ofNat 32 n) :
    Host.gather gather_S1024x1_S1048576x1_S1048576x1_1_0_n_n_0_1_11 x idx (ix2 e 0) = x (ix2 (Cert.Spec.cl n) 0) := by
  refine congrArg x ((eq_ix2 _).trans (congrArg₂ ix2 (Fin.ext ?_) (Subsingleton.elim (α := Fin 1) _ _)))
  show min (idx _).toInt.toNat 1023 + 0 + 0 = min n 1023
  rw [eq_ix2 (GatherDims.siIdx _ _ _)]
  show min (idx (ix2 e 0)).toInt.toNat 1023 = _
  rw [hidx, toInt_ofNat_small n (by omega), Int.toNat_natCast]

theorem cat2_apply {α : Type} (a b : S1048576x1.Idx → α) (e : Fin 1048576) (u : Fin 2) :
    concatenate S1048576x2 1 [⟨S1048576x1, a⟩, ⟨S1048576x1, b⟩] concatenates_S1048576x1_S1048576x1_S1048576x2_d1 (ix2 e u)
    = if u.val < 1 then a (ix2 e 0) else b (ix2 e 0) :=
  match u with
  | ⟨0, _⟩ => (concatenate_pair_apply_left 1 a b concatenates_S1048576x1_S1048576x1_S1048576x2_d1 (ix2 e 0) rfl (ix2 e 0)
      fun c => match c with | ⟨0, _⟩ => rfl | ⟨1, _⟩ => rfl).trans (if_pos Nat.one_pos).symm
  | ⟨1, _⟩ => (concatenate_pair_apply_right 1 a b concatenates_S1048576x1_S1048576x1_S1048576x2_d1 (ix2 e 1) rfl rfl (ix2 e 0)
      (fun c hc => match c, hc with | ⟨0, _⟩, _ => rfl | ⟨1, _⟩, hc => absurd rfl hc) rfl).trans (if_neg (Nat.lt_irrefl 1)).symm

-- A filtered sum over an index set, carried along a bijection with `Fin N` to the positions below `N` that satisfy `Q`.
theorem sum_filter_reindex {ι : Type} {fι : Fintype ι} {N : ℕ} (E : ι ≃ Fin N) (P : ι → Prop) {dP : DecidablePred P}
    (f : ι → EReal) (Q : ℕ → Prop) {dQ : DecidablePred Q} (g : ℕ → EReal)
    (hP : ∀ e : Fin N, P (E.symm e) ↔ Q e.val) (hf : ∀ e : Fin N, f (E.symm e) = g e.val) :
    ∑ j ∈ (@Finset.univ ι fι).filter P, f j = ∑ e ∈ (Finset.range N).filter Q, g e := by
  rw [Finset.sum_filter, Finset.sum_filter, ← Fin.sum_univ_eq_sum_range (fun e => if Q e then g e else 0) N,
    ← Equiv.sum_comp E.symm]
  exact Finset.sum_congr rfl fun e _ => if_congr (hP e) (hf e) rfl

def colEquiv : S1048576x1.Idx ≃ Fin 1048576 := idxEquiv2.trans (Equiv.prodUnique _ _)

-- An update lands on `i` exactly when, on every axis, its start plus its window coordinate is `i`'s coordinate.
theorem lands_iff {s si u : Shape} {w : ℕ} (D : ScatterDims s si u) (j : u.Idx) (idx : IVec si w) (i : s.Idx) :
    D.resultIdx? j idx = some i ↔ ∀ a, D.start j idx a + D.window j a = (i a).val := by
  unfold ScatterDims.resultIdx?
  by_cases h : ∀ a, 0 ≤ D.start j idx a + D.window j a ∧ D.start j idx a + D.window j a < s.size a
  · rw [dif_pos h, Option.some_inj]
    exact ⟨fun hi a => by subst hi; exact (Int.toNat_of_nonneg (h a).1).symm,
      fun hi => funext fun a => Fin.ext ((congrArg Int.toNat (hi a)).trans (Int.toNat_natCast _))⟩
  · rw [dif_neg h]
    exact ⟨fun hi => (nomatch hi), fun hi => absurd (fun a => by
      rw [hi a]; exact ⟨Int.natCast_nonneg _, Int.ofNat_lt.mpr (i a).isLt⟩) h⟩

theorem scatter1_lands (idx : IVec S1048576x1 32) (e : Fin 1048576) (n : ℕ) (hn : n ≤ 1024)
    (hidx : idx (ix2 e 0) = BitVec.ofNat 32 n) (i : Fin 1024) :
    scatter_S1024_S1048576x1_S1048576_n_0_0_1.resultIdx? (ix1 e) idx = some (ix1 i) ↔ n = i.val := by
  rw [lands_iff, Fin.forall_fin_one]
  show (idx _).toInt + ((0 : ℕ) : ℤ) = (i.val : ℤ) ↔ _
  rw [eq_ix2 (ScatterDims.siIdx _ _ _)]
  show (idx (ix2 e 0)).toInt + _ = _ ↔ _
  rw [hidx, toInt_ofNat_small n (by omega)]
  omega

theorem scatter2_lands (idx : IVec S1048576x1 32) (e : Fin 1048576) (n : ℕ) (hn : n ≤ 1024)
    (hidx : idx (ix2 e 0) = BitVec.ofNat 32 n) (i : Fin 1024) :
    scatter_S1024x1_S1048576x1_S1048576x1_1_0_0_1.resultIdx? (ix2 e 0) idx = some (ix2 i 0) ↔ n = i.val := by
  rw [lands_iff, Fin.forall_fin_two]
  show (idx _).toInt + ((0 : ℕ) : ℤ) = (i.val : ℤ) ∧ (0 : ℤ) + ((0 : ℕ) : ℤ) = ((0 : ℕ) : ℤ) ↔ _
  rw [eq_ix2 (ScatterDims.siIdx _ _ _)]
  show (idx (ix2 e 0)).toInt + _ = _ ∧ _ ↔ _
  rw [hidx, toInt_ofNat_small n (by omega)]
  omega

theorem select_decide {α : Type} (p : Prop) [Decidable p] (a b : α) :
    Scalar.select (BitVec.ofBool (decide p)) a b = if p then a else b := by
  by_cases h : p
  · rw [decide_eq_true h, if_pos h]; rfl
  · rw [decide_eq_false h, if_neg h]; rfl

theorem weight_lrelu_apply (z : FVec Ideal S1048576 .f32) (j : S1048576.Idx) :
    weight (lrelu z) j = Cert.Spec.weightR (z j) := by
  show Ideal.exp (-(Scalar.select (BitVec.ofBool (decide (Ideal.ofBits .f32 0#32 ≤ z j))) (z j) (Cert.Spec.slope * z j))) = _
  rw [Ideal.ofBits_zero_f32, select_decide]; rfl

theorem elu7_apply (x : FVec Ideal S1024x1 .f32) (j : S1024x1.Idx) : elu7 x j = Cert.Spec.eluR (x j) := by
  show Scalar.select (BitVec.ofBool (decide (Ideal.ofBits .f32 0#32 < x j))) (x j) (Ideal.ofBits .f32 0x3F800000#32 *
    (Ideal.exp (Scalar.select (BitVec.ofBool (decide (Ideal.ofBits .f32 0#32 < x j))) (Ideal.ofBits .f32 0#32) (x j)) - 1)) = _
  rw [Ideal.ofBits_zero_f32, Ideal.ofBits_one_f32, select_decide, select_decide]; rfl

theorem logit_apply (x : FVec Ideal S1024x1 .f32) (j : S1024x1.Idx) : logit x j = Ideal.logistic (x j) := by
  show Ideal.div (Ideal.ofBits .f32 0x3F800000#32) (Ideal.ofBits .f32 0x3F800000#32 + Ideal.exp (-(x j))) = _
  rw [Ideal.ofBits_one_f32]; rfl

theorem flat_le (M : ℕ) (msk : ℕ → Prop) [DecidablePred msk] (k : ℕ) : Cert.Spec.flat M msk k ≤ M :=
  (Finset.card_filter_le _ _).trans_eq (Finset.card_range M)
theorem srcN_le (adj : Fin 1024 → Fin 1024 → EReal) (e : ℕ) : Cert.Spec.srcN adj e ≤ 1024 := by
  unfold Cert.Spec.srcN; split
  · exact Nat.div_le_of_le_mul (flat_le _ _ _)
  · exact le_rfl
theorem dstN_le (adj : Fin 1024 → Fin 1024 → EReal) (e : ℕ) : Cert.Spec.dstN adj e ≤ 1024 := by
  unfold Cert.Spec.dstN; split
  · exact (Nat.mod_lt _ (by decide)).le
  · exact le_rfl

theorem scatterAdd_apply {s si u : Shape} {φ : FTy} {w : Nat} (d : ScatterDims s si u) (x : FVec Ideal s φ)
    (idx : IVec si w) (upd : FVec Ideal u φ) (i : s.Idx) :
    Host.scatterAdd d x idx upd i
    = x i + ∑ j ∈ Finset.univ.filter (fun j => d.resultIdx? j idx = some i), upd j := rfl

theorem zeros_apply {T : Shape} (h : S_.BroadcastsInDim T (![] : Fin 0 → Fin T.rank)) (j : T.Idx) :
    broadcastInDim T ![] h (constant (F := Ideal) S_ .f32 0x00000000#32) j = (0 : EReal) :=
  (broadcastInDim_scalar_apply _ _ _).trans Ideal.ofBits_zero_f32

theorem den_apply (s : IVec S1048576 32) (w : FVec Ideal S1048576 .f32) (i : Fin 1024)
    (adj : Fin 1024 → Fin 1024 → EReal)
    (hs : ∀ e : Fin 1048576, s (ix1 e) = BitVec.ofNat 32 (Cert.Spec.srcN adj e.val))
    (gw : ℕ → EReal) (hgw : ∀ e : Fin 1048576, w (ix1 e) = gw e.val) :
    den s w (ix2 i 0)
    = 0 + ∑ e ∈ (Finset.range 1048576).filter (fun e => Cert.Spec.srcN adj e = i.val), gw e := by
  unfold den
  rw [broadcastInDim_apply _ _ _ (ix2 i 0) (ix1 i) (fun a => by match a with | ⟨0, _⟩ => rfl),
    scatterAdd_apply, zeros_apply]
  exact congrArg (fun x : EReal => 0 + x) (sum_filter_reindex idxEquiv1 _ _ _ gw
    (fun e => scatter1_lands _ e _ (srcN_le adj e.val) ((col_apply s e).trans (hs e)) i) hgw)

theorem num_apply (g : FVec Ideal S1024x1 .f32) (s : IVec S1048576 32) (id : IVec S1048576x1 32)
    (w : FVec Ideal S1048576 .f32) (i : Fin 1024) (adj : Fin 1024 → Fin 1024 → EReal)
    (hs : ∀ e : Fin 1048576, s (ix1 e) = BitVec.ofNat 32 (Cert.Spec.srcN adj e.val))
    (hid : ∀ e : Fin 1048576, id (ix2 e 0) = BitVec.ofNat 32 (Cert.Spec.dstN adj e.val))
    (gw : ℕ → EReal) (hgw : ∀ e : Fin 1048576, w (ix1 e) = gw e.val)
    (G : Fin 1024 → EReal) (hG : ∀ r, g (ix2 r 0) = G r) :
    num g s id w (ix2 i 0)
    = 0 + ∑ e ∈ (Finset.range 1048576).filter (fun e => Cert.Spec.srcN adj e = i.val),
        gw e * G (Cert.Spec.cl (Cert.Spec.dstN adj e)) := by
  unfold num
  rw [scatterAdd_apply, zeros_apply]
  refine congrArg (fun x : EReal => 0 + x) (sum_filter_reindex colEquiv _ _ _
    (fun e => gw e * G (Cert.Spec.cl (Cert.Spec.dstN adj e)))
    (fun e => scatter2_lands _ e _ (srcN_le adj e.val) ((col_apply s e).trans (hs e)) i) (fun e => ?_))
  show broadcastInDim S1048576x1 ![0] bcast_S1048576_S1048576x1_0 w (ix2 e 0)
      * Host.gather gather_S1024x1_S1048576x1_S1048576x1_1_0_n_n_0_1_11 g id (ix2 e 0) = _
  rw [col_apply, gather_row g id e _ (dstN_le adj e.val) (hid e), hgw, hG]

-- The output head as a function of the projected feature `g`: its value at row `i` is the edge-list sum over the entries whose source is `i`.
theorem head_apply (g : FVec Ideal S1024x1 .f32) (ao : FVec Ideal S1x2 .f32) (s d : IVec S1048576 32)
    (adj : Fin 1024 → Fin 1024 → EReal)
    (hs : ∀ e : Fin 1048576, s (ix1 e) = BitVec.ofNat 32 (Cert.Spec.srcN adj e.val))
    (hd : ∀ e : Fin 1048576, d (ix1 e) = BitVec.ofNat 32 (Cert.Spec.dstN adj e.val))
    (Wo : Fin 128 → EReal) (H : Fin 1024 → Fin 128 → EReal) (hg : ∀ r, g (ix2 r 0) = Cert.Spec.gK Wo H r) (i : Fin 1024) :
    logit (elu7 (Host.divf (num g s (fixup d) (weight (lrelu (score g ao (fixup s) (fixup d)))))
      (den s (weight (lrelu (score g ao (fixup s) (fixup d))))))) (ix2 i 0)
    = Cert.Spec.outR adj Wo (fun u => ao (ix2 0 u)) H i := by
  have hfs := fun e : Fin 1048576 => fixup_apply s e _ (srcN_le adj e.val) (hs e)
  have hfd := fun e : Fin 1048576 => fixup_apply d e _ (dstN_le adj e.val) (hd e)
  have hw : ∀ e : Fin 1048576, weight (lrelu (score g ao (fixup s) (fixup d))) (ix1 e)
      = Cert.Spec.weightR (Cert.Spec.score2R adj Wo (fun u => ao (ix2 0 u)) H e.val) := fun e => by
    rw [weight_lrelu_apply]
    unfold score Cert.Spec.score2R
    rw [shapeCast_1a_a_apply, dot2_apply dot_S1x2_S2x1048576_S1x1048576_1_0_0_1_n_n rfl rfl rfl rfl (fun _ _ => rfl) (fun _ _ => rfl)]
    refine congrArg Cert.Spec.weightR (Finset.sum_congr rfl fun u _ => ?_)
    rw [transpose_ix2_apply, cat2_apply, gather_row _ _ e _ (srcN_le adj e.val) (hfs e),
      gather_row _ _ e _ (dstN_le adj e.val) (hfd e), hg, hg]
  rw [logit_apply, elu7_apply, hostDivf_apply,
    num_apply g s _ _ i adj hs hfd (fun n => Cert.Spec.weightR (Cert.Spec.score2R adj Wo _ H n)) hw _ hg,
    den_apply s _ i adj hs (fun n => Cert.Spec.weightR (Cert.Spec.score2R adj Wo _ H n)) hw]
  rfl

theorem tail_apply (h0 h1 h2 h3 : FVec Ideal S1024x32 .f32) (Wo : FVec Ideal S128x1 .f32) (ao : FVec Ideal S1x2 .f32)
    (s d : IVec S1048576 32) (adj : Fin 1024 → Fin 1024 → EReal)
    (hs : ∀ e : Fin 1048576, s (ValueIdx.ix1 e) = BitVec.ofNat 32 (Cert.Spec.srcN adj e.val))
    (hd : ∀ e : Fin 1048576, d (ValueIdx.ix1 e) = BitVec.ofNat 32 (Cert.Spec.dstN adj e.val)) (i : Fin 1024) :
    tail h0 h1 h2 h3 Wo ao s d (ValueIdx.ix2 i 0)
    = Cert.Spec.outR adj (fun u => Wo (ValueIdx.ix2 u 0)) (fun u => ao (ValueIdx.ix2 0 u))
        (Cert.Spec.cat4 (fun i t => h0 (ValueIdx.ix2 i t)) (fun i t => h1 (ValueIdx.ix2 i t))
          (fun i t => h2 (ValueIdx.ix2 i t)) (fun i t => h3 (ValueIdx.ix2 i t))) i := by
  refine head_apply (proj h0 h1 h2 h3 Wo) ao s d adj hs hd _ _ (fun r => ?_) i
  exact (dot2_apply dot_S1024x128_S128x1_S1024x1_1_0_0_1_n_n rfl rfl rfl rfl (fun _ _ => rfl) (fun _ _ => rfl) _ Wo r 0).trans
    (Finset.sum_congr rfl fun u _ => by rw [cat4_apply])

end Lemmas

end Cert.RefLayer2

end
-- ==== Proof.RefNet.lean ====
import proofs.«135979_g12610023981851_fold_wed_c4_432_5_alg».proof.Proof.RefIndex
import proofs.«135979_g12610023981851_fold_wed_c4_432_5_alg».proof.Proof.RefLayer1
import proofs.«135979_g12610023981851_fold_wed_c4_432_5_alg».proof.Proof.RefLayer2

noncomputable section

namespace Cert.RefNet

open Idealize.ShloMosaic Idealize.ShloMosaic.ValueIdx
open Cert.ReferenceIdeal Cert.ReferenceIdeal.Facts₀ Cert.ReferenceIdeal.Facts

variable {F : FTy → Type} [FloatOps F] [Cert.ReferenceIdeal.Facts]

def refNet (x : FVec F S1024x256 .f32) (adj : FVec F S1024x1024 .f32) (Ws : FVec F S4x256x32 .f32)
    (att : FVec F S4x1x64 .f32) (Wo : FVec F S128x1 .f32) (ao : FVec F S1x2 .f32) : FVec F S1024x1 .f32 :=
  let sd : IVec S1048576 32 × IVec S1048576 32 := Cert.RefIndex.idxWords adj
  let w0 : FVec F S1x256x32 .f32 := extractStridedSlice S1x256x32 ![0, 0, 0] Ws slices_S4x256x32_S1x256x32_0_0_0
  let W0 : FVec F S256x32 .f32 := shapeCast S256x32 w0 shapeCasts_S1x256x32_S256x32
  let a0 : FVec F S1x1x64 .f32 := extractStridedSlice S1x1x64 ![0, 0, 0] att slices_S4x1x64_S1x1x64_0_0_0
  let A0 : FVec F S1x64 .f32 := shapeCast S1x64 a0 shapeCasts_S1x1x64_S1x64
  let h0 : FVec F S1024x32 .f32 := Cert.RefLayer1.head32 x W0 A0 sd.1 sd.2
  let w1 : FVec F S1x256x32 .f32 := extractStridedSlice S1x256x32 ![1, 0, 0] Ws slices_S4x256x32_S1x256x32_1_0_0
  let W1 : FVec F S256x32 .f32 := shapeCast S256x32 w1 shapeCasts_S1x256x32_S256x32
  let a1 : FVec F S1x1x64 .f32 := extractStridedSlice S1x1x64 ![1, 0, 0] att slices_S4x1x64_S1x1x64_1_0_0
  let A1 : FVec F S1x64 .f32 := shapeCast S1x64 a1 shapeCasts_S1x1x64_S1x64
  let h1 : FVec F S1024x32 .f32 := Cert.RefLayer1.head32 x W1 A1 sd.1 sd.2
  let w2 : FVec F S1x256x32 .f32 := extractStridedSlice S1x256x32 ![2, 0, 0] Ws slices_S4x256x32_S1x256x32_2_0_0
  let W2 : FVec F S256x32 .f32 := shapeCast S256x32 w2 shapeCasts_S1x256x32_S256x32
  let a2 : FVec F S1x1x64 .f32 := extractStridedSlice S1x1x64 ![2, 0, 0] att slices_S4x1x64_S1x1x64_2_0_0
  let A2 : FVec F S1x64 .f32 := shapeCast S1x64 a2 shapeCasts_S1x1x64_S1x64
  let h2 : FVec F S1024x32 .f32 := Cert.RefLayer1.head32 x W2 A2 sd.1 sd.2
  let w3 : FVec F S1x256x32 .f32 := extractStridedSlice S1x256x32 ![3, 0, 0] Ws slices_S4x256x32_S1x256x32_3_0_0
  let W3 : FVec F S256x32 .f32 := shapeCast S256x32 w3 shapeCasts_S1x256x32_S256x32
  let a3 : FVec F S1x1x64 .f32 := extractStridedSlice S1x1x64 ![3, 0, 0] att slices_S4x1x64_S1x1x64_3_0_0
  let A3 : FVec F S1x64 .f32 := shapeCast S1x64 a3 shapeCasts_S1x1x64_S1x64
  let h3 : FVec F S1024x32 .f32 := Cert.RefLayer1.head32 x W3 A3 sd.1 sd.2
  Cert.RefLayer2.tail h0 h1 h2 h3 Wo ao sd.1 sd.2

end Cert.RefNet

end
-- ==== Proof.RefValueLayers.lean ====
import proofs.«135979_g12610023981851_fold_wed_c4_432_5_alg».proof.Proof.RefOps
import proofs.«135979_g12610023981851_fold_wed_c4_432_5_alg».proof.Proof.RefNet
import Idealize.ShloMosaic.Lib.Tactic

set_option Elab.async false

noncomputable section

namespace Cert.ReferenceIdeal.Run

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

-- the four heads' stretches and the output head's: each ends at its layer's function of what the buffers held before it
def sH0 : List (HloOp τ sig (Elt F)) := seg 120 75
def sH1 : List (HloOp τ sig (Elt F)) := seg 195 75
def sH2 : List (HloOp τ sig (Elt F)) := seg 270 75
def sH3 : List (HloOp τ sig (Elt F)) := seg 345 75
def sTail : List (HloOp τ sig (Elt F)) := seg 420 78

theorem h0_out (W : Valuation τ sig (Elt F)) : after sH0 W (main_v70 : DevRef τ sig)
    = Cert.RefLayer1.head32 (W (main_arg0 : DevRef τ sig))
        (shapeCast S256x32 (extractStridedSlice S1x256x32 ![0, 0, 0] (W (main_arg2 : DevRef τ sig)) slices_S4x256x32_S1x256x32_0_0_0) shapeCasts_S1x256x32_S256x32)
        (shapeCast S1x64 (extractStridedSlice S1x1x64 ![0, 0, 0] (W (main_arg3 : DevRef τ sig)) slices_S4x1x64_S1x1x64_0_0_0) shapeCasts_S1x1x64_S1x64)
        (W (main_v23 : DevRef τ sig)) (W (main_v24 : DevRef τ sig)) := by sl_kernel_rfl
theorem h0_arg0 (W : Valuation τ sig (Elt F)) : after sH0 W (main_arg0 : DevRef τ sig) = W (main_arg0 : DevRef τ sig) := by sl_kernel_rfl
theorem h0_arg2 (W : Valuation τ sig (Elt F)) : after sH0 W (main_arg2 : DevRef τ sig) = W (main_arg2 : DevRef τ sig) := by sl_kernel_rfl
theorem h0_arg3 (W : Valuation τ sig (Elt F)) : after sH0 W (main_arg3 : DevRef τ sig) = W (main_arg3 : DevRef τ sig) := by sl_kernel_rfl
theorem h0_arg4 (W : Valuation τ sig (Elt F)) : after sH0 W (main_arg4 : DevRef τ sig) = W (main_arg4 : DevRef τ sig) := by sl_kernel_rfl
theorem h0_arg5 (W : Valuation τ sig (Elt F)) : after sH0 W (main_arg5 : DevRef τ sig) = W (main_arg5 : DevRef τ sig) := by sl_kernel_rfl
theorem h0_s (W : Valuation τ sig (Elt F)) : after sH0 W (main_v23 : DevRef τ sig) = W (main_v23 : DevRef τ sig) := by sl_kernel_rfl
theorem h0_d (W : Valuation τ sig (Elt F)) : after sH0 W (main_v24 : DevRef τ sig) = W (main_v24 : DevRef τ sig) := by sl_kernel_rfl

theorem h1_out (W : Valuation τ sig (Elt F)) : after sH1 W (main_v116 : DevRef τ sig)
    = Cert.RefLayer1.head32 (W (main_arg0 : DevRef τ sig))
        (shapeCast S256x32 (extractStridedSlice S1x256x32 ![1, 0, 0] (W (main_arg2 : DevRef τ sig)) slices_S4x256x32_S1x256x32_1_0_0) shapeCasts_S1x256x32_S256x32)
        (shapeCast S1x64 (extractStridedSlice S1x1x64 ![1, 0, 0] (W (main_arg3 : DevRef τ sig)) slices_S4x1x64_S1x1x64_1_0_0) shapeCasts_S1x1x64_S1x64)
        (W (main_v23 : DevRef τ sig)) (W (main_v24 : DevRef τ sig)) := by sl_kernel_rfl
theorem h1_arg0 (W : Valuation τ sig (Elt F)) : after sH1 W (main_arg0 : DevRef τ sig) = W (main_arg0 : DevRef τ sig) := by sl_kernel_rfl
theorem h1_arg2 (W : Valuation τ sig (Elt F)) : after sH1 W (main_arg2 : DevRef τ sig) = W (main_arg2 : DevRef τ sig) := by sl_kernel_rfl
theorem h1_arg3 (W : Valuation τ sig (Elt F)) : after sH1 W (main_arg3 : DevRef τ sig) = W (main_arg3 : DevRef τ sig) := by sl_kernel_rfl
theorem h1_arg4 (W : Valuation τ sig (Elt F)) : after sH1 W (main_arg4 : DevRef τ sig) = W (main_arg4 : DevRef τ sig) := by sl_kernel_rfl
theorem h1_arg5 (W : Valuation τ sig (Elt F)) : after sH1 W (main_arg5 : DevRef τ sig) = W (main_arg5 : DevRef τ sig) := by sl_kernel_rfl
theorem h1_s (W : Valuation τ sig (Elt F)) : after sH1 W (main_v23 : DevRef τ sig) = W (main_v23 : DevRef τ sig) := by sl_kernel_rfl
theorem h1_d (W : Valuation τ sig (Elt F)) : after sH1 W (main_v24 : DevRef τ sig) = W (main_v24 : DevRef τ sig) := by sl_kernel_rfl
theorem h1_v70 (W : Valuation τ sig (Elt F)) : after sH1 W (main_v70 : DevRef τ sig) = W (main_v70 : DevRef τ sig) := by sl_kernel_rfl

theorem h2_out (W : Valuation τ sig (Elt F)) : after sH2 W (main_v162 : DevRef τ sig)
    = Cert.RefLayer1.head32 (W (main_arg0 : DevRef τ sig))
        (shapeCast S256x32 (extractStridedSlice S1x256x32 ![2, 0, 0] (W (main_arg2 : DevRef τ sig)) slices_S4x256x32_S1x256x32_2_0_0) shapeCasts_S1x256x32_S256x32)
        (shapeCast S1x64 (extractStridedSlice S1x1x64 ![2, 0, 0] (W (main_arg3 : DevRef τ sig)) slices_S4x1x64_S1x1x64_2_0_0) shapeCasts_S1x1x64_S1x64)
        (W (main_v23 : DevRef τ sig)) (W (main_v24 : DevRef τ sig)) := by sl_kernel_rfl
theorem h2_arg0 (W : Valuation τ sig (Elt F)) : after sH2 W (main_arg0 : DevRef τ sig) = W (main_arg0 : DevRef τ sig) := by sl_kernel_rfl
theorem h2_arg2 (W : Valuation τ sig (Elt F)) : after sH2 W (main_arg2 : DevRef τ sig) = W (main_arg2 : DevRef τ sig) := by sl_kernel_rfl
theorem h2_arg3 (W : Valuation τ sig (Elt F)) : after sH2 W (main_arg3 : DevRef τ sig) = W (main_arg3 : DevRef τ sig) := by sl_kernel_rfl
theorem h2_arg4 (W : Valuation τ sig (Elt F)) : after sH2 W (main_arg4 : DevRef τ sig) = W (main_arg4 : DevRef τ sig) := by sl_kernel_rfl
theorem h2_arg5 (W : Valuation τ sig (Elt F)) : after sH2 W (main_arg5 : DevRef τ sig) = W (main_arg5 : DevRef τ sig) := by sl_kernel_rfl
theorem h2_s (W : Valuation τ sig (Elt F)) : after sH2 W (main_v23 : DevRef τ sig) = W (main_v23 : DevRef τ sig) := by sl_kernel_rfl
theorem h2_d (W : Valuation τ sig (Elt F)) : after sH2 W (main_v24 : DevRef τ sig) = W (main_v24 : DevRef τ sig) := by sl_kernel_rfl
theorem h2_v70 (W : Valuation τ sig (Elt F)) : after sH2 W (main_v70 : DevRef τ sig) = W (main_v70 : DevRef τ sig) := by sl_kernel_rfl
theorem h2_v116 (W : Valuation τ sig (Elt F)) : after sH2 W (main_v116 : DevRef τ sig) = W (main_v116 : DevRef τ sig) := by sl_kernel_rfl

theorem h3_out (W : Valuation τ sig (Elt F)) : after sH3 W (main_v208 : DevRef τ sig)
    = Cert.RefLayer1.head32 (W (main_arg0 : DevRef τ sig))
        (shapeCast S256x32 (extractStridedSlice S1x256x32 ![3, 0, 0] (W (main_arg2 : DevRef τ sig)) slices_S4x256x32_S1x256x32_3_0_0) shapeCasts_S1x256x32_S256x32)
        (shapeCast S1x64 (extractStridedSlice S1x1x64 ![3, 0, 0] (W (main_arg3 : DevRef τ sig)) slices_S4x1x64_S1x1x64_3_0_0) shapeCasts_S1x1x64_S1x64)
        (W (main_v23 : DevRef τ sig)) (W (main_v24 : DevRef τ sig)) := by sl_kernel_rfl
theorem h3_arg4 (W : Valuation τ sig (Elt F)) : after sH3 W (main_arg4 : DevRef τ sig) = W (main_arg4 : DevRef τ sig) := by sl_kernel_rfl
theorem h3_arg5 (W : Valuation τ sig (Elt F)) : after sH3 W (main_arg5 : DevRef τ sig) = W (main_arg5 : DevRef τ sig) := by sl_kernel_rfl
theorem h3_s (W : Valuation τ sig (Elt F)) : after sH3 W (main_v23 : DevRef τ sig) = W (main_v23 : DevRef τ sig) := by sl_kernel_rfl
theorem h3_d (W : Valuation τ sig (Elt F)) : after sH3 W (main_v24 : DevRef τ sig) = W (main_v24 : DevRef τ sig) := by sl_kernel_rfl
theorem h3_v70 (W : Valuation τ sig (Elt F)) : after sH3 W (main_v70 : DevRef τ sig) = W (main_v70 : DevRef τ sig) := by sl_kernel_rfl
theorem h3_v116 (W : Valuation τ sig (Elt F)) : after sH3 W (main_v116 : DevRef τ sig) = W (main_v116 : DevRef τ sig) := by sl_kernel_rfl
theorem h3_v162 (W : Valuation τ sig (Elt F)) : after sH3 W (main_v162 : DevRef τ sig) = W (main_v162 : DevRef τ sig) := by sl_kernel_rfl

theorem tail_out (W : Valuation τ sig (Elt F)) : after sTail W (main_v255 : DevRef τ sig)
    = Cert.RefLayer2.tail (W (main_v70 : DevRef τ sig)) (W (main_v116 : DevRef τ sig)) (W (main_v162 : DevRef τ sig)) (W (main_v208 : DevRef τ sig))
        (W (main_arg4 : DevRef τ sig)) (W (main_arg5 : DevRef τ sig)) (W (main_v23 : DevRef τ sig)) (W (main_v24 : DevRef τ sig)) := by sl_kernel_rfl

end Cert.ReferenceIdeal.Run

end
-- ==== Proof.RefValue.lean ====
import proofs.«135979_g12610023981851_fold_wed_c4_432_5_alg».proof.Proof.RefValueIdx
import proofs.«135979_g12610023981851_fold_wed_c4_432_5_alg».proof.Proof.RefValueLayers

set_option Elab.async false

noncomputable section

namespace Cert.ReferenceIdeal.Run

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

theorem ops_segs : (ops : List (HloOp τ sig (Elt F))) = sIdx ++ (sH0 ++ (sH1 ++ (sH2 ++ (sH3 ++ sTail)))) := by sl_kernel_rfl

-- the fold over all operations is the folds over the stretches in turn
theorem out_eq (V : Valuation τ sig (Elt F)) : after ops V (main_v255 : DevRef τ sig)
    = Cert.RefNet.refNet (F := F) (V (main_arg0 : DevRef τ sig)) (V (main_arg1 : DevRef τ sig)) (V (main_arg2 : DevRef τ sig)) (V (main_arg3 : DevRef τ sig))
        (V (main_arg4 : DevRef τ sig)) (V (main_arg5 : DevRef τ sig)) := by
  rw [ops_segs, StableHlo.after_append, StableHlo.after_append, StableHlo.after_append, StableHlo.after_append,
    StableHlo.after_append]
  rw [tail_out]
  rw [h3_out, h3_v70, h3_v116, h3_v162, h3_arg4, h3_arg5, h3_s, h3_d]
  rw [h2_out, h2_v70, h2_v116, h2_arg0, h2_arg2, h2_arg3, h2_arg4, h2_arg5, h2_s, h2_d]
  rw [h1_out, h1_v70, h1_arg0, h1_arg2, h1_arg3, h1_arg4, h1_arg5, h1_s, h1_d]
  rw [h0_out, h0_arg0, h0_arg2, h0_arg3, h0_arg4, h0_arg5, h0_s, h0_d]
  rw [idx_s, idx_d, idx_arg0, idx_arg2, idx_arg3, idx_arg4, idx_arg5]
  sl_kernel_rfl

theorem arg0_eq (V : Valuation τ sig (Elt F)) : after ops V (main_arg0 : DevRef τ sig) = V (main_arg0 : DevRef τ sig) := by sl_kernel_rfl
theorem arg1_eq (V : Valuation τ sig (Elt F)) : after ops V (main_arg1 : DevRef τ sig) = V (main_arg1 : DevRef τ sig) := by sl_kernel_rfl
theorem arg2_eq (V : Valuation τ sig (Elt F)) : after ops V (main_arg2 : DevRef τ sig) = V (main_arg2 : DevRef τ sig) := by sl_kernel_rfl
theorem arg3_eq (V : Valuation τ sig (Elt F)) : after ops V (main_arg3 : DevRef τ sig) = V (main_arg3 : DevRef τ sig) := by sl_kernel_rfl
theorem arg4_eq (V : Valuation τ sig (Elt F)) : after ops V (main_arg4 : DevRef τ sig) = V (main_arg4 : DevRef τ sig) := by sl_kernel_rfl
theorem arg5_eq (V : Valuation τ sig (Elt F)) : after ops V (main_arg5 : DevRef τ sig) = V (main_arg5 : DevRef τ sig) := by sl_kernel_rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v255)
        = Cert.RefNet.refNet (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v255).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_main m ρ)

end Cert.ReferenceIdeal.Run

end
-- ==== Proof.RefGlue.lean ====
import Idealize.ShloMosaic.Lib.Pipeline.Value
import Idealize.ShloMosaic.Lib.ValueLayout
import Idealize.ShloMosaic.Lib.ValueIdx

noncomputable section

namespace Cert.RefGlue

open Idealize.ShloMosaic Idealize.ShloMosaic.ValueIdx

variable {α : Type}

theorem sliceW_apply (WS : (⟨3, ![4, 256, 32]⟩ : Shape).Idx → α) (k : Fin 4)
    (h : (⟨3, ![4, 256, 32]⟩ : Shape).Slices ![k.val, 0, 0] ⟨3, ![1, 256, 32]⟩)
    (h' : (⟨3, ![1, 256, 32]⟩ : Shape).ShapeCasts ⟨2, ![256, 32]⟩) (f : Fin 256) (t : Fin 32) :
    shapeCast ⟨2, ![256, 32]⟩ (extractStridedSlice ⟨3, ![1, 256, 32]⟩ ![k.val, 0, 0] WS h) h' (ix2 f t) = WS (ix3 k f t) := by
  rw [shapeCast_1ab_ab_apply]
  refine extractStridedSlice_apply _ WS h _ _ fun a => ?_
  match a with
  | ⟨0, _⟩ => rfl
  | ⟨1, _⟩ => exact (Nat.zero_add _).symm
  | ⟨2, _⟩ => exact (Nat.zero_add _).symm

theorem sliceA_apply (T : (⟨3, ![4, 1, 64]⟩ : Shape).Idx → α) (k : Fin 4)
    (h : (⟨3, ![4, 1, 64]⟩ : Shape).Slices ![k.val, 0, 0] ⟨3, ![1, 1, 64]⟩)
    (h' : (⟨3, ![1, 1, 64]⟩ : Shape).ShapeCasts ⟨2, ![1, 64]⟩) (z : Fin 1) (u : Fin 64) :
    shapeCast ⟨2, ![1, 64]⟩ (extractStridedSlice ⟨3, ![1, 1, 64]⟩ ![k.val, 0, 0] T h) h' (ix2 z u) = T (ix3 k 0 u) := by
  rw [shapeCast_1ab_ab_apply]
  refine extractStridedSlice_apply _ T h _ _ fun a => ?_
  match a with
  | ⟨0, _⟩ => rfl
  | ⟨1, _⟩ => show (0 : ℕ) = 0 + z.val; omega
  | ⟨2, _⟩ => exact (Nat.zero_add _).symm

end Cert.RefGlue

end
-- ==== Proof.SpecLemmas.lean ====
import proofs.«135979_g12610023981851_fold_wed_c4_432_5_alg».proof.Proof.Spec

noncomputable section

namespace Cert.Spec

theorem cat4_family (h : Fin 4 → Fin 1024 → Fin 32 → EReal) (i : Fin 1024) (u : Fin 128) :
    cat4 (h 0) (h 1) (h 2) (h 3) i u = h ⟨u.val / 32, by omega⟩ i ⟨u.val % 32, Nat.mod_lt _ (by decide)⟩ := by
  have hk : ∀ k : Fin 4, (![h 0, h 1, h 2, h 3] : Fin 4 → Fin 1024 → Fin 32 → EReal) k = h k := by
    intro k; fin_cases k <;> rfl
  unfold cat4
  rw [hk]

theorem cat4_hidR (x : Fin 1024 → Fin 256 → EReal) (adj : Fin 1024 → Fin 1024 → EReal)
    (Ws : Fin 4 → Fin 256 → Fin 32 → EReal) (att : Fin 4 → Fin 64 → EReal) :
    cat4 (hidR x adj Ws att 0) (hidR x adj Ws att 1) (hidR x adj Ws att 2) (hidR x adj Ws att 3) = hidAllR x adj Ws att := by
  funext i u
  exact cat4_family (fun k => hidR x adj Ws att k) i u

theorem cat4_hidK (x : Fin 1024 → Fin 256 → EReal) (adj : Fin 1024 → Fin 1024 → EReal)
    (Ws : Fin 4 → Fin 256 → Fin 32 → EReal) (att : Fin 4 → Fin 64 → EReal) :
    cat4 (hidK x adj Ws att 0) (hidK x adj Ws att 1) (hidK x adj Ws att 2) (hidK x adj Ws att 3) = hidAllK x adj Ws att := by
  funext i u
  exact cat4_family (fun k => hidK x adj Ws att k) i u

end Cert.Spec

end
-- ==== Proof.RefNetApply.lean ====
import proofs.«135979_g12610023981851_fold_wed_c4_432_5_alg».proof.Proof.RefNet
import proofs.«135979_g12610023981851_fold_wed_c4_432_5_alg».proof.Proof.RefGlue
import proofs.«135979_g12610023981851_fold_wed_c4_432_5_alg».proof.Proof.SpecLemmas

noncomputable section

namespace Cert.RefNet

open Idealize.ShloMosaic Idealize.ShloMosaic.ValueIdx
open Cert.ReferenceIdeal Cert.ReferenceIdeal.Facts₀ Cert.ReferenceIdeal.Facts

variable [Cert.ReferenceIdeal.Facts]

theorem head_read (X : FVec Ideal S1024x256 .f32) (A : FVec Ideal S1024x1024 .f32) (W : FVec Ideal S4x256x32 .f32)
    (T : FVec Ideal S4x1x64 .f32) (k : Fin 4) (hs : S4x256x32.Slices ![k.val, 0, 0] S1x256x32)
    (ht : S4x1x64.Slices ![k.val, 0, 0] S1x1x64) :
    (fun (i : Fin 1024) (t : Fin 32) =>
        Cert.RefLayer1.head32 X (shapeCast S256x32 (extractStridedSlice S1x256x32 ![k.val, 0, 0] W hs) shapeCasts_S1x256x32_S256x32)
          (shapeCast S1x64 (extractStridedSlice S1x1x64 ![k.val, 0, 0] T ht) shapeCasts_S1x1x64_S1x64)
          (Cert.RefIndex.idxWords A).1 (Cert.RefIndex.idxWords A).2 (ix2 i t))
      = Cert.Spec.hidR (fun i f => X (ix2 i f)) (fun i j => A (ix2 i j)) (fun k f t => W (ix3 k f t))
          (fun k u => T (ix3 k 0 u)) k := by
  funext i t
  rw [Cert.RefLayer1.head32_apply X _ _ _ _ (fun i j => A (ix2 i j)) (Cert.RefIndex.idxWords_src A)
    (Cert.RefIndex.idxWords_dst A) i t]
  have eW : (fun (f : Fin 256) (t : Fin 32) =>
      shapeCast S256x32 (extractStridedSlice S1x256x32 ![k.val, 0, 0] W hs) shapeCasts_S1x256x32_S256x32 (ix2 f t))
      = fun f t => W (ix3 k f t) :=
    funext fun f => funext fun t => Cert.RefGlue.sliceW_apply W k hs shapeCasts_S1x256x32_S256x32 f t
  have eT : (fun (u : Fin 64) =>
      shapeCast S1x64 (extractStridedSlice S1x1x64 ![k.val, 0, 0] T ht) shapeCasts_S1x1x64_S1x64 (ix2 0 u))
      = fun u => T (ix3 k 0 u) :=
    funext fun u => Cert.RefGlue.sliceA_apply T k ht shapeCasts_S1x1x64_S1x64 0 u
  rw [eW, eT]

theorem refNet_apply (X : FVec Ideal S1024x256 .f32) (A : FVec Ideal S1024x1024 .f32) (W : FVec Ideal S4x256x32 .f32)
    (T : FVec Ideal S4x1x64 .f32) (Wo : FVec Ideal S128x1 .f32) (ao : FVec Ideal S1x2 .f32) (i : Fin 1024) :
    refNet (F := Ideal) X A W T Wo ao (ix2 i 0)
      = Cert.Spec.netR (fun i f => X (ix2 i f)) (fun i j => A (ix2 i j)) (fun k f t => W (ix3 k f t))
          (fun k u => T (ix3 k 0 u)) (fun u => Wo (ix2 u 0)) (fun u => ao (ix2 0 u)) i := by
  unfold refNet
  rw [Cert.RefLayer2.tail_apply _ _ _ _ Wo ao _ _ (fun i j => A (ix2 i j)) (Cert.RefIndex.idxWords_src A)
    (Cert.RefIndex.idxWords_dst A) i]
  unfold Cert.Spec.netR
  refine congrArg (fun H => Cert.Spec.outR (fun i j => A (ix2 i j)) (fun u => Wo (ix2 u 0)) (fun u => ao (ix2 0 u)) H i) ?_
  rw [← Cert.Spec.cat4_hidR]
  exact congr (congr (congr (congrArg Cert.Spec.cat4 (head_read X A W T 0 _ _)) (head_read X A W T 1 _ _))
    (head_read X A W T 2 _ _)) (head_read X A W T 3 _ _)

end Cert.RefNet

end
-- ==== Proof.Bridge.lean ====
import proofs.«135979_g12610023981851_fold_wed_c4_432_5_alg».proof.Proof.Spec
import proofs.«135979_g12610023981851_fold_wed_c4_432_5_alg».proof.Proof.LibEnum
import Idealize.ShloMosaic.PureOps.Ideal
import Mathlib.Data.EReal.Operations
import Mathlib.Data.EReal.Inv
import Mathlib.Algebra.BigOperators.Fin
import Mathlib.Algebra.Order.BigOperators.Group.Finset
import Mathlib.Analysis.SpecialFunctions.Exp

noncomputable section
namespace Cert.Spec
open Idealize.ShloMosaic

theorem slope_real : ∃ c : ℝ, slope = (c : EReal) ∧ 0 < c ∧ c < 1 := by
  refine ⟨13421773 / 67108864, ?_, by norm_num, by norm_num⟩
  simp [slope, Ideal.ofBits, Ideal.ieee]
  rw [← EReal.coe_mul, EReal.coe_eq_coe_iff]
  norm_num

theorem eluR_eq_eluK (v : EReal) : eluR v = eluK v := by
  unfold eluR eluK
  by_cases h : 0 < v
  · simp only [if_pos h]
  · simp only [if_neg h, one_mul, min_eq_left (not_lt.mp h)]

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_min (a b : ℝ) : ((min a b : ℝ) : EReal) = min (a : EReal) (b : EReal) :=
  EReal.coe_strictMono.monotone.map_min

theorem real1_witness {A : Type} {f : A → EReal} (h : Real1 f) :
    ∃ g : A → ℝ, f = fun a => (g a : EReal) := by
  choose g hg using h
  exact ⟨g, funext fun a => hg a⟩

-- with y = s + d: where y ≤ 0 the minimum is y, else c y; either is -(lrelu (-y))
theorem weightK_one (s d : ℝ) :
    weightK (s : EReal) (d : EReal) 1 = weightR ((-(s + d) : ℝ) : EReal) := by
  obtain ⟨c, hc, h0, h1⟩ := slope_real
  unfold weightK weightR
  rw [hc, mul_one]
  congr 1
  rcases le_or_gt 0 (-(s + d)) with h | h
  · rw [if_pos (by exact_mod_cast h), min_eq_left (by exact_mod_cast (by nlinarith : s + d ≤ c * (s + d)))]
    exact_mod_cast (neg_neg (s + d)).symm
  · rw [if_neg (by exact_mod_cast not_le.2 h), min_eq_right (by exact_mod_cast (by nlinarith : c * (s + d) ≤ s + d))]
    exact_mod_cast (by ring : c * (s + d) = -(c * -(s + d)))

theorem cl_val (i : Fin 1024) : cl i.val = i := Fin.ext (by simp only [cl]; omega)

-- the list entries with source i are the marked positions 1024 i + j of row i, each once
theorem row_sum (adj : Fin 1024 → Fin 1024 → EReal) (i : Fin 1024) (G : Fin 1024 → Fin 1024 → EReal) :
    ∑ e ∈ (Finset.range 1048576).filter (fun e => srcN adj e = i.val), G (cl (srcN adj e)) (cl (dstN adj e))
      = ∑ j : Fin 1024, if adj i j ≠ 0 then G i j else 0 := by
  classical
  have hpos : ∀ j : Fin 1024, (1024 * i.val + j.val) / 1024 = i.val ∧ (1024 * i.val + j.val) % 1024 = j.val :=
    fun j => by omega
  refine (Finset.sum_congr (Finset.filter_congr fun e _ => ?_) fun e he => ?_).trans
    ((sum_flat 1048576 (nz adj) (fun p => G (cl (p / 1024)) (cl (p % 1024))) fun p => p / 1024 = i.val).trans ?_)
  · unfold srcN
    by_cases h : e < nnz 1048576 (nz adj)
    · simp [h]
    · simp [h]; omega
  · simp only [srcN, dstN, if_pos (Finset.mem_filter.1 he).2.1]
  rw [← Finset.sum_filter]
  symm
  refine Finset.sum_nbij' (fun j => 1024 * i.val + j.val) (fun p => cl (p % 1024)) ?_ ?_ ?_ ?_ ?_
  · intro j hj
    obtain ⟨h1, h2⟩ := hpos j
    rw [Finset.mem_filter, Finset.mem_range]
    refine ⟨by omega, ⟨by omega, ?_⟩, h1⟩
    simp only [h1, h2, Fin.eta]
    exact (Finset.mem_filter.1 hj).2
  · intro p hp
    obtain ⟨_, ⟨_, hne⟩, hrow⟩ := Finset.mem_filter.1 hp
    refine Finset.mem_filter.2 ⟨Finset.mem_univ _, ?_⟩
    convert hne using 2 <;> (apply Fin.ext; simp only [cl]; omega)
  · intro j _
    exact Fin.ext (by simp only [cl]; omega)
  · intro p hp
    have := (Finset.mem_filter.1 hp).2.2
    simp only [cl]
    omega
  · intro j _
    obtain ⟨h1, h2⟩ := hpos j
    simp only [h1, h2, cl_val]

theorem real_mul {u v : EReal} (hu : ∃ r : ℝ, u = r) (hv : ∃ r : ℝ, v = r) : ∃ r : ℝ, u * v = r := by
  obtain ⟨a, rfl⟩ := hu
  obtain ⟨b, rfl⟩ := hv
  exact ⟨a * b, (EReal.coe_mul a b).symm⟩

theorem real_neg {u : EReal} (hu : ∃ r : ℝ, u = r) : ∃ r : ℝ, -u = r := by
  obtain ⟨a, rfl⟩ := hu
  exact ⟨-a, (EReal.coe_neg a).symm⟩

theorem real_sum {ι : Type} [Fintype ι] {f : ι → EReal} (h : ∀ i, ∃ r : ℝ, f i = r) : ∃ r : ℝ, ∑ i, f i = r := by
  obtain ⟨g, rfl⟩ := real1_witness h
  exact ⟨_, (coe_sum _ g).symm⟩

-- one attention row in both forms: real negated scores S i, D j and the edge score Z i j = -(S i + D j)
theorem att_eq {adj : Fin 1024 → Fin 1024 → EReal} (hadj : Mask01 adj) {S D : Fin 1024 → EReal} (hS : Real1 S) (hD : Real1 D)
    {Z : Fin 1024 → Fin 1024 → EReal} (hZ : ∀ i j, Z i j = -(S i + D j)) (F : Fin 1024 → EReal) (i : Fin 1024) :
    eluR (Ideal.div
        (0 + ∑ e ∈ (Finset.range 1048576).filter (fun e => srcN adj e = i.val),
          weightR (Z (cl (srcN adj e)) (cl (dstN adj e))) * F (cl (dstN adj e)))
        (0 + ∑ e ∈ (Finset.range 1048576).filter (fun e => srcN adj e = i.val), weightR (Z (cl (srcN adj e)) (cl (dstN adj e)))))
      = eluK (Ideal.div (∑ j, weightK (S i) (D j) (adj i j) * F j) (∑ j, weightK (S i) (D j) (adj i j))) := by
  have hw : ∀ j, weightK (S i) (D j) (adj i j) = if adj i j ≠ 0 then weightR (Z i j) else 0 := fun j => by
    obtain ⟨s, hs⟩ := hS i
    obtain ⟨d, hd⟩ := hD j
    rcases hadj i j with h | h
    · rw [h, if_neg (not_not.2 rfl)]
      exact mul_zero _
    · rw [h, hZ, hs, hd, weightK_one, if_pos one_ne_zero, EReal.coe_neg, EReal.coe_add]
  rw [eluR_eq_eluK, zero_add, zero_add, row_sum adj i fun i' j' => weightR (Z i' j') * F j',
    row_sum adj i fun i' j' => weightR (Z i' j')]
  simp only [hw, ite_mul, zero_mul]

theorem sum_fin64 (f : Fin 64 → EReal) :
    ∑ u : Fin 64, f u = ∑ t : Fin 32, f (Fin.castAdd 32 t) + ∑ t : Fin 32, f (Fin.natAdd 32 t) :=
  Fin.sum_univ_add (a := 32) (b := 32) f

theorem score_eq {p q : Fin 32 → EReal} {a : Fin 64 → EReal} (hp : Real1 p) (hq : Real1 q) (ha : Real1 a) :
    (∑ u : Fin 64, a u * (if h : u.val < 32 then p ⟨u.val, h⟩ else q ⟨u.val - 32, by omega⟩))
      = -(∑ t : Fin 32, p t * -(a (Fin.castAdd 32 t)) + ∑ t : Fin 32, -(a (Fin.natAdd 32 t)) * q t) := by
  obtain ⟨P, rfl⟩ := real1_witness hp
  obtain ⟨Q, rfl⟩ := real1_witness hq
  obtain ⟨ar, rfl⟩ := real1_witness ha
  simp only [← EReal.coe_neg, ← EReal.coe_mul, ← coe_sum, ← EReal.coe_add]
  trans ((∑ t : Fin 32, ar (Fin.castAdd 32 t) * P t + ∑ t : Fin 32, ar (Fin.natAdd 32 t) * Q t : ℝ) : EReal)
  · rw [sum_fin64, EReal.coe_add, coe_sum, coe_sum]
    congr 1
  · rw [neg_add, ← Finset.sum_neg_distrib, ← Finset.sum_neg_distrib]
    congr 2 <;> exact Finset.sum_congr rfl fun t _ => by ring

theorem score2_eq {g : Fin 1024 → EReal} {ao : Fin 2 → EReal} (hg : Real1 g) (hao : Real1 ao) (i j : Fin 1024) :
    (∑ u : Fin 2, ao u * (if u.val < 1 then g i else g j)) = -(g i * -(ao 0) + g j * -(ao 1)) := by
  obtain ⟨a, ha⟩ := hg i
  obtain ⟨b, hb⟩ := hg j
  obtain ⟨c, hc⟩ := hao 0
  obtain ⟨d, hd⟩ := hao 1
  rw [Fin.sum_univ_two, if_pos (by decide), if_neg (by decide), ha, hb, hc, hd]
  exact_mod_cast (by ring : c * a + d * b = -(a * -c + b * -d))

theorem weightK_real {s d m : EReal} (hs : ∃ r : ℝ, s = r) (hd : ∃ r : ℝ, d = r) (hm : m = 0 ∨ m = 1) :
    0 ≤ weightK s d m ∧ ∃ r : ℝ, weightK s d m = r := by
  obtain ⟨s, rfl⟩ := hs
  obtain ⟨d, rfl⟩ := hd
  obtain ⟨c, hc, -⟩ := slope_real
  unfold weightK
  rw [hc, ← EReal.coe_add, ← EReal.coe_mul, ← coe_min, Ideal.exp_coe]
  rcases hm with rfl | rfl
  · exact ⟨(mul_zero _).ge, 0, mul_zero _⟩
  · exact ⟨by rw [mul_one]; exact EReal.coe_nonneg.2 (Real.exp_pos _).le, _, mul_one _⟩

-- 0 / 0 is ⊥, whose elu is -1; elsewhere the quotient is a real
theorem eluK_div_real (n d : ℝ) (h : d = 0 → n = 0) :
    ∃ q : ℝ, eluK (Ideal.div (n : EReal) (d : EReal)) = (q : EReal) := by
  have hv : Ideal.div (n : EReal) d = ⊥ ∨ ∃ r : ℝ, Ideal.div (n : EReal) d = r := by
    unfold Ideal.div
    by_cases hd : d = 0
    · rw [hd, h hd, if_pos EReal.coe_zero, if_neg (by simp)]
      exact .inl rfl
    · rw [if_neg (by exact_mod_cast hd), ← EReal.coe_inv, ← EReal.coe_mul]
      exact .inr ⟨_, rfl⟩
  unfold eluK
  rcases hv with hv | ⟨r, hv⟩ <;> rw [hv]
  · exact ⟨-1, by rw [if_neg not_lt_bot, min_eq_left bot_le, Ideal.exp_bot, zero_sub, EReal.coe_neg, EReal.coe_one]⟩
  · by_cases h0 : (0 : EReal) < r
    · exact ⟨r, if_pos h0⟩
    · exact ⟨Real.exp (min r 0) - 1,
        by rw [if_neg h0, ← EReal.coe_zero, ← coe_min, Ideal.exp_coe, EReal.coe_sub, EReal.coe_one]⟩

section Head
variable {x : Fin 1024 → Fin 256 → EReal} {adj : Fin 1024 → Fin 1024 → EReal} {W : Fin 256 → Fin 32 → EReal}
  {a : Fin 64 → EReal} (hx : Real2 x) (hadj : Mask01 adj) (hW : Real2 W) (ha : Real1 a)
include hx hW

theorem proj1_real : Real2 (proj1 x W) := fun i t => real_sum fun f => real_mul (hx i f) (hW f t)

include ha

theorem srcK1_real : Real1 (srcK1 x W a) := fun i => real_sum fun t => real_mul (proj1_real hx hW i t) (real_neg (ha _))

theorem dstK1_real : Real1 (dstK1 x W a) := fun j => real_sum fun t => real_mul (real_neg (ha _)) (proj1_real hx hW j t)

include hadj

theorem hidR1_eq_hidK1 (i : Fin 1024) (t : Fin 32) : hidR1 x adj W a i t = hidK1 x adj W a i t :=
  att_eq hadj (srcK1_real hx hW ha) (dstK1_real hx hW ha)
    (fun i j => score_eq (proj1_real hx hW i) (proj1_real hx hW j) ha) (fun j => proj1 x W j t) i

-- the denominator is a sum of nonnegative reals; where it vanishes every term of the numerator vanishes
theorem hidK1_real (i : Fin 1024) (t : Fin 32) : ∃ r : ℝ, hidK1 x adj W a i t = (r : EReal) := by
  have hw := fun j => weightK_real (srcK1_real hx hW ha i) (dstK1_real hx hW ha j) (hadj i j)
  obtain ⟨n, hn⟩ : ∃ r : ℝ, numK1 x adj W a i t = r := real_sum fun j => real_mul (hw j).2 (proj1_real hx hW j t)
  obtain ⟨d, hd⟩ : ∃ r : ℝ, denK1 x adj W a i = r := real_sum fun j => (hw j).2
  unfold hidK1
  rw [hn, hd]
  refine eluK_div_real n d fun h => ?_
  have hz := (Finset.sum_eq_zero_iff_of_nonneg fun j _ => (hw j).1).1 (hd.trans (by simp [h]))
  exact_mod_cast hn.symm.trans (Finset.sum_eq_zero fun j hj => by simp only [hz j hj, zero_mul])

end Head

theorem netR_eq_netK (x : Fin 1024 → Fin 256 → EReal) (adj : Fin 1024 → Fin 1024 → EReal)
    (Ws : Fin 4 → Fin 256 → Fin 32 → EReal) (att : Fin 4 → Fin 64 → EReal)
    (Wo : Fin 128 → EReal) (ao : Fin 2 → EReal)
    (hx : Real2 x) (hadj : Mask01 adj) (hW : ∀ k, Real2 (Ws k)) (ha : Real2 att)
    (hWo : Real1 Wo) (hao : Real1 ao) (i : Fin 1024) :
    netR x adj Ws att Wo ao i = netK x adj Ws att Wo ao i := by
  have h : hidAllR x adj Ws att = hidAllK x adj Ws att :=
    funext fun i => funext fun _ => hidR1_eq_hidK1 hx hadj (hW _) (ha _) i _
  have hg : Real1 (gK Wo (hidAllK x adj Ws att)) := fun i => real_sum fun u =>
    real_mul (hidK1_real hx hadj (hW _) (ha _) i _) (hWo u)
  unfold netR netK
  rw [h]
  exact congrArg Ideal.logistic (att_eq hadj (fun i => real_mul (hg i) (real_neg (hao 0)))
    (fun j => real_mul (hg j) (real_neg (hao 1))) (score2_eq hg hao) (gK Wo _) i)

end Cert.Spec
end
-- ==== Proof.PreDecode.lean ====
import proofs.«135979_g12610023981851_fold_wed_c4_432_5_alg».proof.Pre_finite_inputs
import proofs.«135979_g12610023981851_fold_wed_c4_432_5_alg».proof.Proof.Gen.Pre_finite_inputs
import proofs.«135979_g12610023981851_fold_wed_c4_432_5_alg».proof.Proof.Spec
import Idealize.ShloMosaic.Lib.ReduceAll
import Idealize.ShloMosaic.Lib.StableHlo.Predicate
import Idealize.ShloMosaic.Lib.ValueIdx
import Idealize.ShloMosaic.Lib.IdealHost
import Idealize.ShloMosaic.PureOps.Ideal
import Idealize.ShloMosaic.PureOps.Ideal.Laws

namespace Cert.PreDecode

open Idealize.ShloMosaic Cert.Pre_finite_inputs

instance : Subsingleton S_.Idx := ⟨fun a b => funext fun d => d.elim0⟩

-- at ⊥ the maximum is -⊥ = ⊤, at ⊤ it is ⊤
theorem real_of_abs_lt_top (x : EReal) (h : max x (-x) < ⊤) : ∃ r : ℝ, x = (r : EReal) := by
  induction x using EReal.rec with
  | coe r => exact ⟨r, rfl⟩
  | _ => simp at h

-- where the "all" of |x| < +∞ holds, every element of x is a real number
theorem real_of_all {s u : Shape} {ax : List (Fin s.rank)} {hb : S_.BroadcastsInDim s (![] : Fin 0 → Fin s.rank)}
    {x : FVec Ideal s .f32} {c : u.Idx → BitVec 1} {hr : s.ReducesTo ax S_} {hu : 0 < u.numel} {j : S_.Idx}
    (h : Host.reduce IntOp.andi (cmpf .olt (Host.absf x) (broadcastInDim s ![] hb (constant S_ .f32 0x7F800000#32)))
      c hr hu j = 1#1) (i : s.Idx) : ∃ r : ℝ, x i = (r : EReal) := by
  have h' : Ideal.cmp .olt (max (x i) (-(x i))) (Ideal.ofBits .f32 0x7F800000#32) = 1#1 :=
    Host.reduce_andi_all _ _ _ _ _ h i
  refine real_of_abs_lt_top _ ?_
  simpa [Ideal.cmp, StableHlo.Predicate.ofBool_eq_one_iff, Ideal.ofBits, Ideal.ieee] using h'

theorem zero_or_one_of_ori {s : Shape} (hb : S_.BroadcastsInDim s (![] : Fin 0 → Fin s.rank)) (x : FVec Ideal s .f32) (i : s.Idx)
    (h : ori (cmpf .oeq x (broadcastInDim s ![] hb (constant S_ .f32 0x00000000#32)))
          (cmpf .oeq x (broadcastInDim s ![] hb (constant S_ .f32 0x3F800000#32))) i = 1#1) :
    x i = 0 ∨ x i = 1 := by
  have h' : IntOp.ori (Ideal.cmp .oeq (x i) (Ideal.ofBits .f32 0x00000000#32))
      (Ideal.cmp .oeq (x i) (Ideal.ofBits .f32 0x3F800000#32)) = 1#1 := h
  simpa [IntOp.ori_eq_one, Ideal.cmp, StableHlo.Predicate.ofBool_eq_one_iff] using h'

variable [Cert.Pre_finite_inputs.Facts]

theorem decode (X : FVec Ideal S1024x256 .f32) (A : FVec Ideal S1024x1024 .f32) (W : FVec Ideal S4x256x32 .f32)
    (T : FVec Ideal S4x1x64 .f32) (Wo : FVec Ideal S128x1 .f32) (ao : FVec Ideal S1x2 .f32)
    (h : Cert.Pre_finite_inputs.fn (F := Ideal) X A W T Wo ao = fun _ => 1#1) :
    (∀ i, ∃ r : ℝ, X i = (r : EReal)) ∧ (∀ i, ∃ r : ℝ, A i = (r : EReal)) ∧ (∀ i, ∃ r : ℝ, W i = (r : EReal))
      ∧ (∀ i, ∃ r : ℝ, T i = (r : EReal)) ∧ (∀ i, ∃ r : ℝ, Wo i = (r : EReal)) ∧ (∀ i, ∃ r : ℝ, ao i = (r : EReal))
      ∧ (∀ i, A i = 0 ∨ A i = 1) := by
  have h0 := congrFun h ValueIdx.ix0
  dsimp only [fn, fn_part1, fn_part2, andi] at h0
  simp only [IntOp.andi_eq_one] at h0
  obtain ⟨⟨⟨⟨⟨⟨hX, hA⟩, hW⟩, hT⟩, hWo⟩, hao⟩, hA01⟩ := h0
  exact ⟨real_of_all hX, real_of_all hA, real_of_all hW, real_of_all hT, real_of_all hWo, real_of_all hao,
    fun i => zero_or_one_of_ori _ A i (Host.reduce_andi_all _ _ _ _ _ hA01 i)⟩

end Cert.PreDecode
-- ==== Proof.lean ====
import proofs.«135979_g12610023981851_fold_wed_c4_432_5_alg».proof.Defs
import proofs.«135979_g12610023981851_fold_wed_c4_432_5_alg».proof.Proof.KFrame
import proofs.«135979_g12610023981851_fold_wed_c4_432_5_alg».proof.Proof.BFrame
import proofs.«135979_g12610023981851_fold_wed_c4_432_5_alg».proof.Proof.KValRunTop
import proofs.«135979_g12610023981851_fold_wed_c4_432_5_alg».proof.Proof.RefValue
import proofs.«135979_g12610023981851_fold_wed_c4_432_5_alg».proof.Proof.RefNetApply
import proofs.«135979_g12610023981851_fold_wed_c4_432_5_alg».proof.Proof.Bridge
import proofs.«135979_g12610023981851_fold_wed_c4_432_5_alg».proof.Proof.PreDecode
import proofs.«135979_g12610023981851_fold_wed_c4_432_5_alg».proof.Proof.Gen.Pre_finite_inputs
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Run.run (F := Ideal) m ρ)

-- both runs end at one expression in the inputs, dense on one side and over the edge list on the other; they agree where every input is real and the adjacency entries are 0 or 1
theorem algebraic : Cert.algebraic_KernelIdeal_ReferenceIdeal := by
  intro m ρ m' ρ' hpre hagree
  refine ⟨fun c => Cert.KernelIdeal.Gen.outArr m c, Cert.KernelIdeal.Gen.run_value m ρ, ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4, h5⟩ := hagree c
  rw [h0, h1, h2, h3, h4, h5]
  obtain ⟨hX, hA, hW, hT, hWo, hao, h01⟩ := Cert.PreDecode.decode _ _ _ _ _ _ (hpre c)
  funext y
  obtain ⟨i, z, rfl⟩ : ∃ (i : Fin 1024) (z : Fin 1), y = ix2 i z := ⟨y 0, y 1, eq_ix2 y⟩
  obtain rfl : z = 0 := Subsingleton.elim _ _
  rw [Cert.RefNet.refNet_apply]
  unfold Cert.KernelIdeal.Gen.outArr
  simp only [Cert.KernelIdeal.Gen.V_main_arg0 m c, Cert.KernelIdeal.Gen.V_main_arg1 m c, Cert.KernelIdeal.Gen.V_main_arg2 m c,
    Cert.KernelIdeal.Gen.V_main_arg3 m c, Cert.KernelIdeal.Gen.V_main_arg4 m c, Cert.KernelIdeal.Gen.V_main_arg5 m c]
  exact Cert.Spec.netR_eq_netK _ _ _ _ _ _ (fun a b => hX (ix2 a b)) (fun a b => h01 (ix2 a b))
    (fun k a b => hW (ix3 k a b)) (fun k u => hT (ix3 k 0 u)) (fun u => hWo (ix2 u 0)) (fun u => hao (ix2 0 u)) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
